-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S2048x2048 : Shape := ⟨2, ![2048, 2048]⟩
abbrev S128 : Shape := ⟨1, ![128]⟩
abbrev S2048x128 : Shape := ⟨2, ![2048, 128]⟩
abbrev S2x512x256 : Shape := ⟨3, ![2, 512, 256]⟩
abbrev S1x512x256 : Shape := ⟨3, ![1, 512, 256]⟩
abbrev S1x512x512 : Shape := ⟨3, ![1, 512, 512]⟩
abbrev S1x512 : Shape := ⟨2, ![1, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S128 : S_.BroadcastsInDim S128 (![] : Fin 0 → Fin S128.rank)
  reducesTo_S128_S_d0 : S128.ReducesTo [0] S_
  bcast_S_S2048x128 : S_.BroadcastsInDim S2048x128 (![] : Fin 0 → Fin S2048x128.rank)
  reducesTo_S2048x128_S_d0_1 : S2048x128.ReducesTo [0, 1] S_
  bcast_S_S2x512x256 : S_.BroadcastsInDim S2x512x256 (![] : Fin 0 → Fin S2x512x256.rank)
  reducesTo_S2x512x256_S_d0_1_2 : S2x512x256.ReducesTo [0, 1, 2] S_
  bcast_S_S1x512x256 : S_.BroadcastsInDim S1x512x256 (![] : Fin 0 → Fin S1x512x256.rank)
  reducesTo_S1x512x256_S_d0_1_2 : S1x512x256.ReducesTo [0, 1, 2] S_
  bcast_S_S1x512x512 : S_.BroadcastsInDim S1x512x512 (![] : Fin 0 → Fin S1x512x512.rank)
  reducesTo_S1x512x512_S_d0_1_2 : S1x512x512.ReducesTo [0, 1, 2] S_
  bcast_S_S1x512 : S_.BroadcastsInDim S1x512 (![] : Fin 0 → Fin S1x512.rank)
  reducesTo_S1x512_S_d0_1 : S1x512.ReducesTo [0, 1] S_

variable [Facts]

def fn_part3 {F : FTy → Type} [FloatOps F] (main_arg11 : FVec F S1x512x512 .f32) (main_arg12 : FVec F S1x512 .f32) (main_v48 : IVec S_ 1) (main_v49 : FVec F S1x512x256 .f32) (main_v50 : FVec F S1x512x256 .f32) : IVec S_ 1 :=
  let main_v51 : IVec S1x512x256 1 := cmpf .olt main_v49 main_v50
  let main_c_19 : IVec S_ 1 := constantI S_ 1 1#1
  let main_v52 : IVec S_ 1 := (fun x v => Host.reduce IntOp.andi x v reducesTo_S1x512x256_S_d0_1_2 h_S_) main_v51 main_c_19
  let main_v53 : IVec S_ 1 := andi main_v48 main_v52
  let main_v54 : FVec F S1x512x512 .f32 := Host.absf main_arg11
  let main_cst_20 : FVec F S_ .f32 := constant S_ .f32 0x7F800000#32
  let main_v55 : FVec F S1x512x512 .f32 := broadcastInDim S1x512x512 ![] bcast_S_S1x512x512 main_cst_20
  let main_v56 : IVec S1x512x512 1 := cmpf .olt main_v54 main_v55
  let main_c_21 : IVec S_ 1 := constantI S_ 1 1#1
  let main_v57 : IVec S_ 1 := (fun x v => Host.reduce IntOp.andi x v reducesTo_S1x512x512_S_d0_1_2 h_S_) main_v56 main_c_21
  let main_v58 : IVec S_ 1 := andi main_v53 main_v57
  let main_v59 : FVec F S1x512 .f32 := Host.absf main_arg12
  let main_cst_22 : FVec F S_ .f32 := constant S_ .f32 0x7F800000#32
  let main_v60 : FVec F S1x512 .f32 := broadcastInDim S1x512 ![] bcast_S_S1x512 main_cst_22
  let main_v61 : IVec S1x512 1 := cmpf .olt main_v59 main_v60
  let main_c_23 : IVec S_ 1 := constantI S_ 1 1#1
  let main_v62 : IVec S_ 1 := (fun x v => Host.reduce IntOp.andi x v reducesTo_S1x512_S_d0_1 h_S_) main_v61 main_c_23
  let main_v63 : IVec S_ 1 := andi main_v58 main_v62
  main_v63

def fn_part2 {F : FTy → Type} [FloatOps F] (main_arg7 : FVec F S2048x128 .f32) (main_arg8 : FVec F S2048x128 .f32) (main_arg9 : FVec F S2x512x256 .f32) (main_arg10 : FVec F S1x512x256 .f32) (main_arg11 : FVec F S1x512x512 .f32) (main_arg12 : FVec F S1x512 .f32) (main_v33 : IVec S_ 1) : IVec S_ 1 :=
  let main_v34 : FVec F S2048x128 .f32 := Host.absf main_arg7
  let main_cst_12 : FVec F S_ .f32 := constant S_ .f32 0x7F800000#32
  let main_v35 : FVec F S2048x128 .f32 := broadcastInDim S2048x128 ![] bcast_S_S2048x128 main_cst_12
  let main_v36 : IVec S2048x128 1 := cmpf .olt main_v34 main_v35
  let main_c_13 : IVec S_ 1 := constantI S_ 1 1#1
  let main_v37 : IVec S_ 1 := (fun x v => Host.reduce IntOp.andi x v reducesTo_S2048x128_S_d0_1 h_S_) main_v36 main_c_13
  let main_v38 : IVec S_ 1 := andi main_v33 main_v37
  let main_v39 : FVec F S2048x128 .f32 := Host.absf main_arg8
  let main_cst_14 : FVec F S_ .f32 := constant S_ .f32 0x7F800000#32
  let main_v40 : FVec F S2048x128 .f32 := broadcastInDim S2048x128 ![] bcast_S_S2048x128 main_cst_14
  let main_v41 : IVec S2048x128 1 := cmpf .olt main_v39 main_v40
  let main_c_15 : IVec S_ 1 := constantI S_ 1 1#1
  let main_v42 : IVec S_ 1 := (fun x v => Host.reduce IntOp.andi x v reducesTo_S2048x128_S_d0_1 h_S_) main_v41 main_c_15
  let main_v43 : IVec S_ 1 := andi main_v38 main_v42
  let main_v44 : FVec F S2x512x256 .f32 := Host.absf main_arg9
  let main_cst_16 : FVec F S_ .f32 := constant S_ .f32 0x7F800000#32
  let main_v45 : FVec F S2x512x256 .f32 := broadcastInDim S2x512x256 ![] bcast_S_S2x512x256 main_cst_16
  let main_v46 : IVec S2x512x256 1 := cmpf .olt main_v44 main_v45
  let main_c_17 : IVec S_ 1 := constantI S_ 1 1#1
  let main_v47 : IVec S_ 1 := (fun x v => Host.reduce IntOp.andi x v reducesTo_S2x512x256_S_d0_1_2 h_S_) main_v46 main_c_17
  let main_v48 : IVec S_ 1 := andi main_v43 main_v47
  let main_v49 : FVec F S1x512x256 .f32 := Host.absf main_arg10
  let main_cst_18 : FVec F S_ .f32 := constant S_ .f32 0x7F800000#32
  let main_v50 : FVec F S1x512x256 .f32 := broadcastInDim S1x512x256 ![] bcast_S_S1x512x256 main_cst_18
  fn_part3 (F := F) main_arg11 main_arg12 main_v48 main_v49 main_v50

def fn_part1 {F : FTy → Type} [FloatOps F] (main_arg4 : FVec F S2048x2048 .f32) (main_arg5 : FVec F S2048x2048 .f32) (main_arg6 : FVec F S128 .f32) (main_arg7 : FVec F S2048x128 .f32) (main_arg8 : FVec F S2048x128 .f32) (main_arg9 : FVec F S2x512x256 .f32) (main_arg10 : FVec F S1x512x256 .f32) (main_arg11 : FVec F S1x512x512 .f32) (main_arg12 : FVec F S1x512 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S2048x512 .f32) (main_arg1 : FVec F S2048x512 .f32) (main_arg2 : FVec F S2048x2048 .f32) (main_arg3 : FVec F S2048x2048 .f32) (main_arg4 : FVec F S2048x2048 .f32) (main_arg5 : FVec F S2048x2048 .f32) (main_arg6 : FVec F S128 .f32) (main_arg7 : FVec F S2048x128 .f32) (main_arg8 : FVec F S2048x128 .f32) (main_arg9 : FVec F S2x512x256 .f32) (main_arg10 : FVec F S1x512x256 .f32) (main_arg11 : FVec F S1x512x512 .f32) (main_arg12 : FVec F S1x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_v13 main_v16
-- ==== Kernel.lean ====
abbrev S2048x512 : Shape := ⟨2, ![2048, 512]⟩
abbrev S2048x2048 : Shape := ⟨2, ![2048, 2048]⟩
abbrev S128 : Shape := ⟨1, ![128]⟩
abbrev S2048x128 : Shape := ⟨2, ![2048, 128]⟩
abbrev S2x512x256 : Shape := ⟨3, ![2, 512, 256]⟩
abbrev S1x512x256 : Shape := ⟨3, ![1, 512, 256]⟩
abbrev S1x512x512 : Shape := ⟨3, ![1, 512, 512]⟩
abbrev S1x512 : Shape := ⟨2, ![1, 512]⟩
abbrev S512x256 : Shape := ⟨2, ![512, 256]⟩
abbrev S512x512 : Shape := ⟨2, ![512, 512]⟩
abbrev S128x1 : Shape := ⟨2, ![128, 1]⟩
abbrev S128x512 : Shape := ⟨2, ![128, 512]⟩
abbrev S512x128 : Shape := ⟨2, ![512, 128]⟩
abbrev S128x256 : Shape := ⟨2, ![128, 256]⟩
abbrev S256x2048 : Shape := ⟨2, ![256, 2048]⟩
abbrev S256x128 : Shape := ⟨2, ![256, 128]⟩
abbrev S256x512 : Shape := ⟨2, ![256, 512]⟩
abbrev S256x256 : Shape := ⟨2, ![256, 256]⟩
abbrev S1x256 : Shape := ⟨2, ![1, 256]⟩

abbrev nBuf : Space → Nat
  | .hbm => 22
  | .vmem => 41
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S128, .f32⟩
  | .hbm, ⟨7, _⟩ => ⟨S2048x128, .f32⟩
  | .hbm, ⟨8, _⟩ => ⟨S2048x128, .f32⟩
  | .hbm, ⟨9, _⟩ => ⟨S2x512x256, .f32⟩
  | .hbm, ⟨10, _⟩ => ⟨S1x512x256, .f32⟩
  | .hbm, ⟨11, _⟩ => ⟨S1x512x512, .f32⟩
  | .hbm, ⟨12, _⟩ => ⟨S1x512, .f32⟩
  | .hbm, ⟨13, _⟩ => ⟨S512x256, .f32⟩
  | .hbm, ⟨14, _⟩ => ⟨S512x512, .f32⟩
  | .hbm, ⟨15, _⟩ => ⟨S128x1, .f32⟩
  | .hbm, ⟨16, _⟩ => ⟨S2048x512, .bf16⟩
  | .hbm, ⟨17, _⟩ => ⟨S2048x512, .bf16⟩
  | .hbm, ⟨18, _⟩ => ⟨S128x512, .f32⟩
  | .hbm, ⟨19, _⟩ => ⟨S128x512, .f32⟩
  | .hbm, ⟨20, _⟩ => ⟨S2048x512, .f32⟩
  | .hbm, ⟨21, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S2x512x256, .f32⟩
  | .local _ .vmem, ⟨9, _⟩ => ⟨S512x256, .f32⟩
  | .local _ .vmem, ⟨10, _⟩ => ⟨S512x512, .f32⟩
  | .local _ .vmem, ⟨11, _⟩ => ⟨S128x1, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S256x2048, .f32⟩
  | .local _ .vmem, ⟨21, _⟩ => ⟨S256x2048, .f32⟩
  | .local _ .vmem, ⟨22, _⟩ => ⟨S256x2048, .f32⟩
  | .local _ .vmem, ⟨23, _⟩ => ⟨S256x2048, .f32⟩
  | .local _ .vmem, ⟨24, _⟩ => ⟨S256x2048, .f32⟩
  | .local _ .vmem, ⟨25, _⟩ => ⟨S256x2048, .f32⟩
  | .local _ .vmem, ⟨26, _⟩ => ⟨S256x2048, .f32⟩
  | .local _ .vmem, ⟨27, _⟩ => ⟨S256x2048, .f32⟩
  | .local _ .vmem, ⟨28, _⟩ => ⟨S2048x512, .bf16⟩
  | .local _ .vmem, ⟨29, _⟩ => ⟨S2048x512, .bf16⟩
  | .local _ .vmem, ⟨30, _⟩ => ⟨S256x128, .f32⟩
  | .local _ .vmem, ⟨31, _⟩ => ⟨S256x128, .f32⟩
  | .local _ .vmem, ⟨32, _⟩ => ⟨S256x128, .f32⟩
  | .local _ .vmem, ⟨33, _⟩ => ⟨S256x128, .f32⟩
  | .local _ .vmem, ⟨34, _⟩ => ⟨S128x512, .f32⟩
  | .local _ .vmem, ⟨35, _⟩ => ⟨S128x512, .f32⟩
  | .local _ .vmem, ⟨36, _⟩ => ⟨S1x512, .f32⟩
  | .local _ .vmem, ⟨37, _⟩ => ⟨S256x512, .f32⟩
  | .local _ .vmem, ⟨38, _⟩ => ⟨S256x512, .f32⟩
  | .local _ .vmem, ⟨39, _⟩ => ⟨S256x512, .f32⟩
  | .local _ .vmem, ⟨40, _⟩ => ⟨S256x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3_0 : Ref sig .tc := ⟨.hbm, 16, rfl⟩
abbrev main_v3_1 : Ref sig .tc := ⟨.hbm, 17, rfl⟩
abbrev main_v3_2 : Ref sig .tc := ⟨.hbm, 18, rfl⟩
abbrev main_v3_3 : Ref sig .tc := ⟨.hbm, 19, rfl⟩
abbrev main_v4_0 : Ref sig .tc := ⟨.hbm, 20, rfl⟩
abbrev main_v4_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_scratch1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg9_0 : Ref sig .tc := ⟨.vmem, 35, rfl⟩
abbrev cc1_stg10_0 : Ref sig .tc := ⟨.vmem, 36, rfl⟩
abbrev cc1_stg11_0 : Ref sig .tc := ⟨.vmem, 37, rfl⟩
abbrev cc1_stg11_1 : Ref sig .tc := ⟨.vmem, 38, rfl⟩
abbrev cc1_stg12_0 : Ref sig .tc := ⟨.vmem, 39, rfl⟩
abbrev cc1_stg12_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem5_0 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem9_0 : DmaSem sig := 33
abbrev cc1_sem10_0 : DmaSem sig := 34
abbrev cc1_sem11_0 : DmaSem sig := 35
abbrev cc1_sem11_1 : DmaSem sig := 36
abbrev cc1_sem12_0 : DmaSem sig := 37
abbrev cc1_sem12_1 : DmaSem sig := 38

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v38 : BitVec 1 := Scalar.cmpi .eq arg0 c3_i32
  let v39 : BitVec 32 := Scalar.extui v38
  let c0_i32_26 : BitVec 32 := 0#32
  let v40 : BitVec 1 := Scalar.cmpi .ne v39 c0_i32_26
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev grid1 : Pipeline.Grid := ⟨1, ![8], ![false]⟩

def k1_off1 (i : grid1.Coords) : Fin 2 → Nat :=
  let arg0 : BitVec 32 := BitVec.ofNat 32 (i 0).val
  let c256_i32 : BitVec 32 := 256#32
  let v56 : BitVec 32 := Scalar.muli arg0 c256_i32
  let v57 : Index := Scalar.indexCast v56
  let c0_34 : Index := 0#32
  ![v57.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S2048x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S128x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S256x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x512 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  shapeCasts_S1x512x256_S512x256 : S1x512x256.ShapeCasts S512x256
  shapeCasts_S1x512x512_S512x512 : S1x512x512.ShapeCasts S512x512
  shapeCasts_S128_S128x1 : S128.ShapeCasts S128x1
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S2x512x256_S1x512x256_0_0_0 : ∀ a, (![0, 0, 0] : Fin 3 → Nat) a + S1x512x256.size a ≤ S2x512x256.size a
  h_S1x512x256 : 0 < S1x512x256.numel
  inb_S2x512x256_S1x512x256_1_0_0 : ∀ a, (![1, 0, 0] : Fin 3 → Nat) a + S1x512x256.size a ≤ S2x512x256.size a
  concatenates_S512x256_S512x256_S512x512_d1 : Shape.Concatenates [S512x256, S512x256] S512x512 1
  packedbf16_S512x512_S512x512_0_0 : (Rect.unit (s := S512x512) ![0, 0] S512x512.size inb_S512x512_S512x512_0_0).PackedRows (EltTy.packing .bf16)
  inb_S512x128_S512x128_0_0 : ∀ a, (![0, 0] : Fin 2 → Nat) a + S512x128.size a ≤ S512x128.size a
  h_S512x128 : 0 < S512x128.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  broadcasts_S128x1_S128x256 : S128x1.Broadcasts S128x256
  shapeCasts_S512x512_S512x512 : S512x512.ShapeCasts S512x512
  broadcasts_S128x1_S128x512 : S128x1.Broadcasts S128x512
  slices_S128x512_o0_0_S128x256 : S128x512.Slices ![0, 0] S128x256
  slices_S128x512_o0_256_S128x256 : S128x512.Slices ![0, 256] S128x256
  concatenates_S128x256_S128x256_S128x512_d1 : Shape.Concatenates [S128x256, S128x256] S128x512 1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S256x2048_S256x2048_0_0 : ∀ a, (![0, 0] : Fin 2 → Nat) a + S256x2048.size a ≤ S256x2048.size a
  h_S256x2048 : 0 < S256x2048.numel
  slices_S256x512_o0_0_S256x256 : S256x512.Slices ![0, 0] S256x256
  slices_S256x512_o0_256_S256x256 : S256x512.Slices ![0, 256] S256x256
  inb_S256x128_S256x128_0_0 : ∀ a, (![0, 0] : Fin 2 → Nat) a + S256x128.size a ≤ S256x128.size a
  h_S256x128 : 0 < S256x128.numel
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  slices_S1x512_o0_0_S1x256 : S1x512.Slices ![0, 0] S1x256
  broadcasts_S1x256_S256x256 : S1x256.Broadcasts S256x256
  slices_S1x512_o0_256_S1x256 : S1x512.Slices ![0, 256] S1x256
  concatenates_S256x256_S256x256_S256x512_d1 : Shape.Concatenates [S256x256, S256x256] S256x512 1
  inb_S256x512_S256x512_0_0 : ∀ a, (![0, 0] : Fin 2 → Nat) a + S256x512.size a ≤ S256x512.size a
  dot_S512x512_S512x256_S512x256_1_0_0_1_n_n_wf : DotDims.WF S512x512 S512x256 S512x256 [1] [0] [0] [1] [] []
  dot_S512x128_S512x512_S128x512_0_0_1_1_n_n_wf : DotDims.WF S512x128 S512x512 S128x512 [0] [0] [1] [1] [] []
  dot_S128x512_S512x256_S128x256_1_0_0_1_n_n_wf : DotDims.WF S128x512 S512x256 S128x256 [1] [0] [0] [1] [] []
  dot_S128x512_S512x512_S128x512_1_0_0_1_n_n_wf : DotDims.WF S128x512 S512x512 S128x512 [1] [0] [0] [1] [] []
  dot_S256x2048_S2048x512_S256x512_1_0_0_1_n_n_wf : DotDims.WF S256x2048 S2048x512 S256x512 [1] [0] [0] [1] [] []
  dot_S256x128_S128x512_S256x512_1_0_0_1_n_n_wf : DotDims.WF S256x128 S128x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S2048x512.size a
  hwx0_0 : ∀ i : grid0.Coords, EltTy.bits .f32 = 32 ∨ (Rect.block (s := S2048x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S2048x512.size a
  hwx0_1 : ∀ i : grid0.Coords, EltTy.bits .f32 = 32 ∨ (Rect.block (s := S2048x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S2048x128.size a
  hwx0_2 : ∀ i : grid0.Coords, EltTy.bits .f32 = 32 ∨ (Rect.block (s := S2048x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S2048x128.size a
  hwx0_3 : ∀ i : grid0.Coords, EltTy.bits .f32 = 32 ∨ (Rect.block (s := S2048x128) S512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x512x256.size a ≤ S2x512x256.size a
  hwx0_4 : ∀ i : grid0.Coords, EltTy.bits .f32 = 32 ∨ (Rect.block (s := S2x512x256) S2x512x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S128x1.size a
  hwx0_7 : ∀ i : grid0.Coords, EltTy.bits .f32 = 32 ∨ (Rect.block (s := S128x1) S128x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S2048x512.size a
  hwx0_8 : ∀ i : grid0.Coords, EltTy.bits .bf16 = 32 ∨ (Rect.block (s := S2048x512) S512x512.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S2048x512.size a
  hwx0_9 : ∀ i : grid0.Coords, EltTy.bits .bf16 = 32 ∨ (Rect.block (s := S2048x512) S512x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x512.size a ≤ S128x512.size a
  hwx0_10 : ∀ i : grid0.Coords, EltTy.bits .f32 = 32 ∨ (Rect.block (s := S128x512) S128x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x512.size a ≤ S128x512.size a
  hwx0_11 : ∀ i : grid0.Coords, EltTy.bits .f32 = 32 ∨ (Rect.block (s := S128x512) S128x512.size (cc0_transform_11 i) (hinb0_11 i)).WholeWords (EltTy.packing .f32)
  hrank1 : 0 < grid1.rank
  k1_off1_inb : ∀ i : grid1.Coords, ∀ a, (k1_off1 i) a + S256x512.size a ≤ S2048x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S2048x2048.size a
  hwx1_0 : ∀ i : grid1.Coords, EltTy.bits .f32 = 32 ∨ (Rect.block (s := S2048x2048) S256x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S2048x2048.size a
  hwx1_1 : ∀ i : grid1.Coords, EltTy.bits .f32 = 32 ∨ (Rect.block (s := S2048x2048) S256x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x2048.size a ≤ S2048x2048.size a
  hwx1_2 : ∀ i : grid1.Coords, EltTy.bits .f32 = 32 ∨ (Rect.block (s := S2048x2048) S256x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S2048x2048.size a
  hwx1_3 : ∀ i : grid1.Coords, EltTy.bits .f32 = 32 ∨ (Rect.block (s := S2048x2048) S256x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048x512.size a ≤ S2048x512.size a
  hwx1_4 : ∀ i : grid1.Coords, EltTy.bits .bf16 = 32 ∨ (Rect.block (s := S2048x512) S2048x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2048x512.size a ≤ S2048x512.size a
  hwx1_5 : ∀ i : grid1.Coords, EltTy.bits .bf16 = 32 ∨ (Rect.block (s := S2048x512) S2048x512.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x128.size a ≤ S2048x128.size a
  hwx1_6 : ∀ i : grid1.Coords, EltTy.bits .f32 = 32 ∨ (Rect.block (s := S2048x128) S256x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x128.size a ≤ S2048x128.size a
  hwx1_7 : ∀ i : grid1.Coords, EltTy.bits .f32 = 32 ∨ (Rect.block (s := S2048x128) S256x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x512.size a ≤ S128x512.size a
  hwx1_8 : ∀ i : grid1.Coords, EltTy.bits .f32 = 32 ∨ (Rect.block (s := S128x512) S128x512.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x512.size a ≤ S128x512.size a
  hwx1_9 : ∀ i : grid1.Coords, EltTy.bits .f32 = 32 ∨ (Rect.block (s := S128x512) S128x512.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x512.size a ≤ S1x512.size a
  hwx1_10 : ∀ i : grid1.Coords, EltTy.bits .f32 = 32 ∨ (Rect.block (s := S1x512) S1x512.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S256x512.size a ≤ S2048x512.size a
  hwx1_11 : ∀ i : grid1.Coords, EltTy.bits .f32 = 32 ∨ (Rect.block (s := S2048x512) S256x512.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S256x512.size a ≤ S2048x512.size a
  hwx1_12 : ∀ i : grid1.Coords, EltTy.bits .f32 = 32 ∨ (Rect.block (s := S2048x512) S256x512.size (cc1_transform_12 i) (hinb1_12 i)).WholeWords (EltTy.packing .f32)

variable [Facts₀]

def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x128_S512x512_S128x512_0_0_1_1_n_n : DotDims S512x128 S512x512 S128x512 where
  lhsContracting := [0]
  rhsContracting := [0]
  lhsNonContracting := [1]
  rhsNonContracting := [1]
  lhsBatch := []
  rhsBatch := []
  wf := dot_S512x128_S512x512_S128x512_0_0_1_1_n_n_wf
def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf
def dot_S256x128_S128x512_S256x512_1_0_0_1_n_n : DotDims S256x128 S128x512 S256x512 where
  lhsContracting := [1]
  rhsContracting := [0]
  lhsNonContracting := [0]
  rhsNonContracting := [1]
  lhsBatch := []
  rhsBatch := []
  wf := dot_S256x128_S128x512_S256x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S512x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S2x512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S128x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3_0) S512x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_1) S512x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v3_2) S128x512.size cc0_transform_10 reads0_10 true true 1 stage0_10 sem0_10
    hrank0 hreads0_10 hinb0_10 nbuf0_10 (Memref.isWhole_whole _) hwx0_10 hstage0_10

abbrev win0_11 : Pipeline.Window sig grid0 :=
  Pipeline.Window.ofSpec (Memref.whole main_v3_3) S128x512.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond3 i == 1#1) | 11 => fun i => !(k0_cond3 i == 1#1) | ⟨_ + 12, h⟩ => absurd h (Nat.not_lt.2 (Nat.le_add_left _ _))

abbrev win1_0 : Pipeline.Window sig grid1 :=
  Pipeline.Window.ofSpec (Memref.whole main_arg2) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_0) S2048x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3_1) S2048x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S256x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S256x128.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v3_2) S128x512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v3_3) S128x512.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg12) S1x512.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v4_0) S256x512.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v4_1) S256x512.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S2048x512 : Shape := ⟨2, ![2048, 512]⟩
abbrev S2048x2048 : Shape := ⟨2, ![2048, 2048]⟩
abbrev S128 : Shape := ⟨1, ![128]⟩
abbrev S2048x128 : Shape := ⟨2, ![2048, 128]⟩
abbrev S2x512x256 : Shape := ⟨3, ![2, 512, 256]⟩
abbrev S1x512x256 : Shape := ⟨3, ![1, 512, 256]⟩
abbrev S1x512x512 : Shape := ⟨3, ![1, 512, 512]⟩
abbrev S1x512 : Shape := ⟨2, ![1, 512]⟩
abbrev S_ : Shape := ⟨0, ![]⟩
abbrev S128x128 : Shape := ⟨2, ![128, 128]⟩
abbrev S128x1 : Shape := ⟨2, ![128, 1]⟩
abbrev S128x2048 : Shape := ⟨2, ![128, 2048]⟩
abbrev S512x256 : Shape := ⟨2, ![512, 256]⟩
abbrev S2048x256 : Shape := ⟨2, ![2048, 256]⟩
abbrev S1x2048x256 : Shape := ⟨3, ![1, 2048, 256]⟩
abbrev S2x2048x256 : Shape := ⟨3, ![2, 2048, 256]⟩
abbrev S1x2x2048x256 : Shape := ⟨4, ![1, 2, 2048, 256]⟩
abbrev S2x2048x512 : Shape := ⟨3, ![2, 2048, 512]⟩
abbrev S512x512 : Shape := ⟨2, ![512, 512]⟩
abbrev S1x2048x512 : Shape := ⟨3, ![1, 2048, 512]⟩
abbrev S1x2x2048x512 : Shape := ⟨4, ![1, 2, 2048, 512]⟩

abbrev nBuf : Space → Nat
  | .hbm => 147
  | .vmem => 0
  | .smem => 0
  | _ => 0

abbrev hbmTy0_0 (i : Nat) : BufTy := match i % 128 with
  | 0 => ⟨S2048x512, .f32⟩
  | 1 => ⟨S2048x512, .f32⟩
  | 2 => ⟨S2048x2048, .f32⟩
  | 3 => ⟨S2048x2048, .f32⟩
  | 4 => ⟨S2048x2048, .f32⟩
  | 5 => ⟨S2048x2048, .f32⟩
  | 6 => ⟨S128, .f32⟩
  | 7 => ⟨S2048x128, .f32⟩
  | 8 => ⟨S2048x128, .f32⟩
  | 9 => ⟨S2x512x256, .f32⟩
  | 10 => ⟨S1x512x256, .f32⟩
  | 11 => ⟨S1x512x512, .f32⟩
  | 12 => ⟨S1x512, .f32⟩
  | 13 => ⟨S128, .f32⟩
  | 14 => ⟨S_, .f32⟩
  | 15 => ⟨S128, .f32⟩
  | 16 => ⟨S128x128, .i32⟩
  | 17 => ⟨S128x128, .i32⟩
  | 18 => ⟨S_, .i32⟩
  | 19 => ⟨S128x128, .i32⟩
  | 20 => ⟨S128x128, .i32⟩
  | 21 => ⟨S128x128, .i1⟩
  | 22 => ⟨S128x1, .f32⟩
  | 23 => ⟨S_, .f32⟩
  | 24 => ⟨S128x128, .f32⟩
  | 25 => ⟨S128x128, .f32⟩
  | 26 => ⟨S128x128, .f32⟩
  | 27 => ⟨S2048x128, .f32⟩
  | 28 => ⟨S2048x128, .f32⟩
  | 29 => ⟨S128x2048, .f32⟩
  | 30 => ⟨S2048x2048, .f32⟩
  | 31 => ⟨S128x2048, .f32⟩
  | 32 => ⟨S2048x2048, .f32⟩
  | 33 => ⟨S2048x2048, .f32⟩
  | 34 => ⟨S128x2048, .f32⟩
  | 35 => ⟨S2048x2048, .f32⟩
  | 36 => ⟨S128x2048, .f32⟩
  | 37 => ⟨S2048x2048, .f32⟩
  | 38 => ⟨S2048x2048, .f32⟩
  | 39 => ⟨S_, .f32⟩
  | 40 => ⟨S128, .f32⟩
  | 41 => ⟨S128x128, .i32⟩
  | 42 => ⟨S128x128, .i32⟩
  | 43 => ⟨S_, .i32⟩
  | 44 => ⟨S128x128, .i32⟩
  | 45 => ⟨S128x128, .i32⟩
  | 46 => ⟨S128x128, .i1⟩
  | 47 => ⟨S128x1, .f32⟩
  | 48 => ⟨S_, .f32⟩
  | 49 => ⟨S128x128, .f32⟩
  | 50 => ⟨S128x128, .f32⟩
  | 51 => ⟨S128x128, .f32⟩
  | 52 => ⟨S2048x128, .f32⟩
  | 53 => ⟨S2048x128, .f32⟩
  | 54 => ⟨S128x2048, .f32⟩
  | 55 => ⟨S2048x2048, .f32⟩
  | 56 => ⟨S128x2048, .f32⟩
  | 57 => ⟨S2048x2048, .f32⟩
  | 58 => ⟨S2048x2048, .f32⟩
  | 59 => ⟨S128x2048, .f32⟩
  | 60 => ⟨S2048x2048, .f32⟩
  | 61 => ⟨S128x2048, .f32⟩
  | 62 => ⟨S2048x2048, .f32⟩
  | 63 => ⟨S2048x2048, .f32⟩
  | 64 => ⟨S1x512x256, .f32⟩
  | 65 => ⟨S512x256, .f32⟩
  | 66 => ⟨S2048x256, .f32⟩
  | 67 => ⟨S2048x256, .f32⟩
  | 68 => ⟨S2048x256, .f32⟩
  | 69 => ⟨S2048x256, .f32⟩
  | 70 => ⟨S2048x256, .f32⟩
  | 71 => ⟨S2048x256, .f32⟩
  | 72 => ⟨S2048x256, .f32⟩
  | 73 => ⟨S2048x256, .f32⟩
  | 74 => ⟨S1x2048x256, .f32⟩
  | 75 => ⟨S1x2048x256, .f32⟩
  | 76 => ⟨S2x2048x256, .f32⟩
  | 77 => ⟨S1x512x256, .f32⟩
  | 78 => ⟨S512x256, .f32⟩
  | 79 => ⟨S2048x256, .f32⟩
  | 80 => ⟨S2048x256, .f32⟩
  | 81 => ⟨S2048x256, .f32⟩
  | 82 => ⟨S2048x256, .f32⟩
  | 83 => ⟨S2048x256, .f32⟩
  | 84 => ⟨S2048x256, .f32⟩
  | 85 => ⟨S2048x256, .f32⟩
  | 86 => ⟨S2048x256, .f32⟩
  | 87 => ⟨S1x2048x256, .f32⟩
  | 88 => ⟨S1x2048x256, .f32⟩
  | 89 => ⟨S2x2048x256, .f32⟩
  | 90 => ⟨S2x2048x256, .f32⟩
  | 91 => ⟨S512x256, .f32⟩
  | 92 => ⟨S2048x256, .f32⟩
  | 93 => ⟨S2048x256, .f32⟩
  | 94 => ⟨S2048x256, .f32⟩
  | 95 => ⟨S2048x256, .f32⟩
  | 96 => ⟨S2048x256, .f32⟩
  | 97 => ⟨S2048x256, .f32⟩
  | 98 => ⟨S2048x256, .f32⟩
  | 99 => ⟨S2048x256, .f32⟩
  | 100 => ⟨S1x2048x256, .f32⟩
  | 101 => ⟨S1x2048x256, .f32⟩
  | 102 => ⟨S2x2048x256, .f32⟩
  | 103 => ⟨S1x2x2048x256, .f32⟩
  | 104 => ⟨S2x2048x256, .f32⟩
  | 105 => ⟨S2x2048x512, .f32⟩
  | 106 => ⟨S512x512, .f32⟩
  | 107 => ⟨S2048x512, .f32⟩
  | 108 => ⟨S2048x512, .f32⟩
  | 109 => ⟨S2048x512, .f32⟩
  | 110 => ⟨S2048x512, .f32⟩
  | 111 => ⟨S2048x512, .f32⟩
  | 112 => ⟨S2048x512, .f32⟩
  | 113 => ⟨S2048x512, .f32⟩
  | 114 => ⟨S2048x512, .f32⟩
  | 115 => ⟨S1x2048x512, .f32⟩
  | 116 => ⟨S1x2048x512, .f32⟩
  | 117 => ⟨S2x2048x512, .f32⟩
  | 118 => ⟨S1x2x2048x512, .f32⟩
  | 119 => ⟨S_, .f32⟩
  | 120 => ⟨S2x2048x512, .f32⟩
  | 121 => ⟨S_, .f32⟩
  | 122 => ⟨S2x2048x512, .f32⟩
  | 123 => ⟨S2x2048x512, .f32⟩
  | 124 => ⟨S1x512x256, .f32⟩
  | 125 => ⟨S512x256, .f32⟩
  | 126 => ⟨S1x512x256, .f32⟩
  | 127 => ⟨S512x256, .f32⟩
  | _ => ⟨S2048x512, .f32⟩

abbrev hbmTy0_1 (i : Nat) : BufTy := match i % 128 with
  | 0 => ⟨S512x512, .f32⟩
  | 1 => ⟨S1x2048x512, .f32⟩
  | 2 => ⟨S2048x512, .f32⟩
  | 3 => ⟨S2048x512, .f32⟩
  | 4 => ⟨S2048x512, .f32⟩
  | 5 => ⟨S1x2048x512, .f32⟩
  | 6 => ⟨S2048x512, .f32⟩
  | 7 => ⟨S2048x512, .f32⟩
  | 8 => ⟨S1x2048x512, .f32⟩
  | 9 => ⟨S2048x512, .f32⟩
  | 10 => ⟨S2048x512, .f32⟩
  | 11 => ⟨S2048x512, .f32⟩
  | 12 => ⟨S1x2048x512, .f32⟩
  | 13 => ⟨S2048x512, .f32⟩
  | 14 => ⟨S2048x512, .f32⟩
  | 15 => ⟨S2048x512, .f32⟩
  | 16 => ⟨S2048x512, .f32⟩
  | 17 => ⟨S2048x512, .f32⟩
  | 18 => ⟨S2048x512, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_c : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_cst_0 : Ref sig .tc := ⟨.hbm, 23, rfl⟩
abbrev main_call0_call0_v0 : Ref sig .tc := ⟨.hbm, 24, rfl⟩
abbrev main_call0_call0_v1 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_call1_cst : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_c : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_cst_0 : Ref sig .tc := ⟨.hbm, 48, rfl⟩
abbrev main_call1_call0_v0 : Ref sig .tc := ⟨.hbm, 49, rfl⟩
abbrev main_call1_call0_v1 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst : Ref sig .tc := ⟨.hbm, 119, rfl⟩
abbrev main_v82 : Ref sig .tc := ⟨.hbm, 120, rfl⟩
abbrev main_cst_0 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩

abbrev nD : Nat := 1
abbrev τ : Topo := Topo.v7x

variable {F : FTy → Type} [FloatOps F]

class Facts₀ : Prop where
  pads_S128_S128_000 : S128.Pads (![0] : Fin 1 → Nat) ![0] ![0] S128
  h_S_ : 0 < S_.numel
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  transposes_S2048x128_S128x2048_1_0 : S2048x128.Transposes [1, 0] S128x2048
  slices_S2x512x256_S1x512x256_0_0_0 : S2x512x256.Slices ![0, 0, 0] S1x512x256
  shapeCasts_S1x512x256_S512x256 : S1x512x256.ShapeCasts S512x256
  bcast_S2048x256_S1x2048x256_1_2 : S2048x256.BroadcastsInDim S1x2048x256 (![1, 2] : Fin 2 → Fin S1x2048x256.rank)
  concatenates_S1x2048x256_S1x2048x256_S2x2048x256_d0 : Shape.Concatenates [S1x2048x256, S1x2048x256] S2x2048x256 0
  slices_S2x512x256_S1x512x256_1_0_0 : S2x512x256.Slices ![1, 0, 0] S1x512x256
  bcast_S2x2048x256_S1x2x2048x256_1_2_3 : S2x2048x256.BroadcastsInDim S1x2x2048x256 (![1, 2, 3] : Fin 3 → Fin S1x2x2048x256.rank)
  shapeCasts_S1x2x2048x256_S2x2048x256 : S1x2x2048x256.ShapeCasts S2x2048x256
  concatenates_S2x2048x256_S2x2048x256_S2x2048x512_d2 : Shape.Concatenates [S2x2048x256, S2x2048x256] S2x2048x512 2
  shapeCasts_S1x512x512_S512x512 : S1x512x512.ShapeCasts S512x512
  bcast_S2048x512_S1x2048x512_1_2 : S2048x512.BroadcastsInDim S1x2048x512 (![1, 2] : Fin 2 → Fin S1x2048x512.rank)
  concatenates_S1x2048x512_S1x2048x512_S2x2048x512_d0 : Shape.Concatenates [S1x2048x512, S1x2048x512] S2x2048x512 0
  bcast_S2x2048x512_S1x2x2048x512_1_2_3 : S2x2048x512.BroadcastsInDim S1x2x2048x512 (![1, 2, 3] : Fin 3 → Fin S1x2x2048x512.rank)
  reducesTo_S1x2x2048x512_S2x2048x512_d0 : S1x2x2048x512.ReducesTo [0] S2x2048x512
  bcast_S_S2x2048x512 : S_.BroadcastsInDim S2x2048x512 (![] : Fin 0 → Fin S2x2048x512.rank)
  concatenates_S512x256_S512x256_S512x512_d1 : Shape.Concatenates [S512x256, S512x256] S512x512 1
  slices_S2x2048x512_S1x2048x512_0_0_0 : S2x2048x512.Slices ![0, 0, 0] S1x2048x512
  shapeCasts_S1x2048x512_S2048x512 : S1x2048x512.ShapeCasts S2048x512
  slices_S2x2048x512_S1x2048x512_1_0_0 : S2x2048x512.Slices ![1, 0, 0] S1x2048x512
  bcast_S1x512_S2048x512_0_1 : S1x512.BroadcastsInDim S2048x512 (![0, 1] : Fin 2 → Fin S2048x512.rank)
  dot_S2048x128_S128x128_S2048x128_1_0_0_1_n_n_wf : DotDims.WF S2048x128 S128x128 S2048x128 [1] [0] [0] [1] [] []
  dot_S2048x128_S128x2048_S2048x2048_1_0_0_1_n_n_wf : DotDims.WF S2048x128 S128x2048 S2048x2048 [1] [0] [0] [1] [] []
  dot_S2048x512_S512x256_S2048x256_1_0_0_1_n_n_wf : DotDims.WF S2048x512 S512x256 S2048x256 [1] [0] [0] [1] [] []
  dot_S2048x2048_S2048x256_S2048x256_1_0_0_1_n_n_wf : DotDims.WF S2048x2048 S2048x256 S2048x256 [1] [0] [0] [1] [] []
  dot_S2048x512_S512x512_S2048x512_1_0_0_1_n_n_wf : DotDims.WF S2048x512 S512x512 S2048x512 [1] [0] [0] [1] [] []
  dot_S2048x2048_S2048x512_S2048x512_1_0_0_1_n_n_wf : DotDims.WF S2048x2048 S2048x512 S2048x512 [1] [0] [0] [1] [] []

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x2048_S2048x2048_1_0_0_1_n_n : DotDims S2048x128 S128x2048 S2048x2048 where
  lhsContracting := [1]
  rhsContracting := [0]
  lhsNonContracting := [0]
  rhsNonContracting := [1]
  lhsBatch := []
  rhsBatch := []
  wf := dot_S2048x128_S128x2048_S2048x2048_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x2048_S2048x512_S2048x512_1_0_0_1_n_n : DotDims S2048x2048 S2048x512 S2048x512 where
  lhsContracting := [1]
  rhsContracting := [0]
  lhsNonContracting := [0]
  rhsNonContracting := [1]
  lhsBatch := []
  rhsBatch := []
  wf := dot_S2048x2048_S2048x512_S2048x512_1_0_0_1_n_n_wf

class Facts : Prop extends Facts₀ where

variable [Facts]
-- ==== Proof.K0Runs.lean ====
import proofs.«159171_g70626442215508_cont_9to1_m_806_14_alg».proof.Proof.Gen.KernelIdeal.Launch
import proofs.«159171_g70626442215508_cont_9to1_m_806_14_alg».proof.Proof.Gen.KernelIdeal.Skeleton
import proofs.«159171_g70626442215508_cont_9to1_m_806_14_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

end Region0

abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val % 4 = 0 :=
  (by decide +kernel : ∀ t : Fin grid0.N, cond0_0 (grid0.coords t) ↔ t.val % 4 = 0)

abbrev cond0_1 (i : grid0.Coords) : Prop := (Scalar.cmpi .ne (Scalar.extui (Scalar.cmpi .sgt (BitVec.ofNat 32 (i 0).val) 0#32)) 0#32) = 1#1

theorem hcond0_1 : ∀ t : Fin cfg0.N, cond0_1 (grid0.coords t) ↔ ¬t.val % 4 = 0 :=
  (by decide +kernel : ∀ t : Fin grid0.N, cond0_1 (grid0.coords t) ↔ ¬t.val % 4 = 0)

abbrev cond0_2 (i : grid0.Coords) : Prop := k0_cond3 i = 1#1

theorem hcond0_2 : ∀ t : Fin cfg0.N, cond0_2 (grid0.coords t) ↔ t.val % 4 = 3 :=
  (by decide +kernel : ∀ t : Fin grid0.N, cond0_2 (grid0.coords t) ↔ t.val % 4 = 3)

theorem liveAt0_0 : ∀ t : Fin cfg0.N, cfg0.idle 0 (grid0.coords t) = false := by decide +kernel

theorem liveAt0_1 : ∀ t : Fin cfg0.N, cfg0.idle 1 (grid0.coords t) = false := by decide +kernel

theorem liveAt0_2 : ∀ t : Fin cfg0.N, cfg0.idle 2 (grid0.coords t) = false := by decide +kernel

theorem liveAt0_3 : ∀ t : Fin cfg0.N, cfg0.idle 3 (grid0.coords t) = false := by decide +kernel

theorem liveAt0_4 : ∀ t : Fin cfg0.N, cfg0.idle 4 (grid0.coords t) = false := by decide +kernel

theorem liveAt0_5 : ∀ t : Fin cfg0.N, cfg0.idle 5 (grid0.coords t) = false := by decide +kernel

theorem liveAt0_6 : ∀ t : Fin cfg0.N, cfg0.idle 6 (grid0.coords t) = false := by decide +kernel

theorem liveAt0_7 : ∀ t : Fin cfg0.N, cfg0.idle 7 (grid0.coords t) = false := by decide +kernel

theorem liveAt0_8 : ∀ t : Fin cfg0.N, cfg0.idle 8 (grid0.coords t) = false := by decide +kernel

theorem liveAt0_9 : ∀ t : Fin cfg0.N, cfg0.idle 9 (grid0.coords t) = false := by decide +kernel

theorem idleAt0_10_A : ∀ t : Fin cfg0.N, cond0_0 (grid0.coords t) → ¬cond0_1 (grid0.coords t) → ¬cond0_2 (grid0.coords t) → cfg0.idle 10 (grid0.coords t) = true := by decide +kernel

theorem noFlush0_10_A : ∀ t : Fin cfg0.N, cond0_0 (grid0.coords t) → ¬cond0_1 (grid0.coords t) → ¬cond0_2 (grid0.coords t) → (cfg0.win 10).flush t = false := by decide +kernel

theorem idleAt0_10_B : ∀ t : Fin cfg0.N, ¬cond0_0 (grid0.coords t) → cond0_1 (grid0.coords t) → ¬cond0_2 (grid0.coords t) → cfg0.idle 10 (grid0.coords t) = true := by decide +kernel

theorem noFlush0_10_B : ∀ t : Fin cfg0.N, ¬cond0_0 (grid0.coords t) → cond0_1 (grid0.coords t) → ¬cond0_2 (grid0.coords t) → (cfg0.win 10).flush t = false := by decide +kernel

theorem liveAt0_10_C : ∀ t : Fin cfg0.N, ¬cond0_0 (grid0.coords t) → cond0_1 (grid0.coords t) → cond0_2 (grid0.coords t) → cfg0.idle 10 (grid0.coords t) = false := by decide +kernel

theorem idleAt0_11_A : ∀ t : Fin cfg0.N, cond0_0 (grid0.coords t) → ¬cond0_1 (grid0.coords t) → ¬cond0_2 (grid0.coords t) → cfg0.idle 11 (grid0.coords t) = true := by decide +kernel

theorem noFlush0_11_A : ∀ t : Fin cfg0.N, cond0_0 (grid0.coords t) → ¬cond0_1 (grid0.coords t) → ¬cond0_2 (grid0.coords t) → (cfg0.win 11).flush t = false := by decide +kernel

theorem idleAt0_11_B : ∀ t : Fin cfg0.N, ¬cond0_0 (grid0.coords t) → cond0_1 (grid0.coords t) → ¬cond0_2 (grid0.coords t) → cfg0.idle 11 (grid0.coords t) = true := by decide +kernel

theorem noFlush0_11_B : ∀ t : Fin cfg0.N, ¬cond0_0 (grid0.coords t) → cond0_1 (grid0.coords t) → ¬cond0_2 (grid0.coords t) → (cfg0.win 11).flush t = false := by decide +kernel

theorem liveAt0_11_C : ∀ t : Fin cfg0.N, ¬cond0_0 (grid0.coords t) → cond0_1 (grid0.coords t) → cond0_2 (grid0.coords t) → cfg0.idle 11 (grid0.coords t) = false := by decide +kernel

abbrev VO0_8 : View sig .tc .vmem S512x512 .bf16 := (Memref.whole cc0_stg8_0 : Memref sig .tc .vmem S512x512 .bf16).view

abbrev VO0_9 : View sig .tc .vmem S512x512 .bf16 := (Memref.whole cc0_stg9_0 : Memref sig .tc .vmem S512x512 .bf16).view

abbrev VO0_10 : View sig .tc .vmem S128x512 .f32 := (Memref.whole cc0_stg10_0 : Memref sig .tc .vmem S128x512 .f32).view

abbrev VO0_11 : View sig .tc .vmem S128x512 .f32 := (Memref.whole cc0_stg11_0 : Memref sig .tc .vmem S128x512 .f32).view

abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x512x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x512 .f32 := win0_11.stage (cfg0.slots t 11)
abbrev hs0_11 (t : Fin cfg0.N) : (ms0_11 t).IsWhole := hstage0_11 ((cfg0.slots t 11).cast nbuf0_11)

abbrev scM0_0 : Memref sig .tc .vmem S128x512 .f32 := Memref.whole cc0_scratch0
abbrev scM0_1 : Memref sig .tc .vmem S128x512 .f32 := Memref.whole cc0_scratch1

abbrev VS0_0 : View sig .tc .vmem S128x512 .f32 := scM0_0.view
abbrev VS0_1 : View sig .tc .vmem S128x512 .f32 := scM0_1.view

abbrev restS0 (c : Dev nD) : sProp 𝕄 :=
  Pipeline.scopedRestBut (Ix := Unit) (Name := ℕ) (U := UR sig nD τ) (Lvl := ℕ) (Val := Elt F) spec0 c [cc0_scratch0, cc0_scratch1]

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ restS0 c) ∗ (∃ r, prngReg c r)) := by
  unfold Pipeline.ΦA
  rw [Pipeline.scopedRest_split_of_list spec0 c [cc0_scratch0, cc0_scratch1] (by decide) (by decide)]
  simp only [scM0_0, scM0_1, owns_whole, bigSepL]; try rfl

end Cert.KernelIdeal.Hand

end
-- ==== Proof.K0RunA.lean ====
import proofs.«159171_g70626442215508_cont_9to1_m_806_14_alg».proof.Proof.K0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun0_A (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2x512x256 .f32) (harg5 : arg5.IsWhole) (arg6 : Memref sig .tc .vmem S512x256 .f32) (harg6 : arg6.IsWhole) (arg7 : Memref sig .tc .vmem S512x512 .f32) (harg7 : arg7.IsWhole) (arg8 : Memref sig .tc .vmem S128x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : cond0_0 i) (hc1 : ¬cond0_1 i) (hc2 : ¬cond0_2 i)
    (x0 : Vec F S512x512 .f32) (x1 : Vec F S512x512 .f32) (x2 : Vec F S512x128 .f32) (x3 : Vec F S512x128 .f32) (x4 : Vec F S2x512x256 .f32) (x5 : Vec F S512x256 .f32) (x6 : Vec F S512x512 .f32) (x7 : Vec F S128x1 .f32) :
    Σ' (L8 : List (View.Piece (Elt F) S512x512 .bf16)) (L9 : List (View.Piece (Elt F) S512x512 .bf16)) (L10 : List (View.Piece (Elt F) S128x512 .f32)) (L11 : List (View.Piece (Elt F) S128x512 .f32)) (LS0 : List (View.Piece (Elt F) S128x512 .f32)), { LS1 : List (View.Piece (Elt F) S128x512 .f32) //
      ∀ (xi10 : Vec F S128x512 .f32) (xi11 : Vec F S128x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare xi10 ∗ owns (c : Thread nD τ) arg12 fullShare xi11 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0__phase_a i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, [], [], ?_, ?_, fun xi10 xi11 E K => ?run⟩
  case run =>
    simp only [cc0__phase_a_eq_skeleton]; unfold cc0__phase_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf10; obtain rfl := harg12.eq_unread hf11
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.KernelIdeal.Hand

end
-- ==== Proof.K0RunB.lean ====
import proofs.«159171_g70626442215508_cont_9to1_m_806_14_alg».proof.Proof.K0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun0_B (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2x512x256 .f32) (harg5 : arg5.IsWhole) (arg6 : Memref sig .tc .vmem S512x256 .f32) (harg6 : arg6.IsWhole) (arg7 : Memref sig .tc .vmem S512x512 .f32) (harg7 : arg7.IsWhole) (arg8 : Memref sig .tc .vmem S128x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : ¬cond0_0 i) (hc1 : cond0_1 i) (hc2 : ¬cond0_2 i)
    (x0 : Vec F S512x512 .f32) (x1 : Vec F S512x512 .f32) (x2 : Vec F S512x128 .f32) (x3 : Vec F S512x128 .f32) (x4 : Vec F S2x512x256 .f32) (x5 : Vec F S512x256 .f32) (x6 : Vec F S512x512 .f32) (x7 : Vec F S128x1 .f32) (xs0 : Vec F S128x512 .f32) (xs1 : Vec F S128x512 .f32) :
    Σ' (L8 : List (View.Piece (Elt F) S512x512 .bf16)) (L9 : List (View.Piece (Elt F) S512x512 .bf16)) (L10 : List (View.Piece (Elt F) S128x512 .f32)) (L11 : List (View.Piece (Elt F) S128x512 .f32)) (LS0 : List (View.Piece (Elt F) S128x512 .f32)), { LS1 : List (View.Piece (Elt F) S128x512 .f32) //
      ∀ (xi10 : Vec F S128x512 .f32) (xi11 : Vec F S128x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare xi10 ∗ owns (c : Thread nD τ) arg12 fullShare xi11 ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0__phase_a i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, [], [], ?_, ?_, fun xi10 xi11 E K => ?run⟩
  case run =>
    simp only [cc0__phase_a_eq_skeleton]; unfold cc0__phase_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf10; obtain rfl := harg12.eq_unread hf11; obtain rfl := harg13.eq_unread hfs0; obtain rfl := harg14.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.KernelIdeal.Hand

end
-- ==== Proof.K0RunC.lean ====
import proofs.«159171_g70626442215508_cont_9to1_m_806_14_alg».proof.Proof.K0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun0_C (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2x512x256 .f32) (harg5 : arg5.IsWhole) (arg6 : Memref sig .tc .vmem S512x256 .f32) (harg6 : arg6.IsWhole) (arg7 : Memref sig .tc .vmem S512x512 .f32) (harg7 : arg7.IsWhole) (arg8 : Memref sig .tc .vmem S128x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (hc0 : ¬cond0_0 i) (hc1 : cond0_1 i) (hc2 : cond0_2 i)
    (x0 : Vec F S512x512 .f32) (x1 : Vec F S512x512 .f32) (x2 : Vec F S512x128 .f32) (x3 : Vec F S512x128 .f32) (x4 : Vec F S2x512x256 .f32) (x5 : Vec F S512x256 .f32) (x6 : Vec F S512x512 .f32) (x7 : Vec F S128x1 .f32) (xs0 : Vec F S128x512 .f32) (xs1 : Vec F S128x512 .f32) :
    Σ' (L8 : List (View.Piece (Elt F) S512x512 .bf16)) (L9 : List (View.Piece (Elt F) S512x512 .bf16)) (L10 : List (View.Piece (Elt F) S128x512 .f32)) (L11 : List (View.Piece (Elt F) S128x512 .f32)) (LS0 : List (View.Piece (Elt F) S128x512 .f32)), { LS1 : List (View.Piece (Elt F) S128x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0__phase_a i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0__phase_a_eq_skeleton]; unfold cc0__phase_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg13.eq_unread hfs0; obtain rfl := harg14.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [HS0]; · iexists _; iexact HS0
    iexists _; iexact HS1

end Cert.KernelIdeal.Hand

end
-- ==== Proof.K0Covers.lean ====
import proofs.«159171_g70626442215508_cont_9to1_m_806_14_alg».proof.Proof.K0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2x512x256 .f32) (harg5 : arg5.IsWhole) (arg6 : Memref sig .tc .vmem S512x256 .f32) (harg6 : arg6.IsWhole) (arg7 : Memref sig .tc .vmem S512x512 .f32) (harg7 : arg7.IsWhole) (arg8 : Memref sig .tc .vmem S128x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole)

section A
variable (hc0 : cond0_0 i) (hc1 : ¬cond0_1 i) (hc2 : ¬cond0_2 i) (x0 : Vec F S512x512 .f32) (x1 : Vec F S512x512 .f32) (x2 : Vec F S512x128 .f32) (x3 : Vec F S512x128 .f32) (x4 : Vec F S2x512x256 .f32) (x5 : Vec F S512x256 .f32) (x6 : Vec F S512x512 .f32) (x7 : Vec F S128x1 .f32)

theorem cover0_A_8 (y : S512x512.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7).1, y ∈ pc.1.set :=
  View.cover_of_tiledL _ S512x512.size (by sl_kernel_rfl) y

theorem cover0_A_9 (y : S512x512.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7).2.1, y ∈ pc.1.set :=
  View.cover_of_tiledL _ S512x512.size (by sl_kernel_rfl) y

theorem scover0_A_0 (y : S128x512.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7).2.2.2.2.1, y ∈ pc.1.set :=
  View.cover_of_tiledL _ S128x512.size (by sl_kernel_rfl) y

theorem scover0_A_1 (y : S128x512.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7).2.2.2.2.2.1, y ∈ pc.1.set :=
  View.cover_of_tiledL _ S128x512.size (by sl_kernel_rfl) y

end A

section B
variable (hc0 : ¬cond0_0 i) (hc1 : cond0_1 i) (hc2 : ¬cond0_2 i) (x0 : Vec F S512x512 .f32) (x1 : Vec F S512x512 .f32) (x2 : Vec F S512x128 .f32) (x3 : Vec F S512x128 .f32) (x4 : Vec F S2x512x256 .f32) (x5 : Vec F S512x256 .f32) (x6 : Vec F S512x512 .f32) (x7 : Vec F S128x1 .f32) (xs0 : Vec F S128x512 .f32) (xs1 : Vec F S128x512 .f32)

theorem cover0_B_8 (y : S512x512.Idx) : ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1).1, y ∈ pc.1.set :=
  View.cover_of_tiledL _ S512x512.size (by sl_kernel_rfl) y

theorem cover0_B_9 (y : S512x512.Idx) : ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1).2.1, y ∈ pc.1.set :=
  View.cover_of_tiledL _ S512x512.size (by sl_kernel_rfl) y

theorem scover0_B_0 (y : S128x512.Idx) : ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1).2.2.2.2.1, y ∈ pc.1.set :=
  View.cover_of_tiledL _ S128x512.size (by sl_kernel_rfl) y

theorem scover0_B_1 (y : S128x512.Idx) : ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1).2.2.2.2.2.1, y ∈ pc.1.set :=
  View.cover_of_tiledL _ S128x512.size (by sl_kernel_rfl) y

end B

section C
variable (hc0 : ¬cond0_0 i) (hc1 : cond0_1 i) (hc2 : cond0_2 i) (x0 : Vec F S512x512 .f32) (x1 : Vec F S512x512 .f32) (x2 : Vec F S512x128 .f32) (x3 : Vec F S512x128 .f32) (x4 : Vec F S2x512x256 .f32) (x5 : Vec F S512x256 .f32) (x6 : Vec F S512x512 .f32) (x7 : Vec F S128x1 .f32) (xs0 : Vec F S128x512 .f32) (xs1 : Vec F S128x512 .f32)

theorem cover0_C_8 (y : S512x512.Idx) : ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1).1, y ∈ pc.1.set :=
  View.cover_of_tiledL _ S512x512.size (by sl_kernel_rfl) y

theorem cover0_C_9 (y : S512x512.Idx) : ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1).2.1, y ∈ pc.1.set :=
  View.cover_of_tiledL _ S512x512.size (by sl_kernel_rfl) y

theorem cover0_C_10 (y : S128x512.Idx) : ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1).2.2.1, y ∈ pc.1.set :=
  View.cover_of_tiledL _ S128x512.size (by sl_kernel_rfl) y

theorem cover0_C_11 (y : S128x512.Idx) : ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1).2.2.2.1, y ∈ pc.1.set :=
  View.cover_of_tiledL _ S128x512.size (by sl_kernel_rfl) y

theorem scover0_C_0 (y : S128x512.Idx) : ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1).2.2.2.2.1, y ∈ pc.1.set :=
  View.cover_of_tiledL _ S128x512.size (by sl_kernel_rfl) y

theorem scover0_C_1 (y : S128x512.Idx) : ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1).2.2.2.2.2.1, y ∈ pc.1.set :=
  View.cover_of_tiledL _ S128x512.size (by sl_kernel_rfl) y

end C

end Cert.KernelIdeal.Hand

end
-- ==== Proof.K0Frame.lean ====
import proofs.«159171_g70626442215508_cont_9to1_m_806_14_alg».proof.Proof.K0Covers

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Cases
variable (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2x512x256 .f32) (harg5 : arg5.IsWhole) (arg6 : Memref sig .tc .vmem S512x256 .f32) (harg6 : arg6.IsWhole) (arg7 : Memref sig .tc .vmem S512x512 .f32) (harg7 : arg7.IsWhole) (arg8 : Memref sig .tc .vmem S128x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole)

section A
variable (hc0 : cond0_0 i) (hc1 : ¬cond0_1 i) (hc2 : ¬cond0_2 i) (x0 : Vec F S512x512 .f32) (x1 : Vec F S512x512 .f32) (x2 : Vec F S512x128 .f32) (x3 : Vec F S512x128 .f32) (x4 : Vec F S2x512x256 .f32) (x5 : Vec F S512x256 .f32) (x6 : Vec F S512x512 .f32) (x7 : Vec F S128x1 .f32)

def out0_A_8 : Vec F S512x512 .bf16 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7).1)

def out0_A_9 : Vec F S512x512 .bf16 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7).2.1)

def out0_A_10 : Vec F S128x512 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7).2.2.1)

def out0_A_11 : Vec F S128x512 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7).2.2.2.1)

def sout0_A_0 : Vec F S128x512 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7).2.2.2.2.1)

def sout0_A_1 : Vec F S128x512 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7).2.2.2.2.2.1)

end A

section B
variable (hc0 : ¬cond0_0 i) (hc1 : cond0_1 i) (hc2 : ¬cond0_2 i) (x0 : Vec F S512x512 .f32) (x1 : Vec F S512x512 .f32) (x2 : Vec F S512x128 .f32) (x3 : Vec F S512x128 .f32) (x4 : Vec F S2x512x256 .f32) (x5 : Vec F S512x256 .f32) (x6 : Vec F S512x512 .f32) (x7 : Vec F S128x1 .f32) (xs0 : Vec F S128x512 .f32) (xs1 : Vec F S128x512 .f32)

def out0_B_8 : Vec F S512x512 .bf16 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1).1)

def out0_B_9 : Vec F S512x512 .bf16 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1).2.1)

def out0_B_10 : Vec F S128x512 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1).2.2.1)

def out0_B_11 : Vec F S128x512 .f32 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1).2.2.2.1)

def sout0_B_0 : Vec F S128x512 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1).2.2.2.2.1)

def sout0_B_1 : Vec F S128x512 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1).2.2.2.2.2.1)

end B

section C
variable (hc0 : ¬cond0_0 i) (hc1 : cond0_1 i) (hc2 : cond0_2 i) (x0 : Vec F S512x512 .f32) (x1 : Vec F S512x512 .f32) (x2 : Vec F S512x128 .f32) (x3 : Vec F S512x128 .f32) (x4 : Vec F S2x512x256 .f32) (x5 : Vec F S512x256 .f32) (x6 : Vec F S512x512 .f32) (x7 : Vec F S128x1 .f32) (xs0 : Vec F S128x512 .f32) (xs1 : Vec F S128x512 .f32)

def out0_C_8 : Vec F S512x512 .bf16 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1).1)

def out0_C_9 : Vec F S512x512 .bf16 :=
  VO0_9.read (Elt F) (VO0_9.writes (Elt F) VO0_9.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1).2.1)

def out0_C_10 : Vec F S128x512 .f32 :=
  VO0_10.read (Elt F) (VO0_10.writes (Elt F) VO0_10.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1).2.2.1)

def out0_C_11 : Vec F S128x512 .f32 :=
  VO0_11.read (Elt F) (VO0_11.writes (Elt F) VO0_11.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1).2.2.2.1)

def sout0_C_0 : Vec F S128x512 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1).2.2.2.2.1)

def sout0_C_1 : Vec F S128x512 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1).2.2.2.2.2.1)

end C

end Cases

section Region0

variable (V : (c : Dev nD) → (b : Ref sig .tc) → Buf (Elt F) ((c : Thread nD τ).loc b))

def outsAt0 (c : Dev nD) : (n : ℕ) → n < cfg0.N → Vec F S512x512 .bf16 × Vec F S512x512 .bf16 × Vec F S128x512 .f32 × Vec F S128x512 .f32 × Vec F S128x512 .f32 × Vec F S128x512 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (fun h => ((hcond0_1 ⟨0, hn⟩).mp h) (Nat.zero_mod _)) (fun h => (fun h => by (try dsimp only at h); omega) ((hcond0_2 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (fun h => ((hcond0_1 ⟨0, hn⟩).mp h) (Nat.zero_mod _)) (fun h => (fun h => by (try dsimp only at h); omega) ((hcond0_2 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (fun h => ((hcond0_1 ⟨0, hn⟩).mp h) (Nat.zero_mod _)) (fun h => (fun h => by (try dsimp only at h); omega) ((hcond0_2 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (fun h => ((hcond0_1 ⟨0, hn⟩).mp h) (Nat.zero_mod _)) (fun h => (fun h => by (try dsimp only at h); omega) ((hcond0_2 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (fun h => ((hcond0_1 ⟨0, hn⟩).mp h) (Nat.zero_mod _)) (fun h => (fun h => by (try dsimp only at h); omega) ((hcond0_2 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (fun h => ((hcond0_1 ⟨0, hn⟩).mp h) (Nat.zero_mod _)) (fun h => (fun h => by (try dsimp only at h); omega) ((hcond0_2 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩))
  | n + 1, hn =>
    if h0 : (n + 1) % 4 = 0 then
      if h2 : (n + 1) % 4 = 3 then
        False.elim (by omega)
      else
        (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (fun h => ((hcond0_1 ⟨n + 1, hn⟩).mp h) h0) (fun h => h2 ((hcond0_2 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (fun h => ((hcond0_1 ⟨n + 1, hn⟩).mp h) h0) (fun h => h2 ((hcond0_2 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (fun h => ((hcond0_1 ⟨n + 1, hn⟩).mp h) h0) (fun h => h2 ((hcond0_2 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (fun h => ((hcond0_1 ⟨n + 1, hn⟩).mp h) h0) (fun h => h2 ((hcond0_2 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (fun h => ((hcond0_1 ⟨n + 1, hn⟩).mp h) h0) (fun h => h2 ((hcond0_2 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (fun h => ((hcond0_1 ⟨n + 1, hn⟩).mp h) h0) (fun h => h2 ((hcond0_2 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩))
    else
      if h2 : (n + 1) % 4 = 3 then
        (out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_1 ⟨n + 1, hn⟩).mpr h0) ((hcond0_2 ⟨n + 1, hn⟩).mpr h2) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2.2.2.1 (outsAt0 c n (Nat.lt_of_succ_lt hn)).2.2.2.2.2, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_1 ⟨n + 1, hn⟩).mpr h0) ((hcond0_2 ⟨n + 1, hn⟩).mpr h2) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2.2.2.1 (outsAt0 c n (Nat.lt_of_succ_lt hn)).2.2.2.2.2, out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_1 ⟨n + 1, hn⟩).mpr h0) ((hcond0_2 ⟨n + 1, hn⟩).mpr h2) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2.2.2.1 (outsAt0 c n (Nat.lt_of_succ_lt hn)).2.2.2.2.2, out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_1 ⟨n + 1, hn⟩).mpr h0) ((hcond0_2 ⟨n + 1, hn⟩).mpr h2) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2.2.2.1 (outsAt0 c n (Nat.lt_of_succ_lt hn)).2.2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_1 ⟨n + 1, hn⟩).mpr h0) ((hcond0_2 ⟨n + 1, hn⟩).mpr h2) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2.2.2.1 (outsAt0 c n (Nat.lt_of_succ_lt hn)).2.2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_1 ⟨n + 1, hn⟩).mpr h0) ((hcond0_2 ⟨n + 1, hn⟩).mpr h2) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2.2.2.1 (outsAt0 c n (Nat.lt_of_succ_lt hn)).2.2.2.2.2)
      else
        (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_1 ⟨n + 1, hn⟩).mpr h0) (fun h => h2 ((hcond0_2 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2.2.2.1 (outsAt0 c n (Nat.lt_of_succ_lt hn)).2.2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_1 ⟨n + 1, hn⟩).mpr h0) (fun h => h2 ((hcond0_2 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2.2.2.1 (outsAt0 c n (Nat.lt_of_succ_lt hn)).2.2.2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_1 ⟨n + 1, hn⟩).mpr h0) (fun h => h2 ((hcond0_2 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2.2.2.1 (outsAt0 c n (Nat.lt_of_succ_lt hn)).2.2.2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_1 ⟨n + 1, hn⟩).mpr h0) (fun h => h2 ((hcond0_2 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2.2.2.1 (outsAt0 c n (Nat.lt_of_succ_lt hn)).2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_1 ⟨n + 1, hn⟩).mpr h0) (fun h => h2 ((hcond0_2 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2.2.2.1 (outsAt0 c n (Nat.lt_of_succ_lt hn)).2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_1 ⟨n + 1, hn⟩).mpr h0) (fun h => h2 ((hcond0_2 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2.2.2.1 (outsAt0 c n (Nat.lt_of_succ_lt hn)).2.2.2.2.2)

theorem outsAt0_A (c : Dev nD) (t : Fin cfg0.N) (h0 : t.val % 4 = 0) (h2 : ¬t.val % 4 = 3) :
    outsAt0 V c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => ((hcond0_1 t).mp h) h0) (fun h => h2 ((hcond0_2 t).mp h)) (iblk0 V c 0 t) (iblk0 V c 1 t) (iblk0 V c 2 t) (iblk0 V c 3 t) (iblk0 V c 4 t) (iblk0 V c 5 t) (iblk0 V c 6 t) (iblk0 V c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => ((hcond0_1 t).mp h) h0) (fun h => h2 ((hcond0_2 t).mp h)) (iblk0 V c 0 t) (iblk0 V c 1 t) (iblk0 V c 2 t) (iblk0 V c 3 t) (iblk0 V c 4 t) (iblk0 V c 5 t) (iblk0 V c 6 t) (iblk0 V c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => ((hcond0_1 t).mp h) h0) (fun h => h2 ((hcond0_2 t).mp h)) (iblk0 V c 0 t) (iblk0 V c 1 t) (iblk0 V c 2 t) (iblk0 V c 3 t) (iblk0 V c 4 t) (iblk0 V c 5 t) (iblk0 V c 6 t) (iblk0 V c 7 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => ((hcond0_1 t).mp h) h0) (fun h => h2 ((hcond0_2 t).mp h)) (iblk0 V c 0 t) (iblk0 V c 1 t) (iblk0 V c 2 t) (iblk0 V c 3 t) (iblk0 V c 4 t) (iblk0 V c 5 t) (iblk0 V c 6 t) (iblk0 V c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => ((hcond0_1 t).mp h) h0) (fun h => h2 ((hcond0_2 t).mp h)) (iblk0 V c 0 t) (iblk0 V c 1 t) (iblk0 V c 2 t) (iblk0 V c 3 t) (iblk0 V c 4 t) (iblk0 V c 5 t) (iblk0 V c 6 t) (iblk0 V c 7 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => ((hcond0_1 t).mp h) h0) (fun h => h2 ((hcond0_2 t).mp h)) (iblk0 V c 0 t) (iblk0 V c 1 t) (iblk0 V c 2 t) (iblk0 V c 3 t) (iblk0 V c 4 t) (iblk0 V c 5 t) (iblk0 V c 6 t) (iblk0 V c 7 t)) := by
  obtain ⟨n, hn⟩ := t
  cases n with
  | zero => exact rfl
  | succ n => exact (dif_pos h0).trans ((dif_neg h2).trans rfl)

theorem outsAt0_B (c : Dev nD) (t : Fin cfg0.N) (h0 : ¬t.val % 4 = 0) (h2 : ¬t.val % 4 = 3) :
    outsAt0 V c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h0) (fun h => h2 ((hcond0_2 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h0) (fun h => h2 ((hcond0_2 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h0) (fun h => h2 ((hcond0_2 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h0) (fun h => h2 ((hcond0_2 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h0) (fun h => h2 ((hcond0_2 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h0) (fun h => h2 ((hcond0_2 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h2).trans rfl)

theorem outsAt0_C (c : Dev nD) (t : Fin cfg0.N) (h0 : ¬t.val % 4 = 0) (h2 : t.val % 4 = 3) :
    outsAt0 V c t.val t.isLt = (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h0) ((hcond0_2 t).mpr h2) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h0) ((hcond0_2 t).mpr h2) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h0) ((hcond0_2 t).mpr h2) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h0) ((hcond0_2 t).mpr h2) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h0) ((hcond0_2 t).mpr h2) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h0) ((hcond0_2 t).mpr h2) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h2).trans rfl)

def PhiS (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.2.2.1) ∗ owns (c : Thread nD τ) scM0_1 fullShare ((outsAt0 V c n hn).2.2.2.2.2)) ∗ restS0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(iprop(owns (c : Thread nD τ) scM0_0 fullShare ((outsAt0 V c n hn).2.2.2.2.1) ∗ owns (c : Thread nD τ) scM0_1 fullShare ((outsAt0 V c n hn).2.2.2.2.2)) ∗ restS0 c) ∗ (∃ r, prngReg c r)) := rfl

theorem PhiS_pos (c : Dev nD) (n : ℕ) (h : n ≤ cfg0.N) (hz : n ≠ 0) :
    PhiS V c n h = iprop(iprop(iprop(owns (c : Thread nD τ) scM0_0 fullShare ((outsAt0 V c (n - 1) (by omega)).2.2.2.2.1) ∗ owns (c : Thread nD τ) scM0_1 fullShare ((outsAt0 V c (n - 1) (by omega)).2.2.2.2.2)) ∗ restS0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => (outsAt0 V c t.val t.isLt).1
    | ⟨9, _⟩ => (outsAt0 V c t.val t.isLt).2.1
    | ⟨10, _⟩ => (outsAt0 V c t.val t.isLt).2.2.1
    | ⟨11, _⟩ => (outsAt0 V c t.val t.isLt).2.2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = (outsAt0 V c t.val t.isLt).1 := by dsimp only [dat0]
theorem after0_9 (c : Dev nD) (t : Fin cfg0.N) : (dat0 V c).after 9 t = (outsAt0 V c t.val t.isLt).2.1 := by dsimp only [dat0]
theorem after0_10 (c : Dev nD) (t : Fin cfg0.N) : (dat0 V c).after 10 t = (outsAt0 V c t.val t.isLt).2.2.1 := by dsimp only [dat0]
theorem after0_11 (c : Dev nD) (t : Fin cfg0.N) : (dat0 V c).after 11 t = (outsAt0 V c t.val t.isLt).2.2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t)

set_option maxHeartbeats 4800000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl]
  rw [show (dat0 V c).Φ t.succ = PhiS V c (t.val + 1) t.isLt from rfl, PhiS_succ]
  have hN : t.val < 4 := lt_of_lt_of_eq t.isLt (show cfg0.N = 4 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  rw [show (dat0 V c).leavesExact 8 t = owns (c : Thread nD τ) (ms0_8 t) fullShare ((dat0 V c).after 8 t) from by
    unfold Dat.leavesExact; rw [liveAt0_8 t], after0_8]
  rw [show (dat0 V c).leavesExact 9 t = owns (c : Thread nD τ) (ms0_9 t) fullShare ((dat0 V c).after 9 t) from by
    unfold Dat.leavesExact; rw [liveAt0_9 t], after0_9]
  by_cases h0 : t.val % 4 = 0
  · by_cases h2 : t.val % 4 = 3
    · exfalso; omega
    · rw [Dat.leavesExact_idle (dat0 V c) 10 t (idleAt0_10_A t ((hcond0_0 t).mpr h0) (fun h => ((hcond0_1 t).mp h) h0) (fun h => h2 ((hcond0_2 t).mp h))) (noFlush0_10_A t ((hcond0_0 t).mpr h0) (fun h => ((hcond0_1 t).mp h) h0) (fun h => h2 ((hcond0_2 t).mp h)))]
      rw [Dat.leavesExact_idle (dat0 V c) 11 t (idleAt0_11_A t ((hcond0_0 t).mpr h0) (fun h => ((hcond0_1 t).mp h) h0) (fun h => h2 ((hcond0_2 t).mp h))) (noFlush0_11_A t ((hcond0_0 t).mpr h0) (fun h => ((hcond0_1 t).mp h) h0) (fun h => h2 ((hcond0_2 t).mp h)))]
      rw [outsAt0_A V c t h0 h2]
      unfold out0_A_8 out0_A_9 sout0_A_0 sout0_A_1; (try dsimp only)
      have hz : t.val = 0 := by omega
      rw [PhiS_castSucc V c t, PhiS_zero V c _ _ hz, PhiA0_eq]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ _ _ _ _ ((hcond0_0 t).mpr h0) (fun h => ((hcond0_1 t).mp h) h0) (fun h => h2 ((hcond0_2 t).mp h)) (iblk0 V c 0 t) (iblk0 V c 1 t) (iblk0 V c 2 t) (iblk0 V c 3 t) (iblk0 V c 4 t) (iblk0 V c 5 t) (iblk0 V c 6 t) (iblk0 V c 7 t)).2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexact H10
      isplitl [H11]; · iexact H11
      isplitl [HS0]; · iexact HS0
      isplitl [HS1]; · iexact HS1
      iintro ⟨H0, H1, H2, H3, H4, H5, H6, H7, ⟨%e8, H8⟩, ⟨%e9, H9⟩, H10, H11, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _ _ _)
      isplitl [H10]; · iexists _; iexact H10
      iexists _; iexact H11
  · by_cases h2 : t.val % 4 = 3
    · rw [show (dat0 V c).leavesExact 10 t = owns (c : Thread nD τ) (ms0_10 t) fullShare ((dat0 V c).after 10 t) from by
        unfold Dat.leavesExact; rw [liveAt0_10_C t (fun h => h0 ((hcond0_0 t).mp h)) ((hcond0_1 t).mpr h0) ((hcond0_2 t).mpr h2)], after0_10]
      rw [show (dat0 V c).leavesExact 11 t = owns (c : Thread nD τ) (ms0_11 t) fullShare ((dat0 V c).after 11 t) from by
        unfold Dat.leavesExact; rw [liveAt0_11_C t (fun h => h0 ((hcond0_0 t).mp h)) ((hcond0_1 t).mpr h0) ((hcond0_2 t).mpr h2)], after0_11]
      rw [outsAt0_C V c t h0 h2]
      unfold out0_C_8 out0_C_9 out0_C_10 out0_C_11 sout0_C_0 sout0_C_1; (try dsimp only)
      have hz : t.val ≠ 0 := by omega
      rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_C c (grid0.coords t) _ _ _ _ _ _ _ _ _ _ _ _ _ _ _ _ _ _ _ _ _ _ _ _ _ _ _ _ (fun h => h0 ((hcond0_0 t).mp h)) ((hcond0_1 t).mpr h0) ((hcond0_2 t).mpr h2) (iblk0 V c 0 t) (iblk0 V c 1 t) (iblk0 V c 2 t) (iblk0 V c 3 t) (iblk0 V c 4 t) (iblk0 V c 5 t) (iblk0 V c 6 t) (iblk0 V c 7 t) _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [HS0]; · iexact HS0
      isplitl [HS1]; · iexact HS1
      iintro ⟨H0, H1, H2, H3, H4, H5, H6, H7, ⟨%e8, H8⟩, ⟨%e9, H9⟩, ⟨%e10, H10⟩, ⟨%e11, H11⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_C_9 c _ _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_C_10 c _ _ _ _ _ _ _ _ _ _ _ _ _ _ _ _ _ _ _ _ _ _ _ _ _ _ _ _ _ _ _ _ _ _ _ _ _ _ _ _ _ _)
      unfold owns; iexists _; isplitr
      swap; · iexact H11
      ipureintro; exact View.read_writes_of_cover _ _ _ _ _ (cover0_C_11 c _ _ _ _ _ _ _ _ _ _ _ _ _ _ _ _ _ _ _ _ _ _ _ _ _ _ _ _ _ _ _ _ _ _ _ _ _ _ _ _ _ _)
    · rw [Dat.leavesExact_idle (dat0 V c) 10 t (idleAt0_10_B t (fun h => h0 ((hcond0_0 t).mp h)) ((hcond0_1 t).mpr h0) (fun h => h2 ((hcond0_2 t).mp h))) (noFlush0_10_B t (fun h => h0 ((hcond0_0 t).mp h)) ((hcond0_1 t).mpr h0) (fun h => h2 ((hcond0_2 t).mp h)))]
      rw [Dat.leavesExact_idle (dat0 V c) 11 t (idleAt0_11_B t (fun h => h0 ((hcond0_0 t).mp h)) ((hcond0_1 t).mpr h0) (fun h => h2 ((hcond0_2 t).mp h))) (noFlush0_11_B t (fun h => h0 ((hcond0_0 t).mp h)) ((hcond0_1 t).mpr h0) (fun h => h2 ((hcond0_2 t).mp h)))]
      rw [outsAt0_B V c t h0 h2]
      unfold out0_B_8 out0_B_9 sout0_B_0 sout0_B_1; (try dsimp only)
      have hz : t.val ≠ 0 := by omega
      rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_B c (grid0.coords t) _ _ _ _ _ _ _ _ _ _ _ _ _ _ _ _ _ _ _ _ _ _ _ _ _ _ _ _ (fun h => h0 ((hcond0_0 t).mp h)) ((hcond0_1 t).mpr h0) (fun h => h2 ((hcond0_2 t).mp h)) (iblk0 V c 0 t) (iblk0 V c 1 t) (iblk0 V c 2 t) (iblk0 V c 3 t) (iblk0 V c 4 t) (iblk0 V c 5 t) (iblk0 V c 6 t) (iblk0 V c 7 t) _ _).2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexact H10
      isplitl [H11]; · iexact H11
      isplitl [HS0]; · iexact HS0
      isplitl [HS1]; · iexact HS1
      iintro ⟨H0, H1, H2, H3, H4, H5, H6, H7, ⟨%e8, H8⟩, ⟨%e9, H9⟩, H10, H11, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _ _ _ _ _ _ _)
      isplitl [H10]; · iexists _; iexact H10
      iexists _; iexact H11

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

theorem hout0 (c : Dev nD) : (dat0 V c).Φ (Fin.last cfg0.N) ⊢ Pipeline.ΦA spec0 c :=
  Phi_out0 V c _ (by rw [Fin.val_last]; have : cfg0.N = 4 := N_0; omega)

end Region0

end Cert.KernelIdeal.Hand

end
-- ==== Proof.K1Frame.lean ====
import proofs.«159171_g70626442215508_cont_9to1_m_806_14_alg».proof.Proof.Gen.KernelIdeal.Launch
import proofs.«159171_g70626442215508_cont_9to1_m_806_14_alg».proof.Proof.Gen.KernelIdeal.Skeleton
import proofs.«159171_g70626442215508_cont_9to1_m_806_14_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

abbrev r1_w0 : Rect S256x2048 := Rect.unit (s := S256x2048) ![0, 0] S256x2048.size inb_S256x2048_S256x2048_0_0

abbrev r1_w4 : Rect S2048x512 := Rect.unit (s := S2048x512) ![0, 0] S2048x512.size inb_S2048x512_S2048x512_0_0

abbrev r1_w6 : Rect S256x128 := Rect.unit (s := S256x128) ![0, 0] S256x128.size inb_S256x128_S256x128_0_0

abbrev r1_w8 : Rect S128x512 := Rect.unit (s := S128x512) ![0, 0] S128x512.size inb_S128x512_S128x512_0_0

abbrev r1_w10 : Rect S1x512 := Rect.unit (s := S1x512) ![0, 0] S1x512.size inb_S1x512_S1x512_0_0

abbrev r1_w11 : Rect S256x512 := Rect.unit (s := S256x512) ![0, 0] S256x512.size inb_S256x512_S256x512_0_0

abbrev r1_off (i : grid1.Coords) : Rect S2048x512 := Rect.unit (s := S2048x512) (k1_off1 i) S256x512.size (k1_off1_inb i)

def out1_11 (i : grid1.Coords) (x0 x1 x2 x3 : Vec F S256x2048 .f32) (x4 x5 : Vec F S2048x512 .bf16) (x6 x7 : Vec F S256x128 .f32) (x8 x9 : Vec F S128x512 .f32) (x10 : Vec F S1x512 .f32) : Vec F S256x512 .f32 :=
  View.canon [⟨r1_w11, k1_pay1 (View.ld x10 r1_w10) (k1_pay16 (k1_pay9 (View.ld x4 r1_w4) (View.ld x5 r1_w4) (View.ld x0 r1_w0) (View.ld x1 r1_w0) (View.ld x2 r1_w0) (View.ld x3 r1_w0)) (k1_pay11 (View.ld x6 r1_w6) (View.ld x8 r1_w8)) (View.ld x7 r1_w6) (View.ld x9 r1_w8) (View.ld x4 (r1_off i)) (View.ld x10 r1_w10)) (k1_pay17 (k1_pay11 (View.ld x6 r1_w6) (View.ld x8 r1_w8)) (View.ld x7 r1_w6) (View.ld x9 r1_w8) (View.ld x5 (r1_off i)))⟩]

def out1_12 (i : grid1.Coords) (x0 x1 x2 x3 : Vec F S256x2048 .f32) (x4 x5 : Vec F S2048x512 .bf16) (x6 x7 : Vec F S256x128 .f32) (x8 x9 : Vec F S128x512 .f32) (x10 : Vec F S1x512 .f32) : Vec F S256x512 .f32 :=
  View.canon [⟨r1_w11, k1_pay2 (k1_pay10 (View.ld x4 r1_w4) (View.ld x5 r1_w4) (View.ld x0 r1_w0) (View.ld x1 r1_w0) (View.ld x2 r1_w0) (View.ld x3 r1_w0)) (k1_pay13 (View.ld x7 r1_w6) (View.ld x8 r1_w8) (View.ld x6 r1_w6) (View.ld x9 r1_w8)) (k1_pay14 (View.ld x4 (r1_off i))) (k1_pay15 (View.ld x5 (r1_off i))) (View.ld x10 r1_w10)⟩]

theorem cover1_11 (p0 : Vec F S256x512 .f32) (y : S256x512.Idx) :
    ∃ pc ∈ ([⟨r1_w11, p0⟩] : List (View.Piece (Elt F) S256x512 .f32)), y ∈ pc.1.set :=
  View.cover_of_tiled [⟨r1_w11, p0⟩] S256x512.size (by rfl) y

theorem cover1_12 (p0 : Vec F S256x512 .f32) (y : S256x512.Idx) :
    ∃ pc ∈ ([⟨r1_w11, p0⟩] : List (View.Piece (Elt F) S256x512 .f32)), y ∈ pc.1.set :=
  View.cover_of_tiled [⟨r1_w11, p0⟩] S256x512.size (by rfl) y

set_option maxHeartbeats 1000000 in

theorem sound_kernel1 (c : Dev nD) (E : Set ℕ) (i : grid1.Coords) (arg0 : Memref sig .tc .vmem S256x2048 .f32) (harg0 : arg0.IsWhole) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S1x512 .f32) (harg10 : arg10.IsWhole) (arg11 : Memref sig .tc .vmem S256x512 .f32) (harg11 : arg11.IsWhole) (arg12 : Memref sig .tc .vmem S256x512 .f32) (harg12 : arg12.IsWhole)
    (x0 x1 x2 x3 : Vec F S256x2048 .f32) (x4 x5 : Vec F S2048x512 .bf16) (x6 x7 : Vec F S256x128 .f32) (x8 x9 : Vec F S128x512 .f32) (x10 : Vec F S1x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (out1_11 i x0 x1 x2 x3 x4 x5 x6 x7 x8 x9 x10) ∗ owns (c : Thread nD τ) arg12 fullShare (out1_12 i x0 x1 x2 x3 x4 x5 x6 x7 x8 x9 x10)) -∗ K ⟨⟩))
      ⊢ wp frame (wpE (defs₀ (F := F)) Variants.none c none) E (cc1__phase_b i arg0 harg0 arg1 harg1 arg2 harg2 arg3 harg3 arg4 harg4 arg5 harg5 arg6 harg6 arg7 harg7 arg8 harg8 arg9 harg9 arg10 harg10 arg11 harg11 arg12 harg12) K := by
  simp only [cc1__phase_b_eq_skeleton]; unfold cc1__phase_b_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0
  subst hf1
  subst hf2
  subst hf3
  subst hf4
  subst hf5
  subst hf6
  subst hf7
  subst hf8
  subst hf9
  subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (cover1_11 _)
  iexists _; isplitr
  swap; · iexact H12
  ipureintro
  exact View.read_writes_eq_canon _ _ _ (cover1_12 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => out1_11 (grid1.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
    | ⟨12, _⟩ => out1_12 (grid1.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = out1_11 (grid1.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by dsimp only [dat1]
theorem after1_12 (c : Dev nD) (t : Fin cfg1.N) : (dat1 V c).after 12 t = out1_12 (grid1.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

set_option maxHeartbeats 1000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel1 c Set.univ (grid1.coords t) _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_obligation1 (c : Dev nD) : BodyObligation (dat1 (F := F) V c) (defs₀ (F := F)) Variants.none () Set.univ := fun t => by
  rw [bigSep_W1, bigSep_W1]
  exact sound_body1 V c t

end Region1

end Cert.KernelIdeal.Hand
-- ==== Proof.KRun.lean ====
import proofs.«159171_g70626442215508_cont_9to1_m_806_14_alg».proof.Proof.K0Frame
import proofs.«159171_g70626442215508_cont_9to1_m_806_14_alg».proof.Proof.K1Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W4 (c : Dev nD) : Valuation τ sig (Elt F) :=
  Pipeline.withArrays spec1 c (W2 m ρ c) fun w => (dat1 (V2 m ρ) c).arrAt w cfg1.N
theorem W4_arr (c : Dev nD) (w : Fin cfg1.W) :
    W4 m ρ c (Proc.devRef .tc (Pipeline.arrRef spec1 w)) = (dat1 (V2 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V2 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V2 m ρ c b :=
  fun b hb => W4_of_ne m ρ c b fun w e => hb (Finset.mem_image.mpr ⟨w, Finset.mem_univ _, e⟩)

/-- The leading reshapes write none of the arguments. -/
theorem W1_arg (c : Dev nD) : ∀ b ∈ ([main_arg0, main_arg1, main_arg2, main_arg3, main_arg4, main_arg5, main_arg6, main_arg7, main_arg8, main_arg9, main_arg10, main_arg11, main_arg12] : List (Ref sig .tc)),
    W1 m ρ c (Proc.devRef .tc b) = W0 m ρ c (Proc.devRef .tc b) := by
  intro b hb
  simp only [List.mem_cons, List.not_mem_nil, or_false] at hb
  rcases hb with rfl | rfl | rfl | rfl | rfl | rfl | rfl | rfl | rfl | rfl | rfl | rfl | rfl
  all_goals
    refine StableHlo.after_of_forall_not_mem _ _ (List.forall_iff_forall_mem.mp ?_)
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

theorem W4_main_arg0 (c : Dev nD) : W4 m ρ c (Proc.devRef .tc main_arg0) = m ((c : Thread nD τ).loc main_arg0) :=
  calc W4 m ρ c (Proc.devRef .tc main_arg0)
    _ = W2 m ρ c (Proc.devRef .tc main_arg0) := W4_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_arg m ρ c _ (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W2 m ρ c (Proc.devRef .tc main_arg1) := W4_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := W1_arg m ρ c _ (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W2 m ρ c (Proc.devRef .tc main_arg2) := (W4_arr m ρ c 0).trans (((dat1 (V2 m ρ) c).arrAt_in 0 rfl _).trans (A_eq1 (V2 m ρ) c 0))
    _ = W1 m ρ c (Proc.devRef .tc main_arg2) := W2_of_ne m ρ c main_arg2 (by decide)
    _ = W0 m ρ c (Proc.devRef .tc main_arg2) := W1_arg m ρ c _ (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W2 m ρ c (Proc.devRef .tc main_arg3) := (W4_arr m ρ c 2).trans (((dat1 (V2 m ρ) c).arrAt_in 2 rfl _).trans (A_eq1 (V2 m ρ) c 2))
    _ = W1 m ρ c (Proc.devRef .tc main_arg3) := W2_of_ne m ρ c main_arg3 (by decide)
    _ = W0 m ρ c (Proc.devRef .tc main_arg3) := W1_arg m ρ c _ (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W2 m ρ c (Proc.devRef .tc main_arg4) := (W4_arr m ρ c 1).trans (((dat1 (V2 m ρ) c).arrAt_in 1 rfl _).trans (A_eq1 (V2 m ρ) c 1))
    _ = W1 m ρ c (Proc.devRef .tc main_arg4) := W2_of_ne m ρ c main_arg4 (by decide)
    _ = W0 m ρ c (Proc.devRef .tc main_arg4) := W1_arg m ρ c _ (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W2 m ρ c (Proc.devRef .tc main_arg5) := (W4_arr m ρ c 3).trans (((dat1 (V2 m ρ) c).arrAt_in 3 rfl _).trans (A_eq1 (V2 m ρ) c 3))
    _ = W1 m ρ c (Proc.devRef .tc main_arg5) := W2_of_ne m ρ c main_arg5 (by decide)
    _ = W0 m ρ c (Proc.devRef .tc main_arg5) := W1_arg m ρ c _ (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W2 m ρ c (Proc.devRef .tc main_arg6) := W4_of_ne m ρ c main_arg6 (by decide)
    _ = W1 m ρ c (Proc.devRef .tc main_arg6) := W2_of_ne m ρ c main_arg6 (by decide)
    _ = W0 m ρ c (Proc.devRef .tc main_arg6) := W1_arg m ρ c _ (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W2 m ρ c (Proc.devRef .tc main_arg7) := (W4_arr m ρ c 6).trans (((dat1 (V2 m ρ) c).arrAt_in 6 rfl _).trans (A_eq1 (V2 m ρ) c 6))
    _ = W1 m ρ c (Proc.devRef .tc main_arg7) := (W2_arr m ρ c 2).trans (((dat0 (V1 m ρ) c).arrAt_in 2 rfl _).trans (A_eq0 (V1 m ρ) c 2))
    _ = W0 m ρ c (Proc.devRef .tc main_arg7) := W1_arg m ρ c _ (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W2 m ρ c (Proc.devRef .tc main_arg8) := (W4_arr m ρ c 7).trans (((dat1 (V2 m ρ) c).arrAt_in 7 rfl _).trans (A_eq1 (V2 m ρ) c 7))
    _ = W1 m ρ c (Proc.devRef .tc main_arg8) := (W2_arr m ρ c 3).trans (((dat0 (V1 m ρ) c).arrAt_in 3 rfl _).trans (A_eq0 (V1 m ρ) c 3))
    _ = W0 m ρ c (Proc.devRef .tc main_arg8) := W1_arg m ρ c _ (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W2 m ρ c (Proc.devRef .tc main_arg9) := W4_of_ne m ρ c main_arg9 (by decide)
    _ = W1 m ρ c (Proc.devRef .tc main_arg9) := (W2_arr m ρ c 4).trans (((dat0 (V1 m ρ) c).arrAt_in 4 rfl _).trans (A_eq0 (V1 m ρ) c 4))
    _ = W0 m ρ c (Proc.devRef .tc main_arg9) := W1_arg m ρ c _ (by decide)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W2 m ρ c (Proc.devRef .tc main_arg10) := W4_of_ne m ρ c main_arg10 (by decide)
    _ = W1 m ρ c (Proc.devRef .tc main_arg10) := W2_of_ne m ρ c main_arg10 (by decide)
    _ = W0 m ρ c (Proc.devRef .tc main_arg10) := W1_arg m ρ c _ (by decide)
    _ = m ((c : Thread nD τ).loc main_arg10) := rfl
theorem W4_main_arg11 (c : Dev nD) : W4 m ρ c (Proc.devRef .tc main_arg11) = m ((c : Thread nD τ).loc main_arg11) :=
  calc W4 m ρ c (Proc.devRef .tc main_arg11)
    _ = W2 m ρ c (Proc.devRef .tc main_arg11) := W4_of_ne m ρ c main_arg11 (by decide)
    _ = W1 m ρ c (Proc.devRef .tc main_arg11) := W2_of_ne m ρ c main_arg11 (by decide)
    _ = W0 m ρ c (Proc.devRef .tc main_arg11) := W1_arg m ρ c _ (by decide)
    _ = m ((c : Thread nD τ).loc main_arg11) := rfl
theorem W4_main_arg12 (c : Dev nD) : W4 m ρ c (Proc.devRef .tc main_arg12) = m ((c : Thread nD τ).loc main_arg12) :=
  calc W4 m ρ c (Proc.devRef .tc main_arg12)
    _ = W2 m ρ c (Proc.devRef .tc main_arg12) := (W4_arr m ρ c 10).trans (((dat1 (V2 m ρ) c).arrAt_in 10 rfl _).trans (A_eq1 (V2 m ρ) c 10))
    _ = W1 m ρ c (Proc.devRef .tc main_arg12) := W2_of_ne m ρ c main_arg12 (by decide)
    _ = W0 m ρ c (Proc.devRef .tc main_arg12) := W1_arg m ρ c _ (by decide)
    _ = m ((c : Thread nD τ).loc main_arg12) := rfl

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m ρ) c); unfold Pipeline.ΦA
    iintro ⟨Hp, -, Hr⟩
    isplitl [Hr]; · iexact Hr
    iexact Hp
  hout c := by
    rw [Pipeline.ownSems0_none]; refine (hout0 (V1 m ρ) c).trans ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]; rw [show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c)⟩) (run_all m ρ)

end Cert.KernelIdeal.Hand

end
-- ==== Proof.Spec.lean ====
import Mathlib.Algebra.BigOperators.Group.Finset.Basic
import Mathlib.Algebra.BigOperators.Fin
import Mathlib.Data.Fintype.Basic
import Mathlib.Data.Real.Basic

noncomputable section

open scoped BigOperators

namespace Cert.Spec

variable {α : Type} [AddCommMonoid α] [Mul α] [Sub α]

def mm {M K N : ℕ} (A : Fin M → Fin K → α) (B : Fin K → Fin N → α) (p : Fin M) (q : Fin N) : α :=
  ∑ k : Fin K, A p k * B k q

def lo (j : Fin 256) : Fin 512 := ⟨j.val, by omega⟩

def hi (j : Fin 256) : Fin 512 := ⟨j.val + 256, by omega⟩

def blk (t : Fin 4) (r : Fin 512) : Fin 2048 := ⟨512 * t.val + r.val, by omega⟩

section Ref

variable (Xr Xi : Fin 2048 → Fin 512 → α) (Qr Qi : Fin 2048 → Fin 128 → α)

def diag (T : Fin 128 → α) (b a : Fin 128) : α := if b = a then T b else 0

def filtR (T : Fin 128 → α) (n k : Fin 2048) : α :=
  (∑ a : Fin 128, mm Qr (diag T) n a * Qr k a) + (∑ a : Fin 128, mm Qi (diag T) n a * Qi k a)

def filtI (T : Fin 128 → α) (n k : Fin 2048) : α :=
  (∑ a : Fin 128, mm Qi (diag T) n a * Qr k a) - (∑ a : Fin 128, mm Qr (diag T) n a * Qi k a)

def procR {H : ℕ} (Lr Li : Fin 2048 → Fin 2048 → α) (w : Fin 512 → Fin H → α) (n : Fin 2048) (j : Fin H) : α :=
  (∑ k : Fin 2048, Lr n k * mm Xr w k j) - (∑ k : Fin 2048, Li n k * mm Xi w k j)

def procI {H : ℕ} (Lr Li : Fin 2048 → Fin 2048 → α) (w : Fin 512 → Fin H → α) (n : Fin 2048) (j : Fin H) : α :=
  (∑ k : Fin 2048, Li n k * mm Xr w k j) + (∑ k : Fin 2048, Lr n k * mm Xi w k j)

variable (Lr0 Lr1 Li0 Li1 : Fin 2048 → Fin 2048 → α) (R : Fin 128 → α)
  (w0 w1 wl : Fin 512 → Fin 256 → α) (wres : Fin 512 → Fin 512 → α) (bias : Fin 512 → α)

def refRealL (n : Fin 2048) (j : Fin 256) : α :=
  (((procR Xr Xi Lr0 Li0 w0 n j + procR Xr Xi Lr1 Li1 w1 n j) + mm Xr w0 n j)
    + procR Xr Xi (filtR Qr Qi R) (filtI Qr Qi R) (fun i j => wres i (lo j)) n j) + bias (lo j)
def refRealR (n : Fin 2048) (j : Fin 256) : α :=
  ((procR Xr Xi (filtR Qr Qi fun a => R a * R a) (filtI Qr Qi fun a => R a * R a) wl n j + mm Xr w1 n j)
    + procR Xr Xi (filtR Qr Qi R) (filtI Qr Qi R) (fun i j => wres i (hi j)) n j) + bias (hi j)
def refImagL (n : Fin 2048) (j : Fin 256) : α :=
  (((procI Xr Xi Lr0 Li0 w0 n j + procI Xr Xi Lr1 Li1 w1 n j) + mm Xi w0 n j)
    + procI Xr Xi (filtR Qr Qi R) (filtI Qr Qi R) (fun i j => wres i (lo j)) n j) + bias (lo j)
def refImagR (n : Fin 2048) (j : Fin 256) : α :=
  ((procI Xr Xi (filtR Qr Qi fun a => R a * R a) (filtI Qr Qi fun a => R a * R a) wl n j + mm Xi w1 n j)
    + procI Xr Xi (filtR Qr Qi R) (filtI Qr Qi R) (fun i j => wres i (hi j)) n j) + bias (hi j)

end Ref

section Ker

variable (Xr Xi : Fin 2048 → Fin 512 → α) (Qr Qi : Fin 2048 → Fin 128 → α)

def gpBlk (t : Fin 4) (a : Fin 128) (i : Fin 512) : α :=
  (∑ r : Fin 512, Qr (blk t r) a * Xr (blk t r) i) + (∑ r : Fin 512, Qi (blk t r) a * Xi (blk t r) i)

def gmBlk (t : Fin 4) (a : Fin 128) (i : Fin 512) : α :=
  (∑ r : Fin 512, Qi (blk t r) a * Xr (blk t r) i) - (∑ r : Fin 512, Qr (blk t r) a * Xi (blk t r) i)

def gp (a : Fin 128) (i : Fin 512) : α :=
  ((gpBlk Xr Xi Qr Qi 0 a i + gpBlk Xr Xi Qr Qi 1 a i) + gpBlk Xr Xi Qr Qi 2 a i) + gpBlk Xr Xi Qr Qi 3 a i
def gm (a : Fin 128) (i : Fin 512) : α :=
  ((gmBlk Xr Xi Qr Qi 0 a i + gmBlk Xr Xi Qr Qi 1 a i) + gmBlk Xr Xi Qr Qi 2 a i) + gmBlk Xr Xi Qr Qi 3 a i

variable (R : Fin 128 → α) (wl : Fin 512 → Fin 256 → α) (wres : Fin 512 → Fin 512 → α)

def coefL (G : Fin 128 → Fin 512 → α) (a : Fin 128) (j : Fin 256) : α :=
  R a * mm G (fun i j => wres i (lo j)) a j

def coefR (G : Fin 128 → Fin 512 → α) (a : Fin 128) (j : Fin 256) : α :=
  R a * mm G (fun i j => wres i (hi j)) a j + (R a * R a) * mm G wl a j

variable (Lr0 Lr1 Li0 Li1 : Fin 2048 → Fin 2048 → α) (w0 w1 : Fin 512 → Fin 256 → α) (bias : Fin 512 → α)

def kerRealL (n : Fin 2048) (j : Fin 256) : α :=
  ((((mm Lr0 (mm Xr w0) n j - mm Li0 (mm Xi w0) n j) + (mm Lr1 (mm Xr w1) n j - mm Li1 (mm Xi w1) n j))
    + (mm Qr (coefL R wres (gp Xr Xi Qr Qi)) n j + mm Qi (coefL R wres (gm Xr Xi Qr Qi)) n j))
    + mm Xr w0 n j) + bias (lo j)
def kerRealR (n : Fin 2048) (j : Fin 256) : α :=
  ((mm Qr (coefR R wl wres (gp Xr Xi Qr Qi)) n j + mm Qi (coefR R wl wres (gm Xr Xi Qr Qi)) n j)
    + mm Xr w1 n j) + bias (hi j)
def kerImagL (n : Fin 2048) (j : Fin 256) : α :=
  ((((mm Li0 (mm Xr w0) n j + mm Lr0 (mm Xi w0) n j) + (mm Li1 (mm Xr w1) n j + mm Lr1 (mm Xi w1) n j))
    + (mm Qi (coefL R wres (gp Xr Xi Qr Qi)) n j - mm Qr (coefL R wres (gm Xr Xi Qr Qi)) n j))
    + mm Xi w0 n j) + bias (lo j)
def kerImagR (n : Fin 2048) (j : Fin 256) : α :=
  ((mm Qi (coefR R wl wres (gp Xr Xi Qr Qi)) n j - mm Qr (coefR R wl wres (gm Xr Xi Qr Qi)) n j)
    + mm Xi w1 n j) + bias (hi j)

end Ker

end Cert.Spec

end
-- ==== Proof.Mats.lean ====
import Idealize.ShloMosaic.PureOps.Ideal
import Idealize.ShloMosaic.Lib.ValueIdx
import proofs.«159171_g70626442215508_cont_9to1_m_806_14_alg».proof.Proof.Spec

noncomputable section

namespace Cert.Mats

open Idealize.ShloMosaic Idealize.ShloMosaic.ValueIdx

variable {α : Type}

def m2 {M N : ℕ} (x : (⟨2, ![M, N]⟩ : Shape).Idx → α) : Fin M → Fin N → α := fun p q => x (ix2 p q)

def v1 {N : ℕ} (x : (⟨1, ![N]⟩ : Shape).Idx → α) : Fin N → α := fun a => x (ix1 a)

def pl {K M N : ℕ} (x : (⟨3, ![K, M, N]⟩ : Shape).Idx → α) (k : Fin K) : Fin M → Fin N → α := fun i j => x (ix3 k i j)

def row0 {N : ℕ} (x : (⟨2, ![1, N]⟩ : Shape).Idx → α) : Fin N → α := fun j => x (ix2 0 j)

theorem m2_apply {M N : ℕ} (x : (⟨2, ![M, N]⟩ : Shape).Idx → α) (p : Fin M) (q : Fin N) : m2 x p q = x (ix2 p q) := rfl
theorem v1_apply {N : ℕ} (x : (⟨1, ![N]⟩ : Shape).Idx → α) (a : Fin N) : v1 x a = x (ix1 a) := rfl
theorem pl_apply {K M N : ℕ} (x : (⟨3, ![K, M, N]⟩ : Shape).Idx → α) (k : Fin K) (i : Fin M) (j : Fin N) : pl x k i j = x (ix3 k i j) := rfl
theorem row0_apply {N : ℕ} (x : (⟨2, ![1, N]⟩ : Shape).Idx → α) (j : Fin N) : row0 x j = x (ix2 0 j) := rfl

end Cert.Mats

end
-- ==== Proof.SpecK.lean ====
import proofs.«159171_g70626442215508_cont_9to1_m_806_14_alg».proof.Proof.Spec

noncomputable section

open scoped BigOperators

namespace Cert.Spec

variable {α : Type} [AddCommMonoid α] [Mul α] [Sub α]

section R1

variable (Lr0 Li0 Lr1 Li1 : Fin 2048 → Fin 2048 → α) (Z0L Z0R Z1L Z1R : Fin 2048 → Fin 256 → α)
  (Qr Qi : Fin 2048 → Fin 128 → α) (UUL UUR VVL VVR : Fin 128 → Fin 256 → α) (bias : Fin 512 → α)

def r1RealL (n : Fin 2048) (j : Fin 256) : α :=
  ((((mm Lr0 Z0L n j - mm Li0 Z0R n j) + (mm Lr1 Z1L n j - mm Li1 Z1R n j))
    + (mm Qr UUL n j + mm Qi VVL n j)) + Z0L n j) + bias (lo j)

def r1RealR (n : Fin 2048) (j : Fin 256) : α :=
  ((mm Qr UUR n j + mm Qi VVR n j) + Z1L n j) + bias (hi j)

def r1ImagL (n : Fin 2048) (j : Fin 256) : α :=
  ((((mm Li0 Z0L n j + mm Lr0 Z0R n j) + (mm Li1 Z1L n j + mm Lr1 Z1R n j))
    + (mm Qi UUL n j - mm Qr VVL n j)) + Z0R n j) + bias (lo j)

def r1ImagR (n : Fin 2048) (j : Fin 256) : α :=
  ((mm Qi UUR n j - mm Qr VVR n j) + Z1R n j) + bias (hi j)

end R1

section Compose

variable (Xr Xi : Fin 2048 → Fin 512 → α) (Qr Qi : Fin 2048 → Fin 128 → α) (R : Fin 128 → α)
  (wl : Fin 512 → Fin 256 → α) (wres : Fin 512 → Fin 512 → α)
  (Lr0 Lr1 Li0 Li1 : Fin 2048 → Fin 2048 → α) (w0 w1 : Fin 512 → Fin 256 → α) (bias : Fin 512 → α)

theorem kerRealL_eq_r1 (n : Fin 2048) (j : Fin 256) :
    kerRealL Xr Xi Qr Qi R wres Lr0 Lr1 Li0 Li1 w0 w1 bias n j
      = r1RealL Lr0 Li0 Lr1 Li1 (mm Xr w0) (mm Xi w0) (mm Xr w1) (mm Xi w1) Qr Qi
          (coefL R wres (gp Xr Xi Qr Qi)) (coefL R wres (gm Xr Xi Qr Qi)) bias n j := rfl
theorem kerRealR_eq_r1 (n : Fin 2048) (j : Fin 256) :
    kerRealR Xr Xi Qr Qi R wl wres w1 bias n j
      = r1RealR (mm Xr w1) Qr Qi (coefR R wl wres (gp Xr Xi Qr Qi)) (coefR R wl wres (gm Xr Xi Qr Qi)) bias n j := rfl
theorem kerImagL_eq_r1 (n : Fin 2048) (j : Fin 256) :
    kerImagL Xr Xi Qr Qi R wres Lr0 Lr1 Li0 Li1 w0 w1 bias n j
      = r1ImagL Lr0 Li0 Lr1 Li1 (mm Xr w0) (mm Xi w0) (mm Xr w1) (mm Xi w1) Qr Qi
          (coefL R wres (gp Xr Xi Qr Qi)) (coefL R wres (gm Xr Xi Qr Qi)) bias n j := rfl
theorem kerImagR_eq_r1 (n : Fin 2048) (j : Fin 256) :
    kerImagR Xr Xi Qr Qi R wl wres w1 bias n j
      = r1ImagR (mm Xi w1) Qr Qi (coefR R wl wres (gp Xr Xi Qr Qi)) (coefR R wl wres (gm Xr Xi Qr Qi)) bias n j := rfl

end Compose

end Cert.Spec

end
-- ==== Proof.KArr.lean ====
import proofs.«159171_g70626442215508_cont_9to1_m_806_14_alg».proof.Proof.Gen.KernelIdeal.Launch
import proofs.«159171_g70626442215508_cont_9to1_m_806_14_alg».proof.Proof.Mats
import proofs.«159171_g70626442215508_cont_9to1_m_806_14_alg».proof.Proof.SpecK

set_option maxRecDepth 16384

noncomputable section

namespace Cert.KernelIdeal.HandV

open Idealize.ShloMosaic Idealize.ShloMosaic.TcCoe Idealize.ShloMosaic.ValueIdx
open Idealize.SL.Sem
open Cert.KernelIdeal Cert.KernelIdeal.Gen
open Cert Cert.Mats

variable (V : (c : Dev nD) → (b : Ref sig .tc) → Buf (Elt Ideal) ((c : Thread nD τ).loc b)) (c : Dev nD)

abbrev aXr : S2048x512.Idx → EReal := V c main_arg0
abbrev aXi : S2048x512.Idx → EReal := V c main_arg1
abbrev aLr0 : S2048x2048.Idx → EReal := V c main_arg2
abbrev aLr1 : S2048x2048.Idx → EReal := V c main_arg3
abbrev aLi0 : S2048x2048.Idx → EReal := V c main_arg4
abbrev aLi1 : S2048x2048.Idx → EReal := V c main_arg5
abbrev aR : S128.Idx → EReal := V c main_arg6
abbrev aQr : S2048x128.Idx → EReal := V c main_arg7
abbrev aQi : S2048x128.Idx → EReal := V c main_arg8
abbrev aW : S2x512x256.Idx → EReal := V c main_arg9
abbrev aWl3 : S1x512x256.Idx → EReal := V c main_arg10
abbrev aWres3 : S1x512x512.Idx → EReal := V c main_arg11
abbrev aBias : S1x512.Idx → EReal := V c main_arg12

abbrev aWl : S512x256.Idx → EReal := V c main_v0

abbrev aWres : S512x512.Idx → EReal := V c main_v1

abbrev aRcol : S128x1.Idx → EReal := V c main_v2

abbrev aZ0 : S2048x512.Idx → EReal := V c main_v3_0
abbrev aZ1 : S2048x512.Idx → EReal := V c main_v3_1
abbrev aUU : S128x512.Idx → EReal := V c main_v3_2
abbrev aVV : S128x512.Idx → EReal := V c main_v3_3

abbrev aOutR : S2048x512.Idx → EReal := V c main_v4_0
abbrev aOutI : S2048x512.Idx → EReal := V c main_v4_1

def loHalf {M : ℕ} (x : (⟨2, ![M, 512]⟩ : Shape).Idx → EReal) : Fin M → Fin 256 → EReal := fun k j => x (ix2 k (Spec.lo j))

def hiHalf {M : ℕ} (x : (⟨2, ![M, 512]⟩ : Shape).Idx → EReal) : Fin M → Fin 256 → EReal := fun k j => x (ix2 k (Spec.hi j))

def col0 {M : ℕ} (x : (⟨2, ![M, 1]⟩ : Shape).Idx → EReal) : Fin M → EReal := fun a => x (ix2 a 0)

end Cert.KernelIdeal.HandV

end
-- ==== Proof.LibRowDims.lean ====
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

theorem plain_lhsIdx_row {M K N : Nat} (p : Fin M) (q : Fin N) (k : (DotDims.plain M K N).contr.Idx) :
    ((DotDims.plain M K N).lhsIdx (ix2 p q) k 0).val = p.val := rfl

theorem plain_rhsIdx_col {M K N : Nat} (p : Fin M) (q : Fin N) (k : (DotDims.plain M K N).contr.Idx) :
    ((DotDims.plain M K N).rhsIdx (ix2 p q) k 1).val = q.val := rfl

theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by

  rw [← Equiv.sum_comp (contrEquiv1 (DotDims.plain M K N) K rfl rfl).symm]
  refine Finset.sum_congr rfl fun k _ => ?_

  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)

  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

def clampRow (N : Nat) (hN : 0 < N) {w : Nat} (v : BitVec w) : Fin N := ⟨min v.toInt.toNat (N - 1), by omega⟩

theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  ·
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  ·
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1

  rw [Finset.sum_filter, sum_idx2]
  refine Finset.sum_congr rfl fun r _ => ?_
  simp only [rowScatter_resultIdx?_eq_some_iff]

  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.K0Pay.lean ====
import Idealize.ShloMosaic.PureOps.Ideal
import Idealize.ShloMosaic.PureOps.Ideal.Laws
import Idealize.ShloMosaic.Lib.ValueIdx
import Idealize.ShloMosaic.Lib.ValueLayout
import proofs.«159171_g70626442215508_cont_9to1_m_806_14_alg».proof.Proof.Gen.KernelIdeal.Skeleton
import proofs.«159171_g70626442215508_cont_9to1_m_806_14_alg».proof.Proof.LibRowDims
import proofs.«159171_g70626442215508_cont_9to1_m_806_14_alg».proof.Proof.Spec

noncomputable section

open scoped BigOperators

namespace Cert.KernelIdeal.HandV

open Idealize.ShloMosaic Idealize.ShloMosaic.ValueIdx Cert.KernelIdeal Cert.KernelIdeal.Gen

theorem mm_512_512_256 {φ₁ φ₂ : FTy} (lhs : FVec Ideal S512x512 φ₁) (rhs : FVec Ideal S512x256 φ₂)
    (p : Fin 512) (q : Fin 256) :
    matmul dot_S512x512_S512x256_S512x256_1_0_0_1_n_n none lhs rhs (constant S512x256 .f32 0x00000000#32) (ix2 p q)
      = ∑ k : Fin 512, lhs (ix2 p k) * rhs (ix2 k q) :=
  RowDims.matmul_plain_zero_apply none lhs rhs p q

theorem mm_128_512_256 {φ₁ φ₂ : FTy} (lhs : FVec Ideal S128x512 φ₁) (rhs : FVec Ideal S512x256 φ₂)
    (p : Fin 128) (q : Fin 256) :
    matmul dot_S128x512_S512x256_S128x256_1_0_0_1_n_n none lhs rhs (constant S128x256 .f32 0x00000000#32) (ix2 p q)
      = ∑ k : Fin 512, lhs (ix2 p k) * rhs (ix2 k q) :=
  RowDims.matmul_plain_zero_apply none lhs rhs p q

theorem mm_128_512_512 {φ₁ φ₂ : FTy} (lhs : FVec Ideal S128x512 φ₁) (rhs : FVec Ideal S512x512 φ₂)
    (p : Fin 128) (q : Fin 512) :
    matmul dot_S128x512_S512x512_S128x512_1_0_0_1_n_n none lhs rhs (constant S128x512 .f32 0x00000000#32) (ix2 p q)
      = ∑ k : Fin 512, lhs (ix2 p k) * rhs (ix2 k q) :=
  RowDims.matmul_plain_zero_apply none lhs rhs p q

abbrev dTN : DotDims S512x128 S512x512 S128x512 := dot_S512x128_S512x512_S128x512_0_0_1_1_n_n

theorem dTN_lhsIdx_0 (j : S128x512.Idx) (k : dot_S512x128_S512x512_S128x512_0_0_1_1_n_n.contr.Idx) :
    (dot_S512x128_S512x512_S128x512_0_0_1_1_n_n.lhsIdx j k 0).val = (k ⟨0, by decide⟩).val :=
  dot_S512x128_S512x512_S128x512_0_0_1_1_n_n.lhsIdx_val_of_single (cl := 0) rfl j k

theorem dTN_lhsIdx_1 (a : Fin 128) (i : Fin 512) (k : dot_S512x128_S512x512_S128x512_0_0_1_1_n_n.contr.Idx) :
    (dot_S512x128_S512x512_S128x512_0_0_1_1_n_n.lhsIdx (ix2 a i) k 1).val = a.val := rfl

theorem dTN_rhsIdx_0 (j : S128x512.Idx) (k : dot_S512x128_S512x512_S128x512_0_0_1_1_n_n.contr.Idx) :
    (dot_S512x128_S512x512_S128x512_0_0_1_1_n_n.rhsIdx j k 0).val = (k ⟨0, by decide⟩).val :=
  dot_S512x128_S512x512_S128x512_0_0_1_1_n_n.rhsIdx_val_of_single (cr := 0) rfl j k

theorem dTN_rhsIdx_1 (a : Fin 128) (i : Fin 512) (k : dot_S512x128_S512x512_S128x512_0_0_1_1_n_n.contr.Idx) :
    (dot_S512x128_S512x512_S128x512_0_0_1_1_n_n.rhsIdx (ix2 a i) k 1).val = i.val := rfl

theorem dTN_sum (lhs : S512x128.Idx → EReal) (rhs : S512x512.Idx → EReal) (a : Fin 128) (i : Fin 512) :
    ∑ k : dTN.contr.Idx, lhs (dTN.lhsIdx (ix2 a i) k) * rhs (dTN.rhsIdx (ix2 a i) k)
      = ∑ r : Fin 512, lhs (ix2 r a) * rhs (ix2 r i) := by
  rw [← Equiv.sum_comp (contrEquiv1 dTN 512 rfl rfl).symm]
  refine Finset.sum_congr rfl fun r _ => ?_
  have hl : dTN.lhsIdx (ix2 a i) ((contrEquiv1 dTN 512 rfl rfl).symm r) = ix2 r a := by
    funext ax
    refine Fin.ext ?_
    match ax with
    | ⟨0, _⟩ => exact (dTN_lhsIdx_0 _ _).trans (contrEquiv1_symm_val dTN 512 rfl rfl r)
    | ⟨1, _⟩ => exact dTN_lhsIdx_1 a i _
  have hr : dTN.rhsIdx (ix2 a i) ((contrEquiv1 dTN 512 rfl rfl).symm r) = ix2 r i := by
    funext ax
    refine Fin.ext ?_
    match ax with
    | ⟨0, _⟩ => exact (dTN_rhsIdx_0 _ _).trans (contrEquiv1_symm_val dTN 512 rfl rfl r)
    | ⟨1, _⟩ => exact dTN_rhsIdx_1 a i _
  rw [hl, hr]

theorem mmTN_apply {φ₁ φ₂ : FTy} (lhs : FVec Ideal S512x128 φ₁) (rhs : FVec Ideal S512x512 φ₂) (a : Fin 128) (i : Fin 512) :
    matmul dot_S512x128_S512x512_S128x512_0_0_1_1_n_n none lhs rhs (constant S128x512 .f32 0x00000000#32) (ix2 a i)
      = ∑ r : Fin 512, lhs (ix2 r a) * rhs (ix2 r i) := by
  show FloatOps.matmul dTN none lhs rhs (constant S128x512 .f32 0x00000000#32) (ix2 a i) = _
  rw [Ideal.matmul_constant_zero_apply]
  exact dTN_sum lhs rhs a i

section Layout

variable {α : Type}

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem concat_cols_left {n m₁ m₂ m : ℕ} (x₁ : (⟨2, ![n, m₁]⟩ : Shape).Idx → α) (x₂ : (⟨2, ![n, m₂]⟩ : Shape).Idx → α)
    (h : Shape.Concatenates [(⟨2, ![n, m₁]⟩ : Shape), ⟨2, ![n, m₂]⟩] ⟨2, ![n, m]⟩ 1)
    (p : Fin n) (c : Fin m) (c' : Fin m₁) (hc : c'.val = c.val) :
    concatenate ⟨2, ![n, m]⟩ 1 [⟨⟨2, ![n, m₁]⟩, x₁⟩, ⟨⟨2, ![n, m₂]⟩, x₂⟩] h (ix2 p c) = x₁ (ix2 p c') :=
  concatenate_pair_apply_left 1 x₁ x₂ h (ix2 p c) rfl (ix2 p c') (fun b => by
    match b with
    | ⟨0, _⟩ => rfl
    | ⟨1, _⟩ => exact hc)

theorem concat_cols_right {n m₁ m₂ m : ℕ} (x₁ : (⟨2, ![n, m₁]⟩ : Shape).Idx → α) (x₂ : (⟨2, ![n, m₂]⟩ : Shape).Idx → α)
    (h : Shape.Concatenates [(⟨2, ![n, m₁]⟩ : Shape), ⟨2, ![n, m₂]⟩] ⟨2, ![n, m]⟩ 1)
    (p : Fin n) (c : Fin m) (c' : Fin m₂) (hc : c'.val + m₁ = c.val) :
    concatenate ⟨2, ![n, m]⟩ 1 [⟨⟨2, ![n, m₁]⟩, x₁⟩, ⟨⟨2, ![n, m₂]⟩, x₂⟩] h (ix2 p c) = x₂ (ix2 p c') :=
  concatenate_pair_apply_right 1 x₁ x₂ h (ix2 p c) rfl rfl (ix2 p c') (fun b => by
    match b with
    | ⟨0, _⟩ => exact fun _ => rfl
    | ⟨1, _⟩ => exact fun hb => absurd rfl hb) hc

end Layout

section Panels

variable (x0 x2 : Vec Ideal S512x512 .f32) (w4 : Vec Ideal S1x512x256 .f32) (r : Fin 512) (j : Fin 256)

theorem pay15_lo : k0_pay15 (F := Ideal) x0 x2 w4 (ix2 r (Spec.lo j)) = ∑ i : Fin 512, x0 (ix2 r i) * w4 (ix3 0 i j) := by
  unfold k0_pay15 k0_pay13 k0_pay14
  dsimp only
  rw [truncf_apply, concat_cols_left _ _ _ r (Spec.lo j) j rfl, mm_512_512_256]
  simp only [truncf_apply, shapeCast_1ab_ab_apply]

theorem pay15_hi : k0_pay15 (F := Ideal) x0 x2 w4 (ix2 r (Spec.hi j)) = ∑ i : Fin 512, x2 (ix2 r i) * w4 (ix3 0 i j) := by
  unfold k0_pay15 k0_pay13 k0_pay14
  dsimp only
  rw [truncf_apply, concat_cols_right _ _ _ r (Spec.hi j) j rfl, mm_512_512_256]
  simp only [truncf_apply, shapeCast_1ab_ab_apply]

theorem pay16_lo : k0_pay16 (F := Ideal) x0 x2 w4 (ix2 r (Spec.lo j)) = ∑ i : Fin 512, x0 (ix2 r i) * w4 (ix3 0 i j) := by
  unfold k0_pay16 k0_pay13 k0_pay14
  dsimp only
  rw [truncf_apply, concat_cols_left _ _ _ r (Spec.lo j) j rfl, mm_512_512_256]
  simp only [truncf_apply, shapeCast_1ab_ab_apply]

theorem pay16_hi : k0_pay16 (F := Ideal) x0 x2 w4 (ix2 r (Spec.hi j)) = ∑ i : Fin 512, x2 (ix2 r i) * w4 (ix3 0 i j) := by
  unfold k0_pay16 k0_pay13 k0_pay14
  dsimp only
  rw [truncf_apply, concat_cols_right _ _ _ r (Spec.hi j) j rfl, mm_512_512_256]
  simp only [truncf_apply, shapeCast_1ab_ab_apply]

end Panels

section Contract

variable (x0 x2 : Vec Ideal S512x512 .f32) (q22 q24 : Vec Ideal S512x128 .f32) (a : Fin 128) (i : Fin 512)

theorem pay19_apply :
    k0_pay19 (F := Ideal) x0 x2 q22 q24 (ix2 a i)
      = (∑ r : Fin 512, q22 (ix2 r a) * x0 (ix2 r i)) + (∑ r : Fin 512, q24 (ix2 r a) * x2 (ix2 r i)) := by
  unfold k0_pay19 k0_pay17 k0_pay18 k0_pay13 k0_pay14
  dsimp only
  rw [addf_apply, mmTN_apply, mmTN_apply]
  simp only [truncf_apply]

theorem pay1_apply :
    k0_pay1 (F := Ideal) (k0_pay20 x0 q24) (k0_pay21 x2 q22) (ix2 a i)
      = (∑ r : Fin 512, q24 (ix2 r a) * x0 (ix2 r i)) - (∑ r : Fin 512, q22 (ix2 r a) * x2 (ix2 r i)) := by
  unfold k0_pay1 k0_pay20 k0_pay21 k0_pay17 k0_pay18 k0_pay13 k0_pay14
  dsimp only
  rw [subf_apply, mmTN_apply, mmTN_apply]
  simp only [truncf_apply]

end Contract

section Accumulate

variable (v v28 v29 v30 : FVec Ideal S128x512 .f32) (v41 v46 : Vec Ideal S128x512 .f32) (y : S128x512.Idx)

theorem pay2_apply : k0_pay2 (F := Ideal) v y = v y := by
  unfold k0_pay2
  rw [shapeCast_self]

theorem pay3_apply : k0_pay3 (F := Ideal) v29 v30 y = k0_pay1 v29 v30 y := by
  unfold k0_pay3
  rw [shapeCast_self]

theorem pay4_apply : k0_pay4 (F := Ideal) v28 v41 y = v41 y + v28 y := by
  unfold k0_pay4
  rw [shapeCast_self, addf_apply]

theorem pay5_apply : k0_pay5 (F := Ideal) v29 v30 v46 y = v46 y + k0_pay1 v29 v30 y := by
  unfold k0_pay5
  rw [shapeCast_self, addf_apply]

end Accumulate

section Coef

variable (rc : Vec Ideal S128x1 .f32) (g : Vec Ideal S128x512 .f32) (wl : Vec Ideal S512x256 .f32)
  (wr : Vec Ideal S512x512 .f32) (a : Fin 128) (j : Fin 256)

theorem pay7_apply (y : S128x1.Idx) : k0_pay7 (F := Ideal) rc y = rc y := by
  unfold k0_pay7
  rw [shapeCast_self]

theorem pay8_apply (y : S128x1.Idx) : k0_pay8 (F := Ideal) rc y = rc y * rc y := by
  unfold k0_pay8
  rw [mulf_apply, pay7_apply]

theorem pay9_apply :
    k0_pay9 (F := Ideal) rc g wl (ix2 a j) = (rc (ix2 a 0) * rc (ix2 a 0)) * ∑ i : Fin 512, g (ix2 a i) * wl (ix2 i j) := by
  unfold k0_pay9
  rw [mulf_apply, broadcastTo_a1_ab_apply, pay8_apply, mm_128_512_256]
  simp only [truncf_apply, shapeCast_self]

theorem pay10_apply (c : Fin 512) :
    k0_pay10 (F := Ideal) rc g wr (ix2 a c) = rc (ix2 a 0) * ∑ i : Fin 512, g (ix2 a i) * wr (ix2 i c) := by
  unfold k0_pay10
  rw [mulf_apply, broadcastTo_a1_ab_apply, pay7_apply, mm_128_512_512]
  simp only [truncf_apply, shapeCast_self]

theorem pay11_lo :
    k0_pay11 (F := Ideal) rc g wl wr (ix2 a (Spec.lo j))
      = rc (ix2 a 0) * ∑ i : Fin 512, g (ix2 a i) * wr (ix2 i (Spec.lo j)) := by
  unfold k0_pay11
  rw [concat_cols_left _ _ _ a (Spec.lo j) j rfl, slice2_axis1_apply 0 _ _ a j (Spec.lo j) (Nat.zero_add _).symm]
  simp only [mulf_apply, broadcastTo_a1_ab_apply, pay7_apply, mm_128_512_512, truncf_apply, shapeCast_self]

theorem pay11_hi :
    k0_pay11 (F := Ideal) rc g wl wr (ix2 a (Spec.hi j))
      = rc (ix2 a 0) * (∑ i : Fin 512, g (ix2 a i) * wr (ix2 i (Spec.hi j)))
        + (rc (ix2 a 0) * rc (ix2 a 0)) * ∑ i : Fin 512, g (ix2 a i) * wl (ix2 i j) := by
  unfold k0_pay11
  rw [concat_cols_right _ _ _ a (Spec.hi j) j rfl, addf_apply,
    slice2_axis1_apply 256 _ _ a j (Spec.hi j) (Nat.add_comm _ _)]
  simp only [mulf_apply, broadcastTo_a1_ab_apply, pay7_apply, pay8_apply, mm_128_512_512, mm_128_512_256, truncf_apply,
    shapeCast_self]

theorem pay6_lo :
    k0_pay6 (F := Ideal) (k0_pay9 rc g wl) (k0_pay10 rc g wr) (k0_pay12 rc g wr) (ix2 a (Spec.lo j))
      = rc (ix2 a 0) * ∑ i : Fin 512, g (ix2 a i) * wr (ix2 i (Spec.lo j)) := by
  unfold k0_pay6 k0_pay12
  rw [concat_cols_left _ _ _ a (Spec.lo j) j rfl, slice2_axis1_apply 0 _ _ a j (Spec.lo j) (Nat.zero_add _).symm,
    pay10_apply]

theorem pay6_hi :
    k0_pay6 (F := Ideal) (k0_pay9 rc g wl) (k0_pay10 rc g wr) (k0_pay12 rc g wr) (ix2 a (Spec.hi j))
      = rc (ix2 a 0) * (∑ i : Fin 512, g (ix2 a i) * wr (ix2 i (Spec.hi j)))
        + (rc (ix2 a 0) * rc (ix2 a 0)) * ∑ i : Fin 512, g (ix2 a i) * wl (ix2 i j) := by
  unfold k0_pay6
  rw [concat_cols_right _ _ _ a (Spec.hi j) j rfl, addf_apply,
    slice2_axis1_apply 256 _ _ a j (Spec.hi j) (Nat.add_comm _ _), pay10_apply, pay9_apply]

end Coef

end Cert.KernelIdeal.HandV

end
-- ==== Proof.K0Value.lean ====
import proofs.«159171_g70626442215508_cont_9to1_m_806_14_alg».proof.Proof.K0Frame
import proofs.«159171_g70626442215508_cont_9to1_m_806_14_alg».proof.Proof.K0Pay
import proofs.«159171_g70626442215508_cont_9to1_m_806_14_alg».proof.Proof.KArr
import Idealize.ShloMosaic.Lib.Pipeline.Value
import Idealize.ShloMosaic.Lib.Tactic

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat)
open Idealize.ShloMosaic.ValueIdx
open Cert Cert.Mats
open scoped BigOperators

theorem hz2 : (![0, 0] : Fin 2 → Nat) = fun _ => 0 := funext fun a => by fin_cases a <;> rfl

section Pieces

variable {F : FTy → Type} [FloatOps F]

variable (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2x512x256 .f32) (harg5 : arg5.IsWhole) (arg6 : Memref sig .tc .vmem S512x256 .f32) (harg6 : arg6.IsWhole) (arg7 : Memref sig .tc .vmem S512x512 .f32) (harg7 : arg7.IsWhole) (arg8 : Memref sig .tc .vmem S128x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole)

section A
variable (hc0 : cond0_0 i) (hc1 : ¬cond0_1 i) (hc2 : ¬cond0_2 i) (x0 : Vec F S512x512 .f32) (x1 : Vec F S512x512 .f32) (x2 : Vec F S512x128 .f32) (x3 : Vec F S512x128 .f32) (x4 : Vec F S2x512x256 .f32) (x5 : Vec F S512x256 .f32) (x6 : Vec F S512x512 .f32) (x7 : Vec F S128x1 .f32)

theorem sA0 :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 = k0_pay2 (k0_pay19 x0 x1 x2 x3) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg13.read_unread, harg14.read_unread,
    View.ld_unit_zero (S := S512x512) hz2, View.ld_unit_zero (S := S512x128) hz2, View.ld_unit_zero (S := S128x512) hz2, View.ld_unit_zero (S := S512x256) hz2, View.ld_unit_zero (S := S128x1) hz2, View.readCov_unit_zero (S := S128x512) _ hz2]

theorem sA1 :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 = k0_pay3 (k0_pay20 x0 x3) (k0_pay21 x1 x2) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg13.read_unread, harg14.read_unread,
    View.ld_unit_zero (S := S512x512) hz2, View.ld_unit_zero (S := S512x128) hz2, View.ld_unit_zero (S := S128x512) hz2, View.ld_unit_zero (S := S512x256) hz2, View.ld_unit_zero (S := S128x1) hz2, View.readCov_unit_zero (S := S128x512) _ hz2]

end A

section B
variable (hc0 : ¬cond0_0 i) (hc1 : cond0_1 i) (hc2 : ¬cond0_2 i) (x0 : Vec F S512x512 .f32) (x1 : Vec F S512x512 .f32) (x2 : Vec F S512x128 .f32) (x3 : Vec F S512x128 .f32) (x4 : Vec F S2x512x256 .f32) (x5 : Vec F S512x256 .f32) (x6 : Vec F S512x512 .f32) (x7 : Vec F S128x1 .f32) (xs0 : Vec F S128x512 .f32) (xs1 : Vec F S128x512 .f32)

theorem sB0 :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1 = k0_pay4 (k0_pay19 x0 x1 x2 x3) xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg13.read_unread, harg14.read_unread,
    View.ld_unit_zero (S := S512x512) hz2, View.ld_unit_zero (S := S512x128) hz2, View.ld_unit_zero (S := S128x512) hz2, View.ld_unit_zero (S := S512x256) hz2, View.ld_unit_zero (S := S128x1) hz2, View.readCov_unit_zero (S := S128x512) _ hz2]

theorem sB1 :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1 = k0_pay5 (k0_pay20 x0 x3) (k0_pay21 x1 x2) xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg13.read_unread, harg14.read_unread,
    View.ld_unit_zero (S := S512x512) hz2, View.ld_unit_zero (S := S512x128) hz2, View.ld_unit_zero (S := S128x512) hz2, View.ld_unit_zero (S := S512x256) hz2, View.ld_unit_zero (S := S128x1) hz2, View.readCov_unit_zero (S := S128x512) _ hz2]

end B

section C
variable (hc0 : ¬cond0_0 i) (hc1 : cond0_1 i) (hc2 : cond0_2 i) (x0 : Vec F S512x512 .f32) (x1 : Vec F S512x512 .f32) (x2 : Vec F S512x128 .f32) (x3 : Vec F S512x128 .f32) (x4 : Vec F S2x512x256 .f32) (x5 : Vec F S512x256 .f32) (x6 : Vec F S512x512 .f32) (x7 : Vec F S128x1 .f32) (xs0 : Vec F S128x512 .f32) (xs1 : Vec F S128x512 .f32)

theorem sC0 :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1 = k0_pay4 (k0_pay19 x0 x1 x2 x3) xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg13.read_unread, harg14.read_unread,
    View.ld_unit_zero (S := S512x512) hz2, View.ld_unit_zero (S := S512x128) hz2, View.ld_unit_zero (S := S128x512) hz2, View.ld_unit_zero (S := S512x256) hz2, View.ld_unit_zero (S := S128x1) hz2, View.readCov_unit_zero (S := S128x512) _ hz2]

theorem sC1 :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1 = k0_pay5 (k0_pay20 x0 x3) (k0_pay21 x1 x2) xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg13.read_unread, harg14.read_unread,
    View.ld_unit_zero (S := S512x512) hz2, View.ld_unit_zero (S := S512x128) hz2, View.ld_unit_zero (S := S128x512) hz2, View.ld_unit_zero (S := S512x256) hz2, View.ld_unit_zero (S := S128x1) hz2, View.readCov_unit_zero (S := S128x512) _ hz2]

theorem oC10 :
    out0_C_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1 = k0_pay11 x7 (k0_pay4 (k0_pay19 x0 x1 x2 x3) xs0) x5 x6 := by
  unfold out0_C_10
  rw [View.read_writes_eq_canon _ _ _ (cover0_C_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg13.read_unread, harg14.read_unread,
    View.ld_unit_zero (S := S512x512) hz2, View.ld_unit_zero (S := S512x128) hz2, View.ld_unit_zero (S := S128x512) hz2, View.ld_unit_zero (S := S512x256) hz2, View.ld_unit_zero (S := S128x1) hz2, View.readCov_unit_zero (S := S128x512) _ hz2]

theorem oC11 :
    out0_C_11 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1 = k0_pay6 (k0_pay9 x7 (k0_pay5 (k0_pay20 x0 x3) (k0_pay21 x1 x2) xs1) x5) (k0_pay10 x7 (k0_pay5 (k0_pay20 x0 x3) (k0_pay21 x1 x2) xs1) x6) (k0_pay12 x7 (k0_pay5 (k0_pay20 x0 x3) (k0_pay21 x1 x2) xs1) x6) := by
  unfold out0_C_11
  rw [View.read_writes_eq_canon _ _ _ (cover0_C_11 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg13.read_unread, harg14.read_unread,
    View.ld_unit_zero (S := S512x512) hz2, View.ld_unit_zero (S := S512x128) hz2, View.ld_unit_zero (S := S128x512) hz2, View.ld_unit_zero (S := S512x256) hz2, View.ld_unit_zero (S := S128x1) hz2, View.readCov_unit_zero (S := S128x512) _ hz2]

end C

end Pieces

section Accumulate

variable {F : FTy → Type} [FloatOps F]
variable (V : (c : Dev nD) → (b : Ref sig .tc) → Buf (Elt F) ((c : Thread nD τ).loc b)) (c : Dev nD)

abbrev b0 (t : Fin cfg0.N) : Vec F S512x512 .f32 := iblk0 V c 0 t
abbrev b1 (t : Fin cfg0.N) : Vec F S512x512 .f32 := iblk0 V c 1 t
abbrev b2 (t : Fin cfg0.N) : Vec F S512x128 .f32 := iblk0 V c 2 t
abbrev b3 (t : Fin cfg0.N) : Vec F S512x128 .f32 := iblk0 V c 3 t
abbrev b5 (t : Fin cfg0.N) : Vec F S512x256 .f32 := iblk0 V c 5 t
abbrev b6 (t : Fin cfg0.N) : Vec F S512x512 .f32 := iblk0 V c 6 t
abbrev b7 (t : Fin cfg0.N) : Vec F S128x1 .f32 := iblk0 V c 7 t

def acc0 : (n : ℕ) → n < cfg0.N → Vec F S128x512 .f32
  | 0, h => k0_pay2 (k0_pay19 (b0 V c ⟨0, h⟩) (b1 V c ⟨0, h⟩) (b2 V c ⟨0, h⟩) (b3 V c ⟨0, h⟩))
  | n + 1, h => k0_pay4 (k0_pay19 (b0 V c ⟨n + 1, h⟩) (b1 V c ⟨n + 1, h⟩) (b2 V c ⟨n + 1, h⟩) (b3 V c ⟨n + 1, h⟩)) (acc0 n (Nat.lt_of_succ_lt h))

def acc1 : (n : ℕ) → n < cfg0.N → Vec F S128x512 .f32
  | 0, h => k0_pay3 (k0_pay20 (b0 V c ⟨0, h⟩) (b3 V c ⟨0, h⟩)) (k0_pay21 (b1 V c ⟨0, h⟩) (b2 V c ⟨0, h⟩))
  | n + 1, h => k0_pay5 (k0_pay20 (b0 V c ⟨n + 1, h⟩) (b3 V c ⟨n + 1, h⟩)) (k0_pay21 (b1 V c ⟨n + 1, h⟩) (b2 V c ⟨n + 1, h⟩)) (acc1 n (Nat.lt_of_succ_lt h))

theorem s0_A (t : Fin cfg0.N) (h0 : t.val % 4 = 0) (h2 : ¬t.val % 4 = 3) :
    (outsAt0 V c t.val t.isLt).2.2.2.2.1 = k0_pay2 (k0_pay19 (b0 V c t) (b1 V c t) (b2 V c t) (b3 V c t)) := by
  rw [outsAt0_A V c t h0 h2]
  dsimp only
  exact sA0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => ((hcond0_1 t).mp h) h0) (fun h => h2 ((hcond0_2 t).mp h)) (iblk0 V c 0 t) (iblk0 V c 1 t) (iblk0 V c 2 t) (iblk0 V c 3 t) (iblk0 V c 4 t) (iblk0 V c 5 t) (iblk0 V c 6 t) (iblk0 V c 7 t)

theorem s1_A (t : Fin cfg0.N) (h0 : t.val % 4 = 0) (h2 : ¬t.val % 4 = 3) :
    (outsAt0 V c t.val t.isLt).2.2.2.2.2 = k0_pay3 (k0_pay20 (b0 V c t) (b3 V c t)) (k0_pay21 (b1 V c t) (b2 V c t)) := by
  rw [outsAt0_A V c t h0 h2]
  dsimp only
  exact sA1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => ((hcond0_1 t).mp h) h0) (fun h => h2 ((hcond0_2 t).mp h)) (iblk0 V c 0 t) (iblk0 V c 1 t) (iblk0 V c 2 t) (iblk0 V c 3 t) (iblk0 V c 4 t) (iblk0 V c 5 t) (iblk0 V c 6 t) (iblk0 V c 7 t)

theorem s0_B (t : Fin cfg0.N) (h0 : ¬t.val % 4 = 0) (h2 : ¬t.val % 4 = 3) :
    (outsAt0 V c t.val t.isLt).2.2.2.2.1 = k0_pay4 (k0_pay19 (b0 V c t) (b1 V c t) (b2 V c t) (b3 V c t)) (outsAt0 V c (t.val - 1) (Nat.lt_of_le_of_lt (Nat.sub_le _ _) t.isLt)).2.2.2.2.1 := by
  rw [outsAt0_B V c t h0 h2]
  dsimp only
  exact sB0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h0) (fun h => h2 ((hcond0_2 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2

theorem s1_B (t : Fin cfg0.N) (h0 : ¬t.val % 4 = 0) (h2 : ¬t.val % 4 = 3) :
    (outsAt0 V c t.val t.isLt).2.2.2.2.2 = k0_pay5 (k0_pay20 (b0 V c t) (b3 V c t)) (k0_pay21 (b1 V c t) (b2 V c t)) (outsAt0 V c (t.val - 1) (Nat.lt_of_le_of_lt (Nat.sub_le _ _) t.isLt)).2.2.2.2.2 := by
  rw [outsAt0_B V c t h0 h2]
  dsimp only
  exact sB1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h0) (fun h => h2 ((hcond0_2 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2

theorem s0_C (t : Fin cfg0.N) (h0 : ¬t.val % 4 = 0) (h2 : t.val % 4 = 3) :
    (outsAt0 V c t.val t.isLt).2.2.2.2.1 = k0_pay4 (k0_pay19 (b0 V c t) (b1 V c t) (b2 V c t) (b3 V c t)) (outsAt0 V c (t.val - 1) (Nat.lt_of_le_of_lt (Nat.sub_le _ _) t.isLt)).2.2.2.2.1 := by
  rw [outsAt0_C V c t h0 h2]
  dsimp only
  exact sC0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h0) ((hcond0_2 t).mpr h2) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2

theorem s1_C (t : Fin cfg0.N) (h0 : ¬t.val % 4 = 0) (h2 : t.val % 4 = 3) :
    (outsAt0 V c t.val t.isLt).2.2.2.2.2 = k0_pay5 (k0_pay20 (b0 V c t) (b3 V c t)) (k0_pay21 (b1 V c t) (b2 V c t)) (outsAt0 V c (t.val - 1) (Nat.lt_of_le_of_lt (Nat.sub_le _ _) t.isLt)).2.2.2.2.2 := by
  rw [outsAt0_C V c t h0 h2]
  dsimp only
  exact sC1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h0) ((hcond0_2 t).mpr h2) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2

theorem o10_C (t : Fin cfg0.N) (h0 : ¬t.val % 4 = 0) (h2 : t.val % 4 = 3) :
    (outsAt0 V c t.val t.isLt).2.2.1 = k0_pay11 (b7 V c t) (k0_pay4 (k0_pay19 (b0 V c t) (b1 V c t) (b2 V c t) (b3 V c t)) (outsAt0 V c (t.val - 1) (Nat.lt_of_le_of_lt (Nat.sub_le _ _) t.isLt)).2.2.2.2.1) (b5 V c t) (b6 V c t) := by
  rw [outsAt0_C V c t h0 h2]
  dsimp only
  exact oC10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h0) ((hcond0_2 t).mpr h2) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2

theorem o11_C (t : Fin cfg0.N) (h0 : ¬t.val % 4 = 0) (h2 : t.val % 4 = 3) :
    (outsAt0 V c t.val t.isLt).2.2.2.1 = k0_pay6 (k0_pay9 (b7 V c t) (k0_pay5 (k0_pay20 (b0 V c t) (b3 V c t)) (k0_pay21 (b1 V c t) (b2 V c t)) (outsAt0 V c (t.val - 1) (Nat.lt_of_le_of_lt (Nat.sub_le _ _) t.isLt)).2.2.2.2.2) (b5 V c t)) (k0_pay10 (b7 V c t) (k0_pay5 (k0_pay20 (b0 V c t) (b3 V c t)) (k0_pay21 (b1 V c t) (b2 V c t)) (outsAt0 V c (t.val - 1) (Nat.lt_of_le_of_lt (Nat.sub_le _ _) t.isLt)).2.2.2.2.2) (b6 V c t)) (k0_pay12 (b7 V c t) (k0_pay5 (k0_pay20 (b0 V c t) (b3 V c t)) (k0_pay21 (b1 V c t) (b2 V c t)) (outsAt0 V c (t.val - 1) (Nat.lt_of_le_of_lt (Nat.sub_le _ _) t.isLt)).2.2.2.2.2) (b6 V c t)) := by
  rw [outsAt0_C V c t h0 h2]
  dsimp only
  exact oC11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h0) ((hcond0_2 t).mpr h2) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2

theorem scr_eq : ∀ (n : ℕ) (h : n < cfg0.N),
    (outsAt0 V c n h).2.2.2.2.1 = acc0 V c n h ∧ (outsAt0 V c n h).2.2.2.2.2 = acc1 V c n h
  | 0, h => ⟨s0_A V c ⟨0, h⟩ rfl (by dsimp only; omega), s1_A V c ⟨0, h⟩ rfl (by dsimp only; omega)⟩
  | n + 1, h => by
    have hN : cfg0.N = 4 := N_0
    have h0 : ¬(⟨n + 1, h⟩ : Fin cfg0.N).val % 4 = 0 := by dsimp only; omega
    have ih := scr_eq n (Nat.lt_of_succ_lt h)
    by_cases h2 : (⟨n + 1, h⟩ : Fin cfg0.N).val % 4 = 3
    · refine ⟨(s0_C V c ⟨n + 1, h⟩ h0 h2).trans ?_, (s1_C V c ⟨n + 1, h⟩ h0 h2).trans ?_⟩
      · show k0_pay4 _ (outsAt0 V c n _).2.2.2.2.1 = k0_pay4 _ (acc0 V c n _)
        rw [ih.1]
      · show k0_pay5 _ _ (outsAt0 V c n _).2.2.2.2.2 = k0_pay5 _ _ (acc1 V c n _)
        rw [ih.2]
    · refine ⟨(s0_B V c ⟨n + 1, h⟩ h0 h2).trans ?_, (s1_B V c ⟨n + 1, h⟩ h0 h2).trans ?_⟩
      · show k0_pay4 _ (outsAt0 V c n _).2.2.2.2.1 = k0_pay4 _ (acc0 V c n _)
        rw [ih.1]
      · show k0_pay5 _ _ (outsAt0 V c n _).2.2.2.2.2 = k0_pay5 _ _ (acc1 V c n _)
        rw [ih.2]

abbrev tl : Fin cfg0.N := t0_3

def res10 : Vec F S128x512 .f32 :=
  k0_pay11 (b7 V c tl) (acc0 V c 3 tl.isLt) (b5 V c tl) (b6 V c tl)

def res11 : Vec F S128x512 .f32 :=
  k0_pay6 (k0_pay9 (b7 V c tl) (acc1 V c 3 tl.isLt) (b5 V c tl)) (k0_pay10 (b7 V c tl) (acc1 V c 3 tl.isLt) (b6 V c tl)) (k0_pay12 (b7 V c tl) (acc1 V c 3 tl.isLt) (b6 V c tl))

theorem o10_last : (outsAt0 V c tl.val tl.isLt).2.2.1 = res10 V c := by
  have ih := scr_eq V c 2 (Nat.lt_of_succ_lt tl.isLt)
  refine (o10_C V c tl (by decide) (by decide)).trans ?_
  show k0_pay11 _ (k0_pay4 _ (outsAt0 V c 2 _).2.2.2.2.1) _ _ = k0_pay11 _ (k0_pay4 _ (acc0 V c 2 _)) _ _
  rw [ih.1]
  rfl

theorem o11_last : (outsAt0 V c tl.val tl.isLt).2.2.2.1 = res11 V c := by
  have ih := scr_eq V c 2 (Nat.lt_of_succ_lt tl.isLt)
  refine (o11_C V c tl (by decide) (by decide)).trans ?_
  show k0_pay6 (k0_pay9 _ (k0_pay5 _ _ (outsAt0 V c 2 _).2.2.2.2.2) _) (k0_pay10 _ (k0_pay5 _ _ (outsAt0 V c 2 _).2.2.2.2.2) _) (k0_pay12 _ (k0_pay5 _ _ (outsAt0 V c 2 _).2.2.2.2.2) _)
    = k0_pay6 (k0_pay9 _ (k0_pay5 _ _ (acc1 V c 2 _)) _) (k0_pay10 _ (k0_pay5 _ _ (acc1 V c 2 _)) _) (k0_pay12 _ (k0_pay5 _ _ (acc1 V c 2 _)) _)
  rw [ih.2]
  rfl

end Accumulate

section Arrays

variable {F : FTy → Type} [FloatOps F]
variable (V : (c : Dev nD) → (b : Ref sig .tc) → Buf (Elt F) ((c : Thread nD τ).loc b)) (c : Dev nD)

theorem flushed10 (t : Fin cfg0.N) (hf : (cfg0.win 10).flush t = true) :
    (dat0 V c).flushed 10 t = ((cfg0.win 10).blk t).view.read (Elt F) (res10 V c : Buf (Elt F) ((c : Thread nD τ).loc main_v3_2)) := by
  have hN : cfg0.N = 4 := N_0
  have h3 : t.val = 3 := by have := (flush0_10 t).mp hf; have := t.isLt; omega
  obtain rfl : t = t0_3 := Fin.ext h3
  show (cfg0.win 10).cut (grid0.coords t0_3) ((dat0 V c).after 10 t0_3) = _
  rw [after0_10, o10_last V c]
  have hz' : (fun a => win0_10.index t0_3 a * main_v3_2.ty.shape.size a) = fun _ => 0 := funext fun a => by fin_cases a <;> decide
  exact (Memref.read_access_unit_zero (Elt F) main_v3_2 hz' (fun a => by rw [congrFun hz' a]; simp) (res10 V c)).symm

theorem final10 : (dat0 V c).arrAt 10 cfg0.N = (res10 V c : Buf (Elt F) ((c : Thread nD τ).loc main_v3_2)) :=
  (dat0 V c).arrAt_eq_of_cover 10 (res10 V c) (flushed10 V c) fun i =>
    ⟨t0_3, (flush0_10 t0_3).mpr rfl, by
      show i ∈ ((View.whole main_v3_2).slice (win0_10.rect t0_3)).set
      rw [View.set_slice_whole, Rect.mem_set_unit]
      intro a
      have h0 : (i 0 : Nat) < 128 := (i 0).isLt
      have h1 : (i 1 : Nat) < 512 := (i 1).isLt
      match a with
      | ⟨0, _⟩ => show win0_10.index t0_3 0 * win0_10.size 0 ≤ (i 0 : Nat) ∧ (i 0 : Nat) < win0_10.index t0_3 0 * win0_10.size 0 + win0_10.xsize (grid0.coords t0_3) 0
                  rw [show win0_10.index t0_3 0 * win0_10.size 0 = 0 from by decide +kernel, show win0_10.xsize (grid0.coords t0_3) 0 = 128 from by decide +kernel]; omega
      | ⟨1, _⟩ => show win0_10.index t0_3 1 * win0_10.size 1 ≤ (i 1 : Nat) ∧ (i 1 : Nat) < win0_10.index t0_3 1 * win0_10.size 1 + win0_10.xsize (grid0.coords t0_3) 1
                  rw [show win0_10.index t0_3 1 * win0_10.size 1 = 0 from by decide +kernel, show win0_10.xsize (grid0.coords t0_3) 1 = 512 from by decide +kernel]; omega⟩

theorem flushed11 (t : Fin cfg0.N) (hf : (cfg0.win 11).flush t = true) :
    (dat0 V c).flushed 11 t = ((cfg0.win 11).blk t).view.read (Elt F) (res11 V c : Buf (Elt F) ((c : Thread nD τ).loc main_v3_3)) := by
  have hN : cfg0.N = 4 := N_0
  have h3 : t.val = 3 := by have := (flush0_11 t).mp hf; have := t.isLt; omega
  obtain rfl : t = t0_3 := Fin.ext h3
  show (cfg0.win 11).cut (grid0.coords t0_3) ((dat0 V c).after 11 t0_3) = _
  rw [after0_11, o11_last V c]
  have hz' : (fun a => win0_11.index t0_3 a * main_v3_3.ty.shape.size a) = fun _ => 0 := funext fun a => by fin_cases a <;> decide
  exact (Memref.read_access_unit_zero (Elt F) main_v3_3 hz' (fun a => by rw [congrFun hz' a]; simp) (res11 V c)).symm

theorem final11 : (dat0 V c).arrAt 11 cfg0.N = (res11 V c : Buf (Elt F) ((c : Thread nD τ).loc main_v3_3)) :=
  (dat0 V c).arrAt_eq_of_cover 11 (res11 V c) (flushed11 V c) fun i =>
    ⟨t0_3, (flush0_11 t0_3).mpr rfl, by
      show i ∈ ((View.whole main_v3_3).slice (win0_11.rect t0_3)).set
      rw [View.set_slice_whole, Rect.mem_set_unit]
      intro a
      have h0 : (i 0 : Nat) < 128 := (i 0).isLt
      have h1 : (i 1 : Nat) < 512 := (i 1).isLt
      match a with
      | ⟨0, _⟩ => show win0_11.index t0_3 0 * win0_11.size 0 ≤ (i 0 : Nat) ∧ (i 0 : Nat) < win0_11.index t0_3 0 * win0_11.size 0 + win0_11.xsize (grid0.coords t0_3) 0
                  rw [show win0_11.index t0_3 0 * win0_11.size 0 = 0 from by decide +kernel, show win0_11.xsize (grid0.coords t0_3) 0 = 128 from by decide +kernel]; omega
      | ⟨1, _⟩ => show win0_11.index t0_3 1 * win0_11.size 1 ≤ (i 1 : Nat) ∧ (i 1 : Nat) < win0_11.index t0_3 1 * win0_11.size 1 + win0_11.xsize (grid0.coords t0_3) 1
                  rw [show win0_11.index t0_3 1 * win0_11.size 1 = 0 from by decide +kernel, show win0_11.xsize (grid0.coords t0_3) 1 = 512 from by decide +kernel]; omega⟩

end Arrays

section Values

variable (V : (c : Dev nD) → (b : Ref sig .tc) → Buf (Elt Ideal) ((c : Thread nD τ).loc b)) (c : Dev nD)

def tb (t : Fin cfg0.N) : Fin 4 := ⟨t.val, Nat.lt_of_lt_of_eq t.isLt N_0⟩

theorem idx0_0 (t : Fin cfg0.N) : win0_0.index t 0 = t.val ∧ win0_0.index t 1 = 0 := by
  rcases fin_N0 t with rfl | rfl | rfl | rfl <;> decide
theorem b0_apply (t : Fin cfg0.N) (r : Fin 512) (q : Fin 512) :
    b0 V c t (ix2 r q) = aXr V c (ix2 (Spec.blk (tb t) r) q) := by
  have hi := idx0_0 t
  unfold b0 iblk0
  rw [View.read_apply]
  show (aXr V c) _ = _
  congr 1
  funext a
  apply Fin.ext
  match a with
  | ⟨0, _⟩ => show win0_0.index t 0 * 512 + 1 * r.val = 512 * t.val + r.val; rw [hi.1]; omega
  | ⟨1, _⟩ => show win0_0.index t 1 * 512 + 1 * q.val = q.val; rw [hi.2]; omega

theorem idx0_1 (t : Fin cfg0.N) : win0_1.index t 0 = t.val ∧ win0_1.index t 1 = 0 := by
  rcases fin_N0 t with rfl | rfl | rfl | rfl <;> decide
theorem b1_apply (t : Fin cfg0.N) (r : Fin 512) (q : Fin 512) :
    b1 V c t (ix2 r q) = aXi V c (ix2 (Spec.blk (tb t) r) q) := by
  have hi := idx0_1 t
  unfold b1 iblk0
  rw [View.read_apply]
  show (aXi V c) _ = _
  congr 1
  funext a
  apply Fin.ext
  match a with
  | ⟨0, _⟩ => show win0_1.index t 0 * 512 + 1 * r.val = 512 * t.val + r.val; rw [hi.1]; omega
  | ⟨1, _⟩ => show win0_1.index t 1 * 512 + 1 * q.val = q.val; rw [hi.2]; omega

theorem idx0_2 (t : Fin cfg0.N) : win0_2.index t 0 = t.val ∧ win0_2.index t 1 = 0 := by
  rcases fin_N0 t with rfl | rfl | rfl | rfl <;> decide
theorem b2_apply (t : Fin cfg0.N) (r : Fin 512) (q : Fin 128) :
    b2 V c t (ix2 r q) = aQr V c (ix2 (Spec.blk (tb t) r) q) := by
  have hi := idx0_2 t
  unfold b2 iblk0
  rw [View.read_apply]
  show (aQr V c) _ = _
  congr 1
  funext a
  apply Fin.ext
  match a with
  | ⟨0, _⟩ => show win0_2.index t 0 * 512 + 1 * r.val = 512 * t.val + r.val; rw [hi.1]; omega
  | ⟨1, _⟩ => show win0_2.index t 1 * 128 + 1 * q.val = q.val; rw [hi.2]; omega

theorem idx0_3 (t : Fin cfg0.N) : win0_3.index t 0 = t.val ∧ win0_3.index t 1 = 0 := by
  rcases fin_N0 t with rfl | rfl | rfl | rfl <;> decide
theorem b3_apply (t : Fin cfg0.N) (r : Fin 512) (q : Fin 128) :
    b3 V c t (ix2 r q) = aQi V c (ix2 (Spec.blk (tb t) r) q) := by
  have hi := idx0_3 t
  unfold b3 iblk0
  rw [View.read_apply]
  show (aQi V c) _ = _
  congr 1
  funext a
  apply Fin.ext
  match a with
  | ⟨0, _⟩ => show win0_3.index t 0 * 512 + 1 * r.val = 512 * t.val + r.val; rw [hi.1]; omega
  | ⟨1, _⟩ => show win0_3.index t 1 * 128 + 1 * q.val = q.val; rw [hi.2]; omega

theorem idx0_5 (t : Fin cfg0.N) : win0_5.index t 0 = 0 ∧ win0_5.index t 1 = 0 := by
  rcases fin_N0 t with rfl | rfl | rfl | rfl <;> decide
theorem b5_apply (t : Fin cfg0.N) (p : Fin 512) (q : Fin 256) :
    b5 V c t (ix2 p q) = aWl V c (ix2 p q) := by
  have hi := idx0_5 t
  unfold b5 iblk0
  rw [View.read_apply]
  show (aWl V c) _ = _
  congr 1
  funext a
  apply Fin.ext
  match a with
  | ⟨0, _⟩ => show win0_5.index t 0 * 512 + 1 * p.val = p.val; rw [hi.1]; omega
  | ⟨1, _⟩ => show win0_5.index t 1 * 256 + 1 * q.val = q.val; rw [hi.2]; omega

theorem idx0_6 (t : Fin cfg0.N) : win0_6.index t 0 = 0 ∧ win0_6.index t 1 = 0 := by
  rcases fin_N0 t with rfl | rfl | rfl | rfl <;> decide
theorem b6_apply (t : Fin cfg0.N) (p : Fin 512) (q : Fin 512) :
    b6 V c t (ix2 p q) = aWres V c (ix2 p q) := by
  have hi := idx0_6 t
  unfold b6 iblk0
  rw [View.read_apply]
  show (aWres V c) _ = _
  congr 1
  funext a
  apply Fin.ext
  match a with
  | ⟨0, _⟩ => show win0_6.index t 0 * 512 + 1 * p.val = p.val; rw [hi.1]; omega
  | ⟨1, _⟩ => show win0_6.index t 1 * 512 + 1 * q.val = q.val; rw [hi.2]; omega

theorem idx0_7 (t : Fin cfg0.N) : win0_7.index t 0 = 0 ∧ win0_7.index t 1 = 0 := by
  rcases fin_N0 t with rfl | rfl | rfl | rfl <;> decide
theorem b7_apply (t : Fin cfg0.N) (p : Fin 128) (q : Fin 1) :
    b7 V c t (ix2 p q) = aRcol V c (ix2 p q) := by
  have hi := idx0_7 t
  unfold b7 iblk0
  rw [View.read_apply]
  show (aRcol V c) _ = _
  congr 1
  funext a
  apply Fin.ext
  match a with
  | ⟨0, _⟩ => show win0_7.index t 0 * 128 + 1 * p.val = p.val; rw [hi.1]; omega
  | ⟨1, _⟩ => show win0_7.index t 1 * 1 + 1 * q.val = q.val; rw [hi.2]; omega

theorem gpBlk_eq (t : Fin cfg0.N) (a : Fin 128) (i : Fin 512) :
    k0_pay19 (F := Ideal) (b0 V c t) (b1 V c t) (b2 V c t) (b3 V c t) (ix2 a i) = Spec.gpBlk (m2 (aXr V c)) (m2 (aXi V c)) (m2 (aQr V c)) (m2 (aQi V c)) (tb t) a i := by
  refine (pay19_apply (b0 V c t) (b1 V c t) (b2 V c t) (b3 V c t) a i).trans ?_
  unfold Spec.gpBlk
  refine congrArg₂ (· + ·) (Finset.sum_congr rfl fun r _ => ?_) (Finset.sum_congr rfl fun r _ => ?_)
  · rw [b2_apply V c t r a, b0_apply V c t r i]; rfl
  · rw [b3_apply V c t r a, b1_apply V c t r i]; rfl

theorem gmBlk_eq (t : Fin cfg0.N) (a : Fin 128) (i : Fin 512) :
    k0_pay1 (F := Ideal) (k0_pay20 (b0 V c t) (b3 V c t)) (k0_pay21 (b1 V c t) (b2 V c t)) (ix2 a i) = Spec.gmBlk (m2 (aXr V c)) (m2 (aXi V c)) (m2 (aQr V c)) (m2 (aQi V c)) (tb t) a i := by
  refine (pay1_apply (b0 V c t) (b1 V c t) (b2 V c t) (b3 V c t) a i).trans ?_
  unfold Spec.gmBlk
  refine congrArg₂ (· - ·) (Finset.sum_congr rfl fun r _ => ?_) (Finset.sum_congr rfl fun r _ => ?_)
  · rw [b3_apply V c t r a, b0_apply V c t r i]; rfl
  · rw [b2_apply V c t r a, b1_apply V c t r i]; rfl

theorem acc0_last (a : Fin 128) (i : Fin 512) :
    acc0 V c 3 tl.isLt (ix2 a i) = Spec.gp (m2 (aXr V c)) (m2 (aXi V c)) (m2 (aQr V c)) (m2 (aQi V c)) a i := by
  unfold Spec.gp
  simp only [acc0]
  rw [pay4_apply, pay4_apply, pay4_apply, pay2_apply, gpBlk_eq, gpBlk_eq, gpBlk_eq, gpBlk_eq]
  rfl

theorem acc1_last (a : Fin 128) (i : Fin 512) :
    acc1 V c 3 tl.isLt (ix2 a i) = Spec.gm (m2 (aXr V c)) (m2 (aXi V c)) (m2 (aQr V c)) (m2 (aQi V c)) a i := by
  unfold Spec.gm
  simp only [acc1]
  rw [pay5_apply, pay5_apply, pay5_apply, pay3_apply, gmBlk_eq, gmBlk_eq, gmBlk_eq, gmBlk_eq]
  rfl

theorem arr10_lo (a : Fin 128) (j : Fin 256) : ((Hand.dat0 V c).arrAt 10 cfg0.N : S128x512.Idx → EReal) (ix2 a (Spec.lo j))
    = Spec.coefL (col0 (aRcol V c)) (m2 (aWres V c)) (Spec.gp (m2 (aXr V c)) (m2 (aXi V c)) (m2 (aQr V c)) (m2 (aQi V c))) a j := by
  refine (congrFun (final10 V c) (ix2 a (Spec.lo j))).trans ?_
  unfold res10
  refine (pay11_lo (b7 V c tl) (acc0 V c 3 tl.isLt) (b5 V c tl) (b6 V c tl) a j).trans ?_
  unfold Spec.coefL Spec.mm
  rw [b7_apply V c tl a 0]
  refine congrArg₂ (· * ·) rfl (Finset.sum_congr rfl fun i _ => ?_)
  rw [acc0_last V c a i, b6_apply V c tl i (Spec.lo j)]; rfl

theorem arr10_hi (a : Fin 128) (j : Fin 256) : ((Hand.dat0 V c).arrAt 10 cfg0.N : S128x512.Idx → EReal) (ix2 a (Spec.hi j))
    = Spec.coefR (col0 (aRcol V c)) (m2 (aWl V c)) (m2 (aWres V c)) (Spec.gp (m2 (aXr V c)) (m2 (aXi V c)) (m2 (aQr V c)) (m2 (aQi V c))) a j := by
  refine (congrFun (final10 V c) (ix2 a (Spec.hi j))).trans ?_
  unfold res10
  refine (pay11_hi (b7 V c tl) (acc0 V c 3 tl.isLt) (b5 V c tl) (b6 V c tl) a j).trans ?_
  unfold Spec.coefR Spec.mm
  rw [b7_apply V c tl a 0]
  refine congrArg₂ (· + ·) (congrArg₂ (· * ·) rfl (Finset.sum_congr rfl fun i _ => ?_)) (congrArg₂ (· * ·) rfl (Finset.sum_congr rfl fun i _ => ?_))
  · rw [acc0_last V c a i, b6_apply V c tl i (Spec.hi j)]; rfl
  · rw [acc0_last V c a i, b5_apply V c tl i j]; rfl

theorem arr11_lo0 (a : Fin 128) (j : Fin 256) : ((Hand.dat0 V c).arrAt 11 cfg0.N : S128x512.Idx → EReal) (ix2 a (Spec.lo j))
    = Spec.coefL (col0 (aRcol V c)) (m2 (aWres V c)) (Spec.gm (m2 (aXr V c)) (m2 (aXi V c)) (m2 (aQr V c)) (m2 (aQi V c))) a j := by
  refine (congrFun (final11 V c) (ix2 a (Spec.lo j))).trans ?_
  unfold res11
  refine (pay6_lo (b7 V c tl) (acc1 V c 3 tl.isLt) (b5 V c tl) (b6 V c tl) a j).trans ?_
  unfold Spec.coefL Spec.mm
  rw [b7_apply V c tl a 0]
  refine congrArg₂ (· * ·) rfl (Finset.sum_congr rfl fun i _ => ?_)
  rw [acc1_last V c a i, b6_apply V c tl i (Spec.lo j)]; rfl

theorem arr11_hi0 (a : Fin 128) (j : Fin 256) : ((Hand.dat0 V c).arrAt 11 cfg0.N : S128x512.Idx → EReal) (ix2 a (Spec.hi j))
    = Spec.coefR (col0 (aRcol V c)) (m2 (aWl V c)) (m2 (aWres V c)) (Spec.gm (m2 (aXr V c)) (m2 (aXi V c)) (m2 (aQr V c)) (m2 (aQi V c))) a j := by
  refine (congrFun (final11 V c) (ix2 a (Spec.hi j))).trans ?_
  unfold res11
  refine (pay6_hi (b7 V c tl) (acc1 V c 3 tl.isLt) (b5 V c tl) (b6 V c tl) a j).trans ?_
  unfold Spec.coefR Spec.mm
  rw [b7_apply V c tl a 0]
  refine congrArg₂ (· + ·) (congrArg₂ (· * ·) rfl (Finset.sum_congr rfl fun i _ => ?_)) (congrArg₂ (· * ·) rfl (Finset.sum_congr rfl fun i _ => ?_))
  · rw [acc1_last V c a i, b6_apply V c tl i (Spec.hi j)]; rfl
  · rw [acc1_last V c a i, b5_apply V c tl i j]; rfl

end Values

end Cert.KernelIdeal.HandV

end
-- ==== Proof.K0ValueZ.lean ====
import proofs.«159171_g70626442215508_cont_9to1_m_806_14_alg».proof.Proof.K0Frame
import proofs.«159171_g70626442215508_cont_9to1_m_806_14_alg».proof.Proof.K0Pay
import proofs.«159171_g70626442215508_cont_9to1_m_806_14_alg».proof.Proof.KArr
import Idealize.ShloMosaic.Lib.Pipeline.Value
import Idealize.ShloMosaic.Lib.ValueIdx

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert Cert.Mats
open scoped BigOperators

namespace Panel

variable {F : FTy → Type} [FloatOps F]

theorem hz2 : (![0, 0] : Fin 2 → Nat) = fun _ => 0 := funext fun a => by fin_cases a <;> rfl

section Cases
variable (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S2x512x256 .f32) (harg5 : arg5.IsWhole) (arg6 : Memref sig .tc .vmem S512x256 .f32) (harg6 : arg6.IsWhole) (arg7 : Memref sig .tc .vmem S512x512 .f32) (harg7 : arg7.IsWhole) (arg8 : Memref sig .tc .vmem S128x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole)

section A
variable (hc0 : cond0_0 i) (hc1 : ¬cond0_1 i) (hc2 : ¬cond0_2 i) (x0 : Vec F S512x512 .f32) (x1 : Vec F S512x512 .f32) (x2 : Vec F S512x128 .f32) (x3 : Vec F S512x128 .f32) (x4 : Vec F S2x512x256 .f32) (x5 : Vec F S512x256 .f32) (x6 : Vec F S512x512 .f32) (x7 : Vec F S128x1 .f32)

theorem out8_A :
    out0_A_8 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 = k0_pay15 x0 x1 (View.ld x4 (Rect.unit ![0, 0, 0] ![1, 512, 256] inb_S2x512x256_S1x512x256_0_0_0)) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7)]
  unfold kernelRun0_A
  dsimp only
  sl_unfold_words
  rw [View.canon_unit_zero hz2]
  simp only [View.readAt_eq_ld, harg1.read_unread, harg2.read_unread, harg5.read_unread, View.ld_unit_zero (S := S512x512) hz2]

theorem out9_A :
    out0_A_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 = k0_pay16 x0 x1 (View.ld x4 (Rect.unit ![1, 0, 0] ![1, 512, 256] inb_S2x512x256_S1x512x256_1_0_0)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7)]
  unfold kernelRun0_A
  dsimp only
  sl_unfold_words
  rw [View.canon_unit_zero hz2]
  simp only [View.readAt_eq_ld, harg1.read_unread, harg2.read_unread, harg5.read_unread, View.ld_unit_zero (S := S512x512) hz2]

end A

section B
variable (hc0 : ¬cond0_0 i) (hc1 : cond0_1 i) (hc2 : ¬cond0_2 i) (x0 : Vec F S512x512 .f32) (x1 : Vec F S512x512 .f32) (x2 : Vec F S512x128 .f32) (x3 : Vec F S512x128 .f32) (x4 : Vec F S2x512x256 .f32) (x5 : Vec F S512x256 .f32) (x6 : Vec F S512x512 .f32) (x7 : Vec F S128x1 .f32) (xs0 : Vec F S128x512 .f32) (xs1 : Vec F S128x512 .f32)

theorem out8_B :
    out0_B_8 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1 = k0_pay15 x0 x1 (View.ld x4 (Rect.unit ![0, 0, 0] ![1, 512, 256] inb_S2x512x256_S1x512x256_0_0_0)) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1)]
  unfold kernelRun0_B
  dsimp only
  sl_unfold_words
  rw [View.canon_unit_zero hz2]
  simp only [View.readAt_eq_ld, harg1.read_unread, harg2.read_unread, harg5.read_unread, View.ld_unit_zero (S := S512x512) hz2]

theorem out9_B :
    out0_B_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1 = k0_pay16 x0 x1 (View.ld x4 (Rect.unit ![1, 0, 0] ![1, 512, 256] inb_S2x512x256_S1x512x256_1_0_0)) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1)]
  unfold kernelRun0_B
  dsimp only
  sl_unfold_words
  rw [View.canon_unit_zero hz2]
  simp only [View.readAt_eq_ld, harg1.read_unread, harg2.read_unread, harg5.read_unread, View.ld_unit_zero (S := S512x512) hz2]

end B

section C
variable (hc0 : ¬cond0_0 i) (hc1 : cond0_1 i) (hc2 : cond0_2 i) (x0 : Vec F S512x512 .f32) (x1 : Vec F S512x512 .f32) (x2 : Vec F S512x128 .f32) (x3 : Vec F S512x128 .f32) (x4 : Vec F S2x512x256 .f32) (x5 : Vec F S512x256 .f32) (x6 : Vec F S512x512 .f32) (x7 : Vec F S128x1 .f32) (xs0 : Vec F S128x512 .f32) (xs1 : Vec F S128x512 .f32)

theorem out8_C :
    out0_C_8 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1 = k0_pay15 x0 x1 (View.ld x4 (Rect.unit ![0, 0, 0] ![1, 512, 256] inb_S2x512x256_S1x512x256_0_0_0)) := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1)]
  unfold kernelRun0_C
  dsimp only
  sl_unfold_words
  rw [View.canon_unit_zero hz2]
  simp only [View.readAt_eq_ld, harg1.read_unread, harg2.read_unread, harg5.read_unread, View.ld_unit_zero (S := S512x512) hz2]

theorem out9_C :
    out0_C_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1 = k0_pay16 x0 x1 (View.ld x4 (Rect.unit ![1, 0, 0] ![1, 512, 256] inb_S2x512x256_S1x512x256_1_0_0)) := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xs0 xs1)]
  unfold kernelRun0_C
  dsimp only
  sl_unfold_words
  rw [View.canon_unit_zero hz2]
  simp only [View.readAt_eq_ld, harg1.read_unread, harg2.read_unread, harg5.read_unread, View.ld_unit_zero (S := S512x512) hz2]

end C

end Cases

theorem ld_plane0 (x4 : Vec Ideal S2x512x256 .f32) (i : Fin 512) (j : Fin 256) :
    View.ld x4 (Rect.unit ![0, 0, 0] ![1, 512, 256] inb_S2x512x256_S1x512x256_0_0_0) (ix3 0 i j) = x4 (ix3 0 i j) := by
  show x4 _ = x4 _
  refine congrArg x4 ?_
  funext a; apply Fin.ext
  match a with
  | ⟨0, _⟩ => rfl
  | ⟨1, _⟩ => show 0 + 1 * i.val = i.val; omega
  | ⟨2, _⟩ => show 0 + 1 * j.val = j.val; omega

theorem ld_plane1 (x4 : Vec Ideal S2x512x256 .f32) (i : Fin 512) (j : Fin 256) :
    View.ld x4 (Rect.unit ![1, 0, 0] ![1, 512, 256] inb_S2x512x256_S1x512x256_1_0_0) (ix3 0 i j) = x4 (ix3 1 i j) := by
  show x4 _ = x4 _
  refine congrArg x4 ?_
  funext a; apply Fin.ext
  match a with
  | ⟨0, _⟩ => rfl
  | ⟨1, _⟩ => show 0 + 1 * i.val = i.val; omega
  | ⟨2, _⟩ => show 0 + 1 * j.val = j.val; omega

section Blocks
variable (x0 x1 : Vec Ideal S512x512 .f32) (x4 : Vec Ideal S2x512x256 .f32) (r : Fin 512) (j : Fin 256)

theorem pay15_blocks_lo : k0_pay15 (F := Ideal) x0 x1 (View.ld x4 (Rect.unit ![0, 0, 0] ![1, 512, 256] inb_S2x512x256_S1x512x256_0_0_0)) (ix2 r (Spec.lo j)) = ∑ i : Fin 512, x0 (ix2 r i) * x4 (ix3 0 i j) :=
  (pay15_lo x0 x1 _ r j).trans (Finset.sum_congr rfl fun i _ => congrArg (x0 (ix2 r i) * ·) (ld_plane0 x4 i j))
theorem pay15_blocks_hi : k0_pay15 (F := Ideal) x0 x1 (View.ld x4 (Rect.unit ![0, 0, 0] ![1, 512, 256] inb_S2x512x256_S1x512x256_0_0_0)) (ix2 r (Spec.hi j)) = ∑ i : Fin 512, x1 (ix2 r i) * x4 (ix3 0 i j) :=
  (pay15_hi x0 x1 _ r j).trans (Finset.sum_congr rfl fun i _ => congrArg (x1 (ix2 r i) * ·) (ld_plane0 x4 i j))
theorem pay16_blocks_lo : k0_pay16 (F := Ideal) x0 x1 (View.ld x4 (Rect.unit ![1, 0, 0] ![1, 512, 256] inb_S2x512x256_S1x512x256_1_0_0)) (ix2 r (Spec.lo j)) = ∑ i : Fin 512, x0 (ix2 r i) * x4 (ix3 1 i j) :=
  (pay16_lo x0 x1 _ r j).trans (Finset.sum_congr rfl fun i _ => congrArg (x0 (ix2 r i) * ·) (ld_plane1 x4 i j))
theorem pay16_blocks_hi : k0_pay16 (F := Ideal) x0 x1 (View.ld x4 (Rect.unit ![1, 0, 0] ![1, 512, 256] inb_S2x512x256_S1x512x256_1_0_0)) (ix2 r (Spec.hi j)) = ∑ i : Fin 512, x1 (ix2 r i) * x4 (ix3 1 i j) :=
  (pay16_hi x0 x1 _ r j).trans (Finset.sum_congr rfl fun i _ => congrArg (x1 (ix2 r i) * ·) (ld_plane1 x4 i j))
end Blocks

def panelM (X X' : Fin 2048 → Fin 512 → EReal) (W : Fin 512 → Fin 256 → EReal) (n : Fin 2048) (q : Fin 512) : EReal :=
  if h : q.val < 256 then Spec.mm X W n ⟨q.val, h⟩ else Spec.mm X' W n ⟨q.val - 256, by have := q.isLt; omega⟩

theorem panelM_lo (X X' : Fin 2048 → Fin 512 → EReal) (W : Fin 512 → Fin 256 → EReal) (n : Fin 2048) (j : Fin 256) :
    panelM X X' W n (Spec.lo j) = Spec.mm X W n j := by
  unfold panelM
  rw [dif_pos (show (Spec.lo j).val < 256 from j.isLt)]
  exact congrArg (Spec.mm X W n) (Fin.ext rfl)

theorem panelM_hi (X X' : Fin 2048 → Fin 512 → EReal) (W : Fin 512 → Fin 256 → EReal) (n : Fin 2048) (j : Fin 256) :
    panelM X X' W n (Spec.hi j) = Spec.mm X' W n j := by
  unfold panelM
  rw [dif_neg (show ¬(Spec.hi j).val < 256 from by show ¬(j.val + 256 < 256); omega)]
  exact congrArg (Spec.mm X' W n) (Fin.ext (by show j.val + 256 - 256 = j.val; omega))

section Region
variable (V : (c : Dev nD) → (b : Ref sig .tc) → Buf (Elt Ideal) ((c : Thread nD τ).loc b)) (c : Dev nD)

theorem idx_panel : ∀ t : Fin cfg0.N, win0_0.index t (0 : Fin 2) = t.val ∧ win0_0.index t (1 : Fin 2) = 0
    ∧ win0_1.index t (0 : Fin 2) = t.val ∧ win0_1.index t (1 : Fin 2) = 0
    ∧ win0_4.index t (0 : Fin 3) = 0 ∧ win0_4.index t (1 : Fin 3) = 0 ∧ win0_4.index t (2 : Fin 3) = 0
    ∧ win0_8.index t (0 : Fin 2) = t.val ∧ win0_8.index t (1 : Fin 2) = 0
    ∧ win0_9.index t (0 : Fin 2) = t.val ∧ win0_9.index t (1 : Fin 2) = 0 ∧ t.val < 4 :=
  (by decide +kernel : ∀ t : Fin grid0.N, _)

theorem idx_onto : ∀ q0 : Fin 4, ∃ t : Fin cfg0.N, t.val = q0.val :=
  (by decide +kernel : ∀ q0 : Fin 4, ∃ t : Fin grid0.N, t.val = q0.val)

abbrev xrBlk (t : Fin cfg0.N) : Vec Ideal S512x512 .f32 := iblk0 V c 0 t
abbrev xiBlk (t : Fin cfg0.N) : Vec Ideal S512x512 .f32 := iblk0 V c 1 t
abbrev wBlk (t : Fin cfg0.N) : Vec Ideal S2x512x256 .f32 := iblk0 V c 4 t

theorem xr_block (t : Fin cfg0.N) (p i : Fin 512) (n : Fin 2048) (hn : n.val = 512 * t.val + p.val) :
    xrBlk V c t (ix2 p i) = aXr V c (ix2 n i) := by
  obtain ⟨e00, e01, -⟩ := idx_panel t
  show iblk0 V c 0 t (ix2 p i) = _
  unfold iblk0
  rw [View.read_apply]
  show V c main_arg0 (((cfg0.win 0).blk t).view.emb (ix2 p i)) = V c main_arg0 (ix2 n i)
  refine congrArg (V c main_arg0) ?_
  funext a; apply Fin.ext
  match a with
  | ⟨0, _⟩ => show win0_0.index t (0 : Fin 2) * 512 + 1 * p.val = n.val; omega
  | ⟨1, _⟩ => show win0_0.index t (1 : Fin 2) * 512 + 1 * i.val = i.val; omega

theorem xi_block (t : Fin cfg0.N) (p i : Fin 512) (n : Fin 2048) (hn : n.val = 512 * t.val + p.val) :
    xiBlk V c t (ix2 p i) = aXi V c (ix2 n i) := by
  obtain ⟨-, -, e10, e11, -⟩ := idx_panel t
  show iblk0 V c 1 t (ix2 p i) = _
  unfold iblk0
  rw [View.read_apply]
  show V c main_arg1 (((cfg0.win 1).blk t).view.emb (ix2 p i)) = V c main_arg1 (ix2 n i)
  refine congrArg (V c main_arg1) ?_
  funext a; apply Fin.ext
  match a with
  | ⟨0, _⟩ => show win0_1.index t (0 : Fin 2) * 512 + 1 * p.val = n.val; omega
  | ⟨1, _⟩ => show win0_1.index t (1 : Fin 2) * 512 + 1 * i.val = i.val; omega

theorem w_block (t : Fin cfg0.N) (k : Fin 2) (i : Fin 512) (j : Fin 256) :
    wBlk V c t (ix3 k i j) = aW V c (ix3 k i j) := by
  obtain ⟨-, -, -, -, e40, e41, e42, -⟩ := idx_panel t
  show iblk0 V c 4 t (ix3 k i j) = _
  unfold iblk0
  rw [View.read_apply]
  show V c main_arg9 (((cfg0.win 4).blk t).view.emb (ix3 k i j)) = V c main_arg9 (ix3 k i j)
  refine congrArg (V c main_arg9) ?_
  funext a; apply Fin.ext
  match a with
  | ⟨0, _⟩ => show win0_4.index t (0 : Fin 3) * 2 + 1 * k.val = k.val; omega
  | ⟨1, _⟩ => show win0_4.index t (1 : Fin 3) * 512 + 1 * i.val = i.val; omega
  | ⟨2, _⟩ => show win0_4.index t (2 : Fin 3) * 256 + 1 * j.val = j.val; omega

theorem left8 (t : Fin cfg0.N) :
    (outsAt0 V c t.val t.isLt).1 = k0_pay15 (xrBlk V c t) (xiBlk V c t) (View.ld (wBlk V c t) (Rect.unit ![0, 0, 0] ![1, 512, 256] inb_S2x512x256_S1x512x256_0_0_0)) := by
  by_cases h0 : t.val % 4 = 0
  · have h2 : ¬t.val % 4 = 3 := by omega
    rw [outsAt0_A V c t h0 h2]; dsimp only
    exact out8_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => ((hcond0_1 t).mp h) h0) (fun h => h2 ((hcond0_2 t).mp h)) (iblk0 V c 0 t) (iblk0 V c 1 t) (iblk0 V c 2 t) (iblk0 V c 3 t) (iblk0 V c 4 t) (iblk0 V c 5 t) (iblk0 V c 6 t) (iblk0 V c 7 t)
  · by_cases h2 : t.val % 4 = 3
    · rw [outsAt0_C V c t h0 h2]; dsimp only
      exact out8_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h0) ((hcond0_2 t).mpr h2) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2
    · rw [outsAt0_B V c t h0 h2]; dsimp only
      exact out8_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h0) (fun h => h2 ((hcond0_2 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2

abbrev G8 : S2048x512.Idx → EReal := fun y =>
  panelM (m2 (aXr V c)) (m2 (aXi V c)) (pl (aW V c) 0) (y 0 : Fin 2048) (y 1 : Fin 512)

theorem flushed8_eq (t : Fin cfg0.N) :
    (dat0 V c).flushed 8 t = ((cfg0.win 8).blk t).view.read (Elt Ideal) (G8 V c) := by
  show (cfg0.win 8).cut (grid0.coords t) ((dat0 V c).after 8 t) = _
  rw [after0_8, left8]
  obtain ⟨e00, e01, e10, e11, e40, e41, e42, e80, e81, e90, e91, ht4⟩ := idx_panel t
  funext y
  obtain ⟨p, q, rfl⟩ : ∃ (p : Fin 512) (q : Fin 512), y = ix2 p q := ⟨y 0, y 1, eq_ix2 (n0 := 512) (n1 := 512) y⟩
  rw [View.read_apply]
  have hemb : ((cfg0.win 8).blk t).view.emb (ix2 p q) = (ix2 (⟨512 * t.val + p.val, by omega⟩ : Fin 2048) q : S2048x512.Idx) := by
    funext a; apply Fin.ext
    match a with
    | ⟨0, _⟩ => show win0_8.index t (0 : Fin 2) * 512 + 1 * p.val = 512 * t.val + p.val; omega
    | ⟨1, _⟩ => show win0_8.index t (1 : Fin 2) * 512 + 1 * q.val = q.val; omega
  rw [hemb]
  show k0_pay15 (xrBlk V c t) (xiBlk V c t) (View.ld (wBlk V c t) (Rect.unit ![0, 0, 0] ![1, 512, 256] inb_S2x512x256_S1x512x256_0_0_0)) (ix2 p q)
    = panelM (m2 (aXr V c)) (m2 (aXi V c)) (pl (aW V c) 0) ⟨512 * t.val + p.val, by omega⟩ q
  by_cases hq : q.val < 256
  · obtain ⟨j, rfl⟩ : ∃ j : Fin 256, q = Spec.lo j := ⟨⟨q.val, hq⟩, Fin.ext rfl⟩
    rw [panelM_lo]
    refine (pay15_blocks_lo (xrBlk V c t) (xiBlk V c t) (wBlk V c t) p j).trans ?_
    refine Finset.sum_congr rfl fun i _ => ?_
    rw [xr_block V c t p i ⟨512 * t.val + p.val, by omega⟩ rfl, w_block V c t 0 i j]
    rfl
  · obtain ⟨j, rfl⟩ : ∃ j : Fin 256, q = Spec.hi j :=
      ⟨⟨q.val - 256, by have := q.isLt; omega⟩, Fin.ext (by show q.val = q.val - 256 + 256; omega)⟩
    rw [panelM_hi]
    refine (pay15_blocks_hi (xrBlk V c t) (xiBlk V c t) (wBlk V c t) p j).trans ?_
    refine Finset.sum_congr rfl fun i _ => ?_
    rw [xi_block V c t p i ⟨512 * t.val + p.val, by omega⟩ rfl, w_block V c t 0 i j]
    rfl

theorem mem_blk8 (t : Fin cfg0.N) (i : S2048x512.Idx) :
    i ∈ ((cfg0.win 8).blk t).view.set ↔ ∀ a : Fin 2, win0_8.index t a * S512x512.size a ≤ (i a).val ∧ (i a).val < win0_8.index t a * S512x512.size a + S512x512.size a := by
  show i ∈ ((View.whole main_v3_0).slice (win0_8.rect t)).set ↔ _
  rw [View.set_slice_whole, Rect.mem_set_unit]
  exact Iff.rfl

theorem cover8 (i : S2048x512.Idx) : ∃ t : Fin cfg0.N, (cfg0.win 8).flush t = true ∧ i ∈ ((cfg0.win 8).blk t).view.set := by
  have hi0 : (i 0).val < 2048 := idx2_lt0 i
  have hi1 : (i 1).val < 512 := idx2_lt1 i
  obtain ⟨t, ht⟩ := idx_onto ⟨(i 0).val / 512, by omega⟩
  obtain ⟨e00, e01, e10, e11, e40, e41, e42, e80, e81, e90, e91, ht4⟩ := idx_panel t
  have q0 : t.val = (i 0).val / 512 := ht
  refine ⟨t, flush0_8 t, ?_⟩
  rw [mem_blk8]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 512 ≤ (i 1).val ∧ (i 1).val < win0_8.index t (1 : Fin 2) * 512 + 512; omega

theorem final8 : (dat0 V c).arrAt 8 cfg0.N = G8 V c :=
  (dat0 V c).arrAt_eq_of_cover 8 (G8 V c) (fun t _ => flushed8_eq V c t) (cover8)

theorem left9 (t : Fin cfg0.N) :
    (outsAt0 V c t.val t.isLt).2.1 = k0_pay16 (xrBlk V c t) (xiBlk V c t) (View.ld (wBlk V c t) (Rect.unit ![1, 0, 0] ![1, 512, 256] inb_S2x512x256_S1x512x256_1_0_0)) := by
  by_cases h0 : t.val % 4 = 0
  · have h2 : ¬t.val % 4 = 3 := by omega
    rw [outsAt0_A V c t h0 h2]; dsimp only
    exact out9_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => ((hcond0_1 t).mp h) h0) (fun h => h2 ((hcond0_2 t).mp h)) (iblk0 V c 0 t) (iblk0 V c 1 t) (iblk0 V c 2 t) (iblk0 V c 3 t) (iblk0 V c 4 t) (iblk0 V c 5 t) (iblk0 V c 6 t) (iblk0 V c 7 t)
  · by_cases h2 : t.val % 4 = 3
    · rw [outsAt0_C V c t h0 h2]; dsimp only
      exact out9_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h0) ((hcond0_2 t).mpr h2) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2
    · rw [outsAt0_B V c t h0 h2]; dsimp only
      exact out9_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h0) (fun h => h2 ((hcond0_2 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2

abbrev G9 : S2048x512.Idx → EReal := fun y =>
  panelM (m2 (aXr V c)) (m2 (aXi V c)) (pl (aW V c) 1) (y 0 : Fin 2048) (y 1 : Fin 512)

theorem flushed9_eq (t : Fin cfg0.N) :
    (dat0 V c).flushed 9 t = ((cfg0.win 9).blk t).view.read (Elt Ideal) (G9 V c) := by
  show (cfg0.win 9).cut (grid0.coords t) ((dat0 V c).after 9 t) = _
  rw [after0_9, left9]
  obtain ⟨e00, e01, e10, e11, e40, e41, e42, e80, e81, e90, e91, ht4⟩ := idx_panel t
  funext y
  obtain ⟨p, q, rfl⟩ : ∃ (p : Fin 512) (q : Fin 512), y = ix2 p q := ⟨y 0, y 1, eq_ix2 (n0 := 512) (n1 := 512) y⟩
  rw [View.read_apply]
  have hemb : ((cfg0.win 9).blk t).view.emb (ix2 p q) = (ix2 (⟨512 * t.val + p.val, by omega⟩ : Fin 2048) q : S2048x512.Idx) := by
    funext a; apply Fin.ext
    match a with
    | ⟨0, _⟩ => show win0_9.index t (0 : Fin 2) * 512 + 1 * p.val = 512 * t.val + p.val; omega
    | ⟨1, _⟩ => show win0_9.index t (1 : Fin 2) * 512 + 1 * q.val = q.val; omega
  rw [hemb]
  show k0_pay16 (xrBlk V c t) (xiBlk V c t) (View.ld (wBlk V c t) (Rect.unit ![1, 0, 0] ![1, 512, 256] inb_S2x512x256_S1x512x256_1_0_0)) (ix2 p q)
    = panelM (m2 (aXr V c)) (m2 (aXi V c)) (pl (aW V c) 1) ⟨512 * t.val + p.val, by omega⟩ q
  by_cases hq : q.val < 256
  · obtain ⟨j, rfl⟩ : ∃ j : Fin 256, q = Spec.lo j := ⟨⟨q.val, hq⟩, Fin.ext rfl⟩
    rw [panelM_lo]
    refine (pay16_blocks_lo (xrBlk V c t) (xiBlk V c t) (wBlk V c t) p j).trans ?_
    refine Finset.sum_congr rfl fun i _ => ?_
    rw [xr_block V c t p i ⟨512 * t.val + p.val, by omega⟩ rfl, w_block V c t 1 i j]
    rfl
  · obtain ⟨j, rfl⟩ : ∃ j : Fin 256, q = Spec.hi j :=
      ⟨⟨q.val - 256, by have := q.isLt; omega⟩, Fin.ext (by show q.val = q.val - 256 + 256; omega)⟩
    rw [panelM_hi]
    refine (pay16_blocks_hi (xrBlk V c t) (xiBlk V c t) (wBlk V c t) p j).trans ?_
    refine Finset.sum_congr rfl fun i _ => ?_
    rw [xi_block V c t p i ⟨512 * t.val + p.val, by omega⟩ rfl, w_block V c t 1 i j]
    rfl

theorem mem_blk9 (t : Fin cfg0.N) (i : S2048x512.Idx) :
    i ∈ ((cfg0.win 9).blk t).view.set ↔ ∀ a : Fin 2, win0_9.index t a * S512x512.size a ≤ (i a).val ∧ (i a).val < win0_9.index t a * S512x512.size a + S512x512.size a := by
  show i ∈ ((View.whole main_v3_1).slice (win0_9.rect t)).set ↔ _
  rw [View.set_slice_whole, Rect.mem_set_unit]
  exact Iff.rfl

theorem cover9 (i : S2048x512.Idx) : ∃ t : Fin cfg0.N, (cfg0.win 9).flush t = true ∧ i ∈ ((cfg0.win 9).blk t).view.set := by
  have hi0 : (i 0).val < 2048 := idx2_lt0 i
  have hi1 : (i 1).val < 512 := idx2_lt1 i
  obtain ⟨t, ht⟩ := idx_onto ⟨(i 0).val / 512, by omega⟩
  obtain ⟨e00, e01, e10, e11, e40, e41, e42, e80, e81, e90, e91, ht4⟩ := idx_panel t
  have q0 : t.val = (i 0).val / 512 := ht
  refine ⟨t, flush0_9 t, ?_⟩
  rw [mem_blk9]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 512 ≤ (i 1).val ∧ (i 1).val < win0_9.index t (1 : Fin 2) * 512 + 512; omega

theorem final9 : (dat0 V c).arrAt 9 cfg0.N = G9 V c :=
  (dat0 V c).arrAt_eq_of_cover 9 (G9 V c) (fun t _ => flushed9_eq V c t) (cover9)

end Region

end Panel

section
variable (V : (c : Dev nD) → (b : Ref sig .tc) → Buf (Elt Ideal) ((c : Thread nD τ).loc b)) (c : Dev nD)

theorem arr8_lo (n : Fin 2048) (j : Fin 256) : ((Hand.dat0 V c).arrAt 8 cfg0.N : S2048x512.Idx → EReal) (ix2 n (Spec.lo j)) = Spec.mm (m2 (aXr V c)) (pl (aW V c) 0) n j := by
  rw [Panel.final8]
  exact Panel.panelM_lo _ _ _ n j
theorem arr8_hi (n : Fin 2048) (j : Fin 256) : ((Hand.dat0 V c).arrAt 8 cfg0.N : S2048x512.Idx → EReal) (ix2 n (Spec.hi j)) = Spec.mm (m2 (aXi V c)) (pl (aW V c) 0) n j := by
  rw [Panel.final8]
  exact Panel.panelM_hi _ _ _ n j
theorem arr9_lo (n : Fin 2048) (j : Fin 256) : ((Hand.dat0 V c).arrAt 9 cfg0.N : S2048x512.Idx → EReal) (ix2 n (Spec.lo j)) = Spec.mm (m2 (aXr V c)) (pl (aW V c) 1) n j := by
  rw [Panel.final9]
  exact Panel.panelM_lo _ _ _ n j
theorem arr9_hi (n : Fin 2048) (j : Fin 256) : ((Hand.dat0 V c).arrAt 9 cfg0.N : S2048x512.Idx → EReal) (ix2 n (Spec.hi j)) = Spec.mm (m2 (aXi V c)) (pl (aW V c) 1) n j := by
  rw [Panel.final9]
  exact Panel.panelM_hi _ _ _ n j

end

end Cert.KernelIdeal.HandV

end
-- ==== Proof.K1Pay.lean ====
import proofs.«159171_g70626442215508_cont_9to1_m_806_14_alg».proof.Proof.Gen.KernelIdeal.Skeleton
import proofs.«159171_g70626442215508_cont_9to1_m_806_14_alg».proof.Proof.LibRowDims
import proofs.«159171_g70626442215508_cont_9to1_m_806_14_alg».proof.Proof.Spec
import Idealize.ShloMosaic.Lib.ValueLayout
import Idealize.ShloMosaic.Lib.Pipeline.Value

noncomputable section

namespace Cert.KernelIdeal.HandV.Second

open Cert.KernelIdeal Cert.KernelIdeal.Gen
open Idealize.ShloMosaic Idealize.ShloMosaic.ValueIdx Idealize.ShloMosaic.RowDims
open Cert.Spec (lo hi)
open scoped BigOperators

section Layout
variable {α : Type}

theorem slice_lo (X : S256x512.Idx → α) (h : S256x512.Slices ![0, 0] S256x256) (p j : Fin 256) :
    extractStridedSlice S256x256 ![0, 0] X h (ix2 p j) = X (ix2 p (lo j)) :=
  slice2_axis1_apply 0 X h p j (lo j) (Nat.zero_add _).symm

theorem slice_hi (X : S256x512.Idx → α) (h : S256x512.Slices ![0, 256] S256x256) (p j : Fin 256) :
    extractStridedSlice S256x256 ![0, 256] X h (ix2 p j) = X (ix2 p (hi j)) :=
  slice2_axis1_apply 256 X h p j (hi j) (Nat.add_comm _ _)

theorem row_lo (X : S1x512.Idx → α) (h : S1x512.Slices ![0, 0] S1x256) (j : Fin 256) :
    extractStridedSlice S1x256 ![0, 0] X h (ix2 (0 : Fin 1) j) = X (ix2 (0 : Fin 1) (lo j)) :=
  slice2_axis1_apply 0 X h 0 j (lo j) (Nat.zero_add _).symm

theorem row_hi (X : S1x512.Idx → α) (h : S1x512.Slices ![0, 256] S1x256) (j : Fin 256) :
    extractStridedSlice S1x256 ![0, 256] X h (ix2 (0 : Fin 1) j) = X (ix2 (0 : Fin 1) (hi j)) :=
  slice2_axis1_apply 256 X h 0 j (hi j) (Nat.add_comm _ _)

theorem bcast_row (v : S1x256.Idx → α) (h : S1x256.Broadcasts S256x256) (p j : Fin 256) :
    broadcastTo S256x256 v h (ix2 p j) = v (ix2 (0 : Fin 1) j) :=
  broadcastTo_1b_ab_apply v h p j

theorem concat_lo (x₁ x₂ : S256x256.Idx → α) (h : Shape.Concatenates [S256x256, S256x256] S256x512 1) (p j : Fin 256) :
    concatenate S256x512 1 [⟨S256x256, x₁⟩, ⟨S256x256, x₂⟩] h (ix2 p (lo j)) = x₁ (ix2 p j) :=
  concatenate_pair_apply_left 1 x₁ x₂ h (ix2 p (lo j)) rfl (ix2 p j) fun b => by
    match b with
    | ⟨0, _⟩ => rfl
    | ⟨1, _⟩ => rfl

theorem concat_hi (x₁ x₂ : S256x256.Idx → α) (h : Shape.Concatenates [S256x256, S256x256] S256x512 1) (p j : Fin 256) :
    concatenate S256x512 1 [⟨S256x256, x₁⟩, ⟨S256x256, x₂⟩] h (ix2 p (hi j)) = x₂ (ix2 p j) :=
  concatenate_pair_apply_right 1 x₁ x₂ h (ix2 p (hi j)) rfl rfl (ix2 p j)
    (fun b hb => by
      match b with
      | ⟨0, _⟩ => rfl
      | ⟨1, _⟩ => exact absurd rfl hb)
    rfl

end Layout

theorem mmL_apply (v0 : FVec Ideal S2048x512 .bf16) (v4 : Vec Ideal S256x2048 .f32) (p : Fin 256) (q : Fin 512) :
    FloatOps.matmul (F := Ideal) dot_S256x2048_S2048x512_S256x512_1_0_0_1_n_n none
        (truncf .bf16 v4 bitsLt_bf16_f32 : FVec Ideal S256x2048 .bf16) v0
        (constant S256x512 .f32 0x00000000#32) (ix2 p q)
      = ∑ k : Fin 2048, v4 (ix2 p k) * v0 (ix2 k q) :=
  matmul_plain_zero_apply none _ _ p q

theorem mmQ_apply (v30 : Vec Ideal S256x128 .f32) (v31 : Vec Ideal S128x512 .f32) (p : Fin 256) (q : Fin 512) :
    FloatOps.matmul (F := Ideal) dot_S256x128_S128x512_S256x512_1_0_0_1_n_n none
        (truncf .bf16 v30 bitsLt_bf16_f32 : FVec Ideal S256x128 .bf16)
        (truncf .bf16 v31 bitsLt_bf16_f32 : FVec Ideal S128x512 .bf16) (constant S256x512 .f32 0x00000000#32) (ix2 p q)
      = ∑ a : Fin 128, v30 (ix2 p a) * v31 (ix2 a q) :=
  matmul_plain_zero_apply none _ _ p q

theorem pay5_apply (v0 : Vec Ideal S2048x512 .bf16) (v4 : Vec Ideal S256x2048 .f32) (p : Fin 256) (q : Fin 512) :
    k1_pay5 v0 v4 (ix2 p q) = ∑ k : Fin 2048, v4 (ix2 p k) * v0 (ix2 k q) := by
  unfold k1_pay5 k1_pay3
  rw [shapeCast_self]
  exact mmL_apply v0 v4 p q

theorem pay6_apply (v0 : Vec Ideal S2048x512 .bf16) (v7 : Vec Ideal S256x2048 .f32) (p : Fin 256) (q : Fin 512) :
    k1_pay6 v0 v7 (ix2 p q) = ∑ k : Fin 2048, v7 (ix2 p k) * v0 (ix2 k q) := by
  unfold k1_pay6 k1_pay3
  rw [shapeCast_self]
  exact mmL_apply v0 v7 p q

theorem pay7_apply (v2 : Vec Ideal S2048x512 .bf16) (v10 : Vec Ideal S256x2048 .f32) (p : Fin 256) (q : Fin 512) :
    k1_pay7 v2 v10 (ix2 p q) = ∑ k : Fin 2048, v10 (ix2 p k) * v2 (ix2 k q) := by
  unfold k1_pay7 k1_pay4
  rw [shapeCast_self]
  exact mmL_apply v2 v10 p q

theorem pay8_apply (v2 : Vec Ideal S2048x512 .bf16) (v13 : Vec Ideal S256x2048 .f32) (p : Fin 256) (q : Fin 512) :
    k1_pay8 v2 v13 (ix2 p q) = ∑ k : Fin 2048, v13 (ix2 p k) * v2 (ix2 k q) := by
  unfold k1_pay8 k1_pay4
  rw [shapeCast_self]
  exact mmL_apply v2 v13 p q

theorem pay9_apply (v0 v2 : Vec Ideal S2048x512 .bf16) (v4 v7 v10 v13 : Vec Ideal S256x2048 .f32) (p j : Fin 256) :
    k1_pay9 v0 v2 v4 v7 v10 v13 (ix2 p j)
      = ((∑ k : Fin 2048, v4 (ix2 p k) * v0 (ix2 k (lo j))) - (∑ k : Fin 2048, v7 (ix2 p k) * v0 (ix2 k (hi j))))
        + ((∑ k : Fin 2048, v10 (ix2 p k) * v2 (ix2 k (lo j))) - (∑ k : Fin 2048, v13 (ix2 p k) * v2 (ix2 k (hi j)))) := by
  unfold k1_pay9
  rw [addf_apply, subf_apply, subf_apply, slice_lo, slice_hi, slice_lo, slice_hi, pay5_apply, pay6_apply, pay7_apply,
    pay8_apply]

theorem pay10_apply (v0 v2 : Vec Ideal S2048x512 .bf16) (v4 v7 v10 v13 : Vec Ideal S256x2048 .f32) (p j : Fin 256) :
    k1_pay10 v0 v2 v4 v7 v10 v13 (ix2 p j)
      = ((∑ k : Fin 2048, v7 (ix2 p k) * v0 (ix2 k (lo j))) + (∑ k : Fin 2048, v4 (ix2 p k) * v0 (ix2 k (hi j))))
        + ((∑ k : Fin 2048, v13 (ix2 p k) * v2 (ix2 k (lo j))) + (∑ k : Fin 2048, v10 (ix2 p k) * v2 (ix2 k (hi j)))) := by
  unfold k1_pay10
  rw [addf_apply, addf_apply, addf_apply, slice_lo, slice_hi, slice_lo, slice_hi, pay6_apply, pay5_apply, pay8_apply,
    pay7_apply]

theorem pay11_apply (v30 : Vec Ideal S256x128 .f32) (v31 : Vec Ideal S128x512 .f32) (p : Fin 256) (q : Fin 512) :
    k1_pay11 v30 v31 (ix2 p q) = ∑ a : Fin 128, v30 (ix2 p a) * v31 (ix2 a q) := by
  unfold k1_pay11
  rw [shapeCast_self]
  exact mmQ_apply v30 v31 p q

theorem pay12_apply (v35 : FVec Ideal S256x512 .f32) (v36 : Vec Ideal S256x128 .f32) (v37 : Vec Ideal S128x512 .f32)
    (p : Fin 256) (q : Fin 512) :
    k1_pay12 v35 v36 v37 (ix2 p q) = v35 (ix2 p q) + ∑ a : Fin 128, v36 (ix2 p a) * v37 (ix2 a q) := by
  unfold k1_pay12
  rw [addf_apply, shapeCast_self]
  exact congrArg (v35 (ix2 p q) + ·) (mmQ_apply v36 v37 p q)

theorem pay13_apply (v43 : Vec Ideal S256x128 .f32) (v44 : Vec Ideal S128x512 .f32) (v49 : Vec Ideal S256x128 .f32)
    (v50 : Vec Ideal S128x512 .f32) (p : Fin 256) (q : Fin 512) :
    k1_pay13 v43 v44 v49 v50 (ix2 p q)
      = (∑ a : Fin 128, v43 (ix2 p a) * v44 (ix2 a q)) - (∑ a : Fin 128, v49 (ix2 p a) * v50 (ix2 a q)) := by
  unfold k1_pay13
  rw [subf_apply, shapeCast_self, shapeCast_self]
  exact congrArg₂ (· - ·) (mmQ_apply v43 v44 p q) (mmQ_apply v49 v50 p q)

theorem pay14_apply (v58 : Vec Ideal S256x512 .bf16) (i : S256x512.Idx) : k1_pay14 v58 i = v58 i := by
  unfold k1_pay14
  rw [shapeCast_self]
  rfl

theorem pay15_apply (v63 : Vec Ideal S256x512 .bf16) (i : S256x512.Idx) : k1_pay15 v63 i = v63 i := by
  unfold k1_pay15
  rw [shapeCast_self]
  rfl

theorem pay16_apply (v22 : FVec Ideal S256x256 .f32) (v35 : FVec Ideal S256x512 .f32) (v36 : Vec Ideal S256x128 .f32)
    (v37 : Vec Ideal S128x512 .f32) (v58 : Vec Ideal S256x512 .bf16) (v66 : Vec Ideal S1x512 .f32) (p j : Fin 256) :
    k1_pay16 v22 v35 v36 v37 v58 v66 (ix2 p j)
      = ((v22 (ix2 p j) + (v35 (ix2 p (lo j)) + ∑ a : Fin 128, v36 (ix2 p a) * v37 (ix2 a (lo j)))) + v58 (ix2 p (lo j)))
        + v66 (ix2 (0 : Fin 1) (lo j)) := by
  unfold k1_pay16
  rw [addf_apply, addf_apply, addf_apply, slice_lo, slice_lo, bcast_row, row_lo, pay12_apply, pay14_apply]

theorem pay17_apply (v35 : FVec Ideal S256x512 .f32) (v36 : Vec Ideal S256x128 .f32) (v37 : Vec Ideal S128x512 .f32)
    (v63 : Vec Ideal S256x512 .bf16) (p j : Fin 256) :
    k1_pay17 v35 v36 v37 v63 (ix2 p j)
      = (v35 (ix2 p (hi j)) + ∑ a : Fin 128, v36 (ix2 p a) * v37 (ix2 a (hi j))) + v63 (ix2 p (lo j)) := by
  unfold k1_pay17
  rw [addf_apply, slice_hi, slice_lo, pay12_apply, pay15_apply]

theorem pay1_lo (v66 : Vec Ideal S1x512 .f32) (v73 v76 : FVec Ideal S256x256 .f32) (p j : Fin 256) :
    k1_pay1 v66 v73 v76 (ix2 p (lo j)) = v73 (ix2 p j) := by
  unfold k1_pay1
  rw [concat_lo]

theorem pay1_hi (v66 : Vec Ideal S1x512 .f32) (v73 v76 : FVec Ideal S256x256 .f32) (p j : Fin 256) :
    k1_pay1 v66 v73 v76 (ix2 p (hi j)) = v76 (ix2 p j) + v66 (ix2 (0 : Fin 1) (hi j)) := by
  unfold k1_pay1
  rw [concat_hi, addf_apply, bcast_row, row_hi]

theorem pay2_lo (v29 : FVec Ideal S256x256 .f32) (v55 v60 v65 : FVec Ideal S256x512 .f32) (v66 : Vec Ideal S1x512 .f32)
    (p j : Fin 256) :
    k1_pay2 v29 v55 v60 v65 v66 (ix2 p (lo j))
      = ((v29 (ix2 p j) + v55 (ix2 p (lo j))) + v60 (ix2 p (hi j))) + v66 (ix2 (0 : Fin 1) (lo j)) := by
  unfold k1_pay2
  rw [concat_lo, addf_apply, addf_apply, addf_apply, slice_lo, slice_hi, bcast_row, row_lo]

theorem pay2_hi (v29 : FVec Ideal S256x256 .f32) (v55 v60 v65 : FVec Ideal S256x512 .f32) (v66 : Vec Ideal S1x512 .f32)
    (p j : Fin 256) :
    k1_pay2 v29 v55 v60 v65 v66 (ix2 p (hi j))
      = (v55 (ix2 p (hi j)) + v65 (ix2 p (hi j))) + v66 (ix2 (0 : Fin 1) (hi j)) := by
  unfold k1_pay2
  rw [concat_hi, addf_apply, addf_apply, slice_hi, slice_hi, bcast_row, row_hi]

end Cert.KernelIdeal.HandV.Second

end
-- ==== Proof.K1Value.lean ====
import proofs.«159171_g70626442215508_cont_9to1_m_806_14_alg».proof.Proof.K1Frame
import proofs.«159171_g70626442215508_cont_9to1_m_806_14_alg».proof.Proof.KArr
import proofs.«159171_g70626442215508_cont_9to1_m_806_14_alg».proof.Proof.K1Pay
import Idealize.ShloMosaic.Lib.Pipeline.Value

set_option maxRecDepth 16384

noncomputable section

namespace Cert.KernelIdeal.HandV.Second

open Idealize.ShloMosaic Idealize.ShloMosaic.TcCoe Idealize.ShloMosaic.ValueIdx
open Idealize.SL.Sem
open Cert.KernelIdeal Cert.KernelIdeal.Gen Cert.KernelIdeal.Hand
open Cert Cert.Mats
open Cert.Spec (lo hi)
open scoped BigOperators

variable (V : (c : Dev nD) → (b : Ref sig .tc) → Buf (Elt Ideal) ((c : Thread nD τ).loc b)) (c : Dev nD)

theorem half_cases (q : Fin 512) : (∃ j : Fin 256, q = lo j) ∨ (∃ j : Fin 256, q = hi j) := by
  by_cases h : q.val < 256
  · exact Or.inl ⟨⟨q.val, h⟩, Fin.ext rfl⟩
  · exact Or.inr ⟨⟨q.val - 256, by have := q.isLt; omega⟩, Fin.ext (by show q.val = q.val - 256 + 256; omega)⟩

def G11 : S2048x512.Idx → EReal := fun i =>
  if h : (i 1).val < 256 then
    Spec.r1RealL (m2 (aLr0 V c)) (m2 (aLi0 V c)) (m2 (aLr1 V c)) (m2 (aLi1 V c))
      (loHalf (aZ0 V c)) (hiHalf (aZ0 V c)) (loHalf (aZ1 V c)) (hiHalf (aZ1 V c))
      (m2 (aQr V c)) (m2 (aQi V c)) (loHalf (aUU V c)) (loHalf (aVV V c)) (row0 (aBias V c)) (i 0) ⟨(i 1).val, h⟩
  else
    Spec.r1RealR (loHalf (aZ1 V c)) (m2 (aQr V c)) (m2 (aQi V c)) (hiHalf (aUU V c)) (hiHalf (aVV V c)) (row0 (aBias V c))
      (i 0) ⟨(i 1).val - 256, by have := idx2_lt1 i; omega⟩

def G12 : S2048x512.Idx → EReal := fun i =>
  if h : (i 1).val < 256 then
    Spec.r1ImagL (m2 (aLr0 V c)) (m2 (aLi0 V c)) (m2 (aLr1 V c)) (m2 (aLi1 V c))
      (loHalf (aZ0 V c)) (hiHalf (aZ0 V c)) (loHalf (aZ1 V c)) (hiHalf (aZ1 V c))
      (m2 (aQr V c)) (m2 (aQi V c)) (loHalf (aUU V c)) (loHalf (aVV V c)) (row0 (aBias V c)) (i 0) ⟨(i 1).val, h⟩
  else
    Spec.r1ImagR (hiHalf (aZ1 V c)) (m2 (aQr V c)) (m2 (aQi V c)) (hiHalf (aUU V c)) (hiHalf (aVV V c)) (row0 (aBias V c))
      (i 0) ⟨(i 1).val - 256, by have := idx2_lt1 i; omega⟩

theorem G11_lo (n : Fin 2048) (j : Fin 256) : G11 V c (ix2 n (lo j))
    = Spec.r1RealL (m2 (aLr0 V c)) (m2 (aLi0 V c)) (m2 (aLr1 V c)) (m2 (aLi1 V c))
        (loHalf (aZ0 V c)) (hiHalf (aZ0 V c)) (loHalf (aZ1 V c)) (hiHalf (aZ1 V c))
        (m2 (aQr V c)) (m2 (aQi V c)) (loHalf (aUU V c)) (loHalf (aVV V c)) (row0 (aBias V c)) n j :=
  dif_pos (show ((ix2 n (lo j) : S2048x512.Idx) 1).val < 256 from j.isLt)

theorem G11_hi (n : Fin 2048) (j : Fin 256) : G11 V c (ix2 n (hi j))
    = Spec.r1RealR (loHalf (aZ1 V c)) (m2 (aQr V c)) (m2 (aQi V c)) (hiHalf (aUU V c)) (hiHalf (aVV V c)) (row0 (aBias V c)) n j := by
  unfold G11
  rw [dif_neg (show ¬ ((ix2 n (hi j) : S2048x512.Idx) 1).val < 256 from by show ¬ j.val + 256 < 256; omega)]
  congr 1

theorem G12_lo (n : Fin 2048) (j : Fin 256) : G12 V c (ix2 n (lo j))
    = Spec.r1ImagL (m2 (aLr0 V c)) (m2 (aLi0 V c)) (m2 (aLr1 V c)) (m2 (aLi1 V c))
        (loHalf (aZ0 V c)) (hiHalf (aZ0 V c)) (loHalf (aZ1 V c)) (hiHalf (aZ1 V c))
        (m2 (aQr V c)) (m2 (aQi V c)) (loHalf (aUU V c)) (loHalf (aVV V c)) (row0 (aBias V c)) n j :=
  dif_pos (show ((ix2 n (lo j) : S2048x512.Idx) 1).val < 256 from j.isLt)

theorem G12_hi (n : Fin 2048) (j : Fin 256) : G12 V c (ix2 n (hi j))
    = Spec.r1ImagR (hiHalf (aZ1 V c)) (m2 (aQr V c)) (m2 (aQi V c)) (hiHalf (aUU V c)) (hiHalf (aVV V c)) (row0 (aBias V c)) n j := by
  unfold G12
  rw [dif_neg (show ¬ ((ix2 n (hi j) : S2048x512.Idx) 1).val < 256 from by show ¬ j.val + 256 < 256; omega)]
  congr 1

theorem hz2 : (![0, 0] : Fin 2 → Nat) = fun _ => 0 := funext fun a => by fin_cases a <;> rfl

theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0)
    ∧ (win1_7.index t (0 : Fin 2) = t.val ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = t.val ∧ win1_11.index t (1 : Fin 2) = 0)
    ∧ (win1_12.index t (0 : Fin 2) = t.val ∧ win1_12.index t (1 : Fin 2) = 0)
    ∧ (k1_off1 (grid1.coords t) (0 : Fin 2) = 256 * t.val ∧ k1_off1 (grid1.coords t) (1 : Fin 2) = 0) :=
  (by decide +kernel : ∀ t : Fin grid1.N, _)

theorem tlt (t : Fin cfg1.N) : t.val < 8 := by have := t.isLt; have h : cfg1.N = 8 := N_1; omega

def brow (t : Fin cfg1.N) (p : Fin 256) : Fin 2048 := ⟨256 * t.val + p.val, by have := tlt t; omega⟩

theorem iblk0_apply (t : Fin cfg1.N) (p : Fin 256) (k : Fin 2048) :
    (iblk1 V c 0 t : S256x2048.Idx → EReal) (ix2 p k) = aLr0 V c (ix2 (brow t p) k) := by
  obtain ⟨⟨e0, e1⟩, -⟩ := idx_facts1 t
  show V c main_arg2 (((cfg1.win 0).blk t).view.emb (ix2 p k)) = V c main_arg2 (ix2 (brow t p) k)
  congr 1
  funext a; apply Fin.ext
  match a with
  | ⟨0, _⟩ => show win1_0.index t (0 : Fin 2) * 256 + 1 * p.val = 256 * t.val + p.val; omega
  | ⟨1, _⟩ => show win1_0.index t (1 : Fin 2) * 2048 + 1 * k.val = k.val; omega

theorem iblk1_apply (t : Fin cfg1.N) (p : Fin 256) (k : Fin 2048) :
    (iblk1 V c 1 t : S256x2048.Idx → EReal) (ix2 p k) = aLi0 V c (ix2 (brow t p) k) := by
  obtain ⟨-, ⟨e0, e1⟩, -⟩ := idx_facts1 t
  show V c main_arg4 (((cfg1.win 1).blk t).view.emb (ix2 p k)) = V c main_arg4 (ix2 (brow t p) k)
  congr 1
  funext a; apply Fin.ext
  match a with
  | ⟨0, _⟩ => show win1_1.index t (0 : Fin 2) * 256 + 1 * p.val = 256 * t.val + p.val; omega
  | ⟨1, _⟩ => show win1_1.index t (1 : Fin 2) * 2048 + 1 * k.val = k.val; omega

theorem iblk2_apply (t : Fin cfg1.N) (p : Fin 256) (k : Fin 2048) :
    (iblk1 V c 2 t : S256x2048.Idx → EReal) (ix2 p k) = aLr1 V c (ix2 (brow t p) k) := by
  obtain ⟨-, -, ⟨e0, e1⟩, -⟩ := idx_facts1 t
  show V c main_arg3 (((cfg1.win 2).blk t).view.emb (ix2 p k)) = V c main_arg3 (ix2 (brow t p) k)
  congr 1
  funext a; apply Fin.ext
  match a with
  | ⟨0, _⟩ => show win1_2.index t (0 : Fin 2) * 256 + 1 * p.val = 256 * t.val + p.val; omega
  | ⟨1, _⟩ => show win1_2.index t (1 : Fin 2) * 2048 + 1 * k.val = k.val; omega

theorem iblk3_apply (t : Fin cfg1.N) (p : Fin 256) (k : Fin 2048) :
    (iblk1 V c 3 t : S256x2048.Idx → EReal) (ix2 p k) = aLi1 V c (ix2 (brow t p) k) := by
  obtain ⟨-, -, -, ⟨e0, e1⟩, -⟩ := idx_facts1 t
  show V c main_arg5 (((cfg1.win 3).blk t).view.emb (ix2 p k)) = V c main_arg5 (ix2 (brow t p) k)
  congr 1
  funext a; apply Fin.ext
  match a with
  | ⟨0, _⟩ => show win1_3.index t (0 : Fin 2) * 256 + 1 * p.val = 256 * t.val + p.val; omega
  | ⟨1, _⟩ => show win1_3.index t (1 : Fin 2) * 2048 + 1 * k.val = k.val; omega

theorem iblk4_apply (t : Fin cfg1.N) (k : Fin 2048) (q : Fin 512) :
    (iblk1 V c 4 t : S2048x512.Idx → EReal) (ix2 k q) = aZ0 V c (ix2 k q) := by
  obtain ⟨-, -, -, -, ⟨e0, e1⟩, -⟩ := idx_facts1 t
  show V c main_v3_0 (((cfg1.win 4).blk t).view.emb (ix2 k q)) = V c main_v3_0 (ix2 k q)
  congr 1
  funext a; apply Fin.ext
  match a with
  | ⟨0, _⟩ => show win1_4.index t (0 : Fin 2) * 2048 + 1 * k.val = k.val; omega
  | ⟨1, _⟩ => show win1_4.index t (1 : Fin 2) * 512 + 1 * q.val = q.val; omega

theorem iblk5_apply (t : Fin cfg1.N) (k : Fin 2048) (q : Fin 512) :
    (iblk1 V c 5 t : S2048x512.Idx → EReal) (ix2 k q) = aZ1 V c (ix2 k q) := by
  obtain ⟨-, -, -, -, -, ⟨e0, e1⟩, -⟩ := idx_facts1 t
  show V c main_v3_1 (((cfg1.win 5).blk t).view.emb (ix2 k q)) = V c main_v3_1 (ix2 k q)
  congr 1
  funext a; apply Fin.ext
  match a with
  | ⟨0, _⟩ => show win1_5.index t (0 : Fin 2) * 2048 + 1 * k.val = k.val; omega
  | ⟨1, _⟩ => show win1_5.index t (1 : Fin 2) * 512 + 1 * q.val = q.val; omega

theorem iblk6_apply (t : Fin cfg1.N) (p : Fin 256) (a : Fin 128) :
    (iblk1 V c 6 t : S256x128.Idx → EReal) (ix2 p a) = aQr V c (ix2 (brow t p) a) := by
  obtain ⟨-, -, -, -, -, -, ⟨e0, e1⟩, -⟩ := idx_facts1 t
  show V c main_arg7 (((cfg1.win 6).blk t).view.emb (ix2 p a)) = V c main_arg7 (ix2 (brow t p) a)
  congr 1
  funext b; apply Fin.ext
  match b with
  | ⟨0, _⟩ => show win1_6.index t (0 : Fin 2) * 256 + 1 * p.val = 256 * t.val + p.val; omega
  | ⟨1, _⟩ => show win1_6.index t (1 : Fin 2) * 128 + 1 * a.val = a.val; omega

theorem iblk7_apply (t : Fin cfg1.N) (p : Fin 256) (a : Fin 128) :
    (iblk1 V c 7 t : S256x128.Idx → EReal) (ix2 p a) = aQi V c (ix2 (brow t p) a) := by
  obtain ⟨-, -, -, -, -, -, -, ⟨e0, e1⟩, -⟩ := idx_facts1 t
  show V c main_arg8 (((cfg1.win 7).blk t).view.emb (ix2 p a)) = V c main_arg8 (ix2 (brow t p) a)
  congr 1
  funext b; apply Fin.ext
  match b with
  | ⟨0, _⟩ => show win1_7.index t (0 : Fin 2) * 256 + 1 * p.val = 256 * t.val + p.val; omega
  | ⟨1, _⟩ => show win1_7.index t (1 : Fin 2) * 128 + 1 * a.val = a.val; omega

theorem iblk8_apply (t : Fin cfg1.N) (a : Fin 128) (q : Fin 512) :
    (iblk1 V c 8 t : S128x512.Idx → EReal) (ix2 a q) = aUU V c (ix2 a q) := by
  obtain ⟨-, -, -, -, -, -, -, -, ⟨e0, e1⟩, -⟩ := idx_facts1 t
  show V c main_v3_2 (((cfg1.win 8).blk t).view.emb (ix2 a q)) = V c main_v3_2 (ix2 a q)
  congr 1
  funext b; apply Fin.ext
  match b with
  | ⟨0, _⟩ => show win1_8.index t (0 : Fin 2) * 128 + 1 * a.val = a.val; omega
  | ⟨1, _⟩ => show win1_8.index t (1 : Fin 2) * 512 + 1 * q.val = q.val; omega

theorem iblk9_apply (t : Fin cfg1.N) (a : Fin 128) (q : Fin 512) :
    (iblk1 V c 9 t : S128x512.Idx → EReal) (ix2 a q) = aVV V c (ix2 a q) := by
  obtain ⟨-, -, -, -, -, -, -, -, -, ⟨e0, e1⟩, -⟩ := idx_facts1 t
  show V c main_v3_3 (((cfg1.win 9).blk t).view.emb (ix2 a q)) = V c main_v3_3 (ix2 a q)
  congr 1
  funext b; apply Fin.ext
  match b with
  | ⟨0, _⟩ => show win1_9.index t (0 : Fin 2) * 128 + 1 * a.val = a.val; omega
  | ⟨1, _⟩ => show win1_9.index t (1 : Fin 2) * 512 + 1 * q.val = q.val; omega

theorem iblk10_apply (t : Fin cfg1.N) (q : Fin 512) :
    (iblk1 V c 10 t : S1x512.Idx → EReal) (ix2 (0 : Fin 1) q) = aBias V c (ix2 (0 : Fin 1) q) := by
  obtain ⟨-, -, -, -, -, -, -, -, -, -, ⟨e0, e1⟩, -⟩ := idx_facts1 t
  show V c main_arg12 (((cfg1.win 10).blk t).view.emb (ix2 (0 : Fin 1) q)) = V c main_arg12 (ix2 (0 : Fin 1) q)
  congr 1
  funext b; apply Fin.ext
  match b with
  | ⟨0, _⟩ => show win1_10.index t (0 : Fin 2) * 1 + 1 * 0 = 0; omega
  | ⟨1, _⟩ => show win1_10.index t (1 : Fin 2) * 512 + 1 * q.val = q.val; omega

theorem off4_apply (t : Fin cfg1.N) (p : Fin 256) (q : Fin 512) :
    (View.ld (iblk1 V c 4 t : S2048x512.Idx → EReal) (r1_off (grid1.coords t)) : S256x512.Idx → EReal) (ix2 p q)
      = aZ0 V c (ix2 (brow t p) q) := by
  obtain ⟨-, -, -, -, -, -, -, -, -, -, -, -, -, ⟨o0, o1⟩⟩ := idx_facts1 t
  refine Eq.trans ?_ (iblk4_apply V c t (brow t p) q)
  show (iblk1 V c 4 t : S2048x512.Idx → EReal) ((r1_off (grid1.coords t)).idx (ix2 p q)) = _
  congr 1
  funext a; apply Fin.ext
  match a with
  | ⟨0, _⟩ => show k1_off1 (grid1.coords t) (0 : Fin 2) + 1 * p.val = 256 * t.val + p.val; omega
  | ⟨1, _⟩ => show k1_off1 (grid1.coords t) (1 : Fin 2) + 1 * q.val = q.val; omega

theorem off5_apply (t : Fin cfg1.N) (p : Fin 256) (q : Fin 512) :
    (View.ld (iblk1 V c 5 t : S2048x512.Idx → EReal) (r1_off (grid1.coords t)) : S256x512.Idx → EReal) (ix2 p q)
      = aZ1 V c (ix2 (brow t p) q) := by
  obtain ⟨-, -, -, -, -, -, -, -, -, -, -, -, -, ⟨o0, o1⟩⟩ := idx_facts1 t
  refine Eq.trans ?_ (iblk5_apply V c t (brow t p) q)
  show (iblk1 V c 5 t : S2048x512.Idx → EReal) ((r1_off (grid1.coords t)).idx (ix2 p q)) = _
  congr 1
  funext a; apply Fin.ext
  match a with
  | ⟨0, _⟩ => show k1_off1 (grid1.coords t) (0 : Fin 2) + 1 * p.val = 256 * t.val + p.val; omega
  | ⟨1, _⟩ => show k1_off1 (grid1.coords t) (1 : Fin 2) + 1 * q.val = q.val; omega

theorem emb11 (t : Fin cfg1.N) (p : Fin 256) (q : Fin 512) :
    ((cfg1.win 11).blk t).view.emb (ix2 p q) = (ix2 (brow t p) q : S2048x512.Idx) := by
  obtain ⟨-, -, -, -, -, -, -, -, -, -, -, ⟨e0, e1⟩, -⟩ := idx_facts1 t
  funext a; apply Fin.ext
  match a with
  | ⟨0, _⟩ => show win1_11.index t (0 : Fin 2) * 256 + 1 * p.val = 256 * t.val + p.val; omega
  | ⟨1, _⟩ => show win1_11.index t (1 : Fin 2) * 512 + 1 * q.val = q.val; omega

theorem emb12 (t : Fin cfg1.N) (p : Fin 256) (q : Fin 512) :
    ((cfg1.win 12).blk t).view.emb (ix2 p q) = (ix2 (brow t p) q : S2048x512.Idx) := by
  obtain ⟨-, -, -, -, -, -, -, -, -, -, -, -, ⟨e0, e1⟩, -⟩ := idx_facts1 t
  funext a; apply Fin.ext
  match a with
  | ⟨0, _⟩ => show win1_12.index t (0 : Fin 2) * 256 + 1 * p.val = 256 * t.val + p.val; omega
  | ⟨1, _⟩ => show win1_12.index t (1 : Fin 2) * 512 + 1 * q.val = q.val; omega

section Blocks
variable (x0 x1 x2 x3 : Vec Ideal S256x2048 .f32) (x4 x5 : Vec Ideal S2048x512 .bf16) (z0 z1 : Vec Ideal S256x512 .bf16)
  (x6 x7 : Vec Ideal S256x128 .f32) (x8 x9 : Vec Ideal S128x512 .f32) (x10 : Vec Ideal S1x512 .f32)
  (L0 L1 L2 L3 : S2048x2048.Idx → EReal) (Z0 Z1 : S2048x512.Idx → EReal) (Qr Qi : S2048x128.Idx → EReal)
  (UU VV : S128x512.Idx → EReal) (B : S1x512.Idx → EReal) (n : Fin 2048) (p j : Fin 256)
  (h0 : ∀ k, x0 (ix2 p k) = L0 (ix2 n k)) (h1 : ∀ k, x1 (ix2 p k) = L1 (ix2 n k))
  (h2 : ∀ k, x2 (ix2 p k) = L2 (ix2 n k)) (h3 : ∀ k, x3 (ix2 p k) = L3 (ix2 n k))
  (h4 : ∀ k q, x4 (ix2 k q) = Z0 (ix2 k q)) (h5 : ∀ k q, x5 (ix2 k q) = Z1 (ix2 k q))
  (hz0 : ∀ q, z0 (ix2 p q) = Z0 (ix2 n q)) (hz1 : ∀ q, z1 (ix2 p q) = Z1 (ix2 n q))
  (h6 : ∀ a, x6 (ix2 p a) = Qr (ix2 n a)) (h7 : ∀ a, x7 (ix2 p a) = Qi (ix2 n a))
  (h8 : ∀ a q, x8 (ix2 a q) = UU (ix2 a q)) (h9 : ∀ a q, x9 (ix2 a q) = VV (ix2 a q))
  (h10 : ∀ q, x10 (ix2 (0 : Fin 1) q) = B (ix2 (0 : Fin 1) q))
include h0 h1 h2 h3 h4 h5 hz0 hz1 h6 h7 h8 h9 h10

theorem blk11_lo :
    k1_pay1 x10 (k1_pay16 (k1_pay9 x4 x5 x0 x1 x2 x3) (k1_pay11 x6 x8) x7 x9 z0 x10) (k1_pay17 (k1_pay11 x6 x8) x7 x9 z1)
        (ix2 p (lo j))
      = Spec.r1RealL (m2 L0) (m2 L1) (m2 L2) (m2 L3) (loHalf Z0) (hiHalf Z0) (loHalf Z1) (hiHalf Z1) (m2 Qr) (m2 Qi)
          (loHalf UU) (loHalf VV) (row0 B) n j := by
  rw [pay1_lo, pay16_apply, pay9_apply, pay11_apply]
  simp only [h0, h1, h2, h3, h4, h5, hz0, h6, h7, h8, h9, h10, Spec.r1RealL, Spec.mm, m2, loHalf, hiHalf, row0]

theorem blk11_hi :
    k1_pay1 x10 (k1_pay16 (k1_pay9 x4 x5 x0 x1 x2 x3) (k1_pay11 x6 x8) x7 x9 z0 x10) (k1_pay17 (k1_pay11 x6 x8) x7 x9 z1)
        (ix2 p (hi j))
      = Spec.r1RealR (loHalf Z1) (m2 Qr) (m2 Qi) (hiHalf UU) (hiHalf VV) (row0 B) n j := by
  rw [pay1_hi, pay17_apply, pay11_apply]
  simp only [hz1, h6, h7, h8, h9, h10, Spec.r1RealR, Spec.mm, m2, loHalf, hiHalf, row0]

theorem blk12_lo :
    k1_pay2 (k1_pay10 x4 x5 x0 x1 x2 x3) (k1_pay13 x7 x8 x6 x9) (k1_pay14 z0) (k1_pay15 z1) x10 (ix2 p (lo j))
      = Spec.r1ImagL (m2 L0) (m2 L1) (m2 L2) (m2 L3) (loHalf Z0) (hiHalf Z0) (loHalf Z1) (hiHalf Z1) (m2 Qr) (m2 Qi)
          (loHalf UU) (loHalf VV) (row0 B) n j := by
  rw [pay2_lo, pay10_apply, pay13_apply, pay14_apply]
  simp only [h0, h1, h2, h3, h4, h5, hz0, h6, h7, h8, h9, h10, Spec.r1ImagL, Spec.mm, m2, loHalf, hiHalf, row0]

theorem blk12_hi :
    k1_pay2 (k1_pay10 x4 x5 x0 x1 x2 x3) (k1_pay13 x7 x8 x6 x9) (k1_pay14 z0) (k1_pay15 z1) x10 (ix2 p (hi j))
      = Spec.r1ImagR (hiHalf Z1) (m2 Qr) (m2 Qi) (hiHalf UU) (hiHalf VV) (row0 B) n j := by
  rw [pay2_hi, pay13_apply, pay15_apply]
  simp only [hz1, h6, h7, h8, h9, h10, Spec.r1ImagR, Spec.mm, m2, loHalf, hiHalf, row0]

end Blocks

theorem flushed11_eq (t : Fin cfg1.N) :
    (dat1 V c).flushed 11 t = ((cfg1.win 11).blk t).view.read (Elt Ideal) (G11 V c) := by
  show (cfg1.win 11).cut (grid1.coords t) ((dat1 V c).after 11 t) = _
  rw [after1_11]
  unfold out1_11
  rw [View.canon_unit_zero hz2]
  simp only [View.ld_unit_zero (S := S256x2048) hz2, View.ld_unit_zero (S := S2048x512) hz2,
    View.ld_unit_zero (S := S256x128) hz2, View.ld_unit_zero (S := S128x512) hz2, View.ld_unit_zero (S := S1x512) hz2]
  funext y
  obtain ⟨p, q, rfl⟩ : ∃ (p : Fin 256) (q : Fin 512), y = ix2 p q := ⟨y 0, y 1, eq_ix2 y⟩
  refine Eq.trans ?_ (show G11 V c (ix2 (brow t p) q) = ((cfg1.win 11).blk t).view.read (Elt Ideal) (G11 V c) (ix2 p q) from
    (congrArg (G11 V c) (emb11 t p q)).symm)
  rcases half_cases q with ⟨j, rfl⟩ | ⟨j, rfl⟩
  · exact (blk11_lo (iblk1 V c 0 t) (iblk1 V c 1 t) (iblk1 V c 2 t) (iblk1 V c 3 t) (iblk1 V c 4 t) (iblk1 V c 5 t)
      (View.ld (iblk1 V c 4 t) (r1_off (grid1.coords t))) (View.ld (iblk1 V c 5 t) (r1_off (grid1.coords t)))
      (iblk1 V c 6 t) (iblk1 V c 7 t) (iblk1 V c 8 t) (iblk1 V c 9 t) (iblk1 V c 10 t)
      (aLr0 V c) (aLi0 V c) (aLr1 V c) (aLi1 V c) (aZ0 V c) (aZ1 V c) (aQr V c) (aQi V c) (aUU V c) (aVV V c) (aBias V c)
      (brow t p) p j
      (fun k => iblk0_apply V c t p k) (fun k => iblk1_apply V c t p k) (fun k => iblk2_apply V c t p k)
      (fun k => iblk3_apply V c t p k) (fun k q => iblk4_apply V c t k q) (fun k q => iblk5_apply V c t k q)
      (fun q => off4_apply V c t p q) (fun q => off5_apply V c t p q)
      (fun a => iblk6_apply V c t p a) (fun a => iblk7_apply V c t p a) (fun a q => iblk8_apply V c t a q)
      (fun a q => iblk9_apply V c t a q) (fun q => iblk10_apply V c t q)).trans (G11_lo V c (brow t p) j).symm
  · exact (blk11_hi (iblk1 V c 0 t) (iblk1 V c 1 t) (iblk1 V c 2 t) (iblk1 V c 3 t) (iblk1 V c 4 t) (iblk1 V c 5 t)
      (View.ld (iblk1 V c 4 t) (r1_off (grid1.coords t))) (View.ld (iblk1 V c 5 t) (r1_off (grid1.coords t)))
      (iblk1 V c 6 t) (iblk1 V c 7 t) (iblk1 V c 8 t) (iblk1 V c 9 t) (iblk1 V c 10 t)
      (aLr0 V c) (aLi0 V c) (aLr1 V c) (aLi1 V c) (aZ0 V c) (aZ1 V c) (aQr V c) (aQi V c) (aUU V c) (aVV V c) (aBias V c)
      (brow t p) p j
      (fun k => iblk0_apply V c t p k) (fun k => iblk1_apply V c t p k) (fun k => iblk2_apply V c t p k)
      (fun k => iblk3_apply V c t p k) (fun k q => iblk4_apply V c t k q) (fun k q => iblk5_apply V c t k q)
      (fun q => off4_apply V c t p q) (fun q => off5_apply V c t p q)
      (fun a => iblk6_apply V c t p a) (fun a => iblk7_apply V c t p a) (fun a q => iblk8_apply V c t a q)
      (fun a q => iblk9_apply V c t a q) (fun q => iblk10_apply V c t q)).trans (G11_hi V c (brow t p) j).symm

theorem flushed12_eq (t : Fin cfg1.N) :
    (dat1 V c).flushed 12 t = ((cfg1.win 12).blk t).view.read (Elt Ideal) (G12 V c) := by
  show (cfg1.win 12).cut (grid1.coords t) ((dat1 V c).after 12 t) = _
  rw [after1_12]
  unfold out1_12
  rw [View.canon_unit_zero hz2]
  simp only [View.ld_unit_zero (S := S256x2048) hz2, View.ld_unit_zero (S := S2048x512) hz2,
    View.ld_unit_zero (S := S256x128) hz2, View.ld_unit_zero (S := S128x512) hz2, View.ld_unit_zero (S := S1x512) hz2]
  funext y
  obtain ⟨p, q, rfl⟩ : ∃ (p : Fin 256) (q : Fin 512), y = ix2 p q := ⟨y 0, y 1, eq_ix2 y⟩
  refine Eq.trans ?_ (show G12 V c (ix2 (brow t p) q) = ((cfg1.win 12).blk t).view.read (Elt Ideal) (G12 V c) (ix2 p q) from
    (congrArg (G12 V c) (emb12 t p q)).symm)
  rcases half_cases q with ⟨j, rfl⟩ | ⟨j, rfl⟩
  · exact (blk12_lo (iblk1 V c 0 t) (iblk1 V c 1 t) (iblk1 V c 2 t) (iblk1 V c 3 t) (iblk1 V c 4 t) (iblk1 V c 5 t)
      (View.ld (iblk1 V c 4 t) (r1_off (grid1.coords t))) (View.ld (iblk1 V c 5 t) (r1_off (grid1.coords t)))
      (iblk1 V c 6 t) (iblk1 V c 7 t) (iblk1 V c 8 t) (iblk1 V c 9 t) (iblk1 V c 10 t)
      (aLr0 V c) (aLi0 V c) (aLr1 V c) (aLi1 V c) (aZ0 V c) (aZ1 V c) (aQr V c) (aQi V c) (aUU V c) (aVV V c) (aBias V c)
      (brow t p) p j
      (fun k => iblk0_apply V c t p k) (fun k => iblk1_apply V c t p k) (fun k => iblk2_apply V c t p k)
      (fun k => iblk3_apply V c t p k) (fun k q => iblk4_apply V c t k q) (fun k q => iblk5_apply V c t k q)
      (fun q => off4_apply V c t p q) (fun q => off5_apply V c t p q)
      (fun a => iblk6_apply V c t p a) (fun a => iblk7_apply V c t p a) (fun a q => iblk8_apply V c t a q)
      (fun a q => iblk9_apply V c t a q) (fun q => iblk10_apply V c t q)).trans (G12_lo V c (brow t p) j).symm
  · exact (blk12_hi (iblk1 V c 0 t) (iblk1 V c 1 t) (iblk1 V c 2 t) (iblk1 V c 3 t) (iblk1 V c 4 t) (iblk1 V c 5 t)
      (View.ld (iblk1 V c 4 t) (r1_off (grid1.coords t))) (View.ld (iblk1 V c 5 t) (r1_off (grid1.coords t)))
      (iblk1 V c 6 t) (iblk1 V c 7 t) (iblk1 V c 8 t) (iblk1 V c 9 t) (iblk1 V c 10 t)
      (aLr0 V c) (aLi0 V c) (aLr1 V c) (aLi1 V c) (aZ0 V c) (aZ1 V c) (aQr V c) (aQi V c) (aUU V c) (aVV V c) (aBias V c)
      (brow t p) p j
      (fun k => iblk0_apply V c t p k) (fun k => iblk1_apply V c t p k) (fun k => iblk2_apply V c t p k)
      (fun k => iblk3_apply V c t p k) (fun k q => iblk4_apply V c t k q) (fun k q => iblk5_apply V c t k q)
      (fun q => off4_apply V c t p q) (fun q => off5_apply V c t p q)
      (fun a => iblk6_apply V c t p a) (fun a => iblk7_apply V c t p a) (fun a q => iblk8_apply V c t a q)
      (fun a q => iblk9_apply V c t a q) (fun q => iblk10_apply V c t q)).trans (G12_hi V c (brow t p) j).symm

theorem mem_blk11 (t : Fin cfg1.N) (i : S2048x512.Idx) :
    i ∈ ((cfg1.win 11).blk t).view.set ↔ ∀ a : Fin 2, win1_11.index t a * S256x512.size a ≤ (i a).val
      ∧ (i a).val < win1_11.index t a * S256x512.size a + S256x512.size a := by
  show i ∈ ((View.whole main_v4_0).slice (win1_11.rect t)).set ↔ _
  rw [View.set_slice_whole, Rect.mem_set_unit]
  exact Iff.rfl

theorem mem_blk12 (t : Fin cfg1.N) (i : S2048x512.Idx) :
    i ∈ ((cfg1.win 12).blk t).view.set ↔ ∀ a : Fin 2, win1_12.index t a * S256x512.size a ≤ (i a).val
      ∧ (i a).val < win1_12.index t a * S256x512.size a + S256x512.size a := by
  show i ∈ ((View.whole main_v4_1).slice (win1_12.rect t)).set ↔ _
  rw [View.set_slice_whole, Rect.mem_set_unit]
  exact Iff.rfl

def ptOf (i : S2048x512.Idx) : Fin cfg1.N :=
  ⟨(i 0).val / 256, by have h : cfg1.N = 8 := N_1; have := idx2_lt0 i; omega⟩

theorem cover11 (i : S2048x512.Idx) :
    ∃ t : Fin cfg1.N, (cfg1.win 11).flush t = true ∧ i ∈ ((cfg1.win 11).blk t).view.set := by
  have hi0 := idx2_lt0 i
  have hi1 := idx2_lt1 i
  have htv : (ptOf i).val = (i 0).val / 256 := rfl
  obtain ⟨-, -, -, -, -, -, -, -, -, -, -, ⟨e0, e1⟩, -⟩ := idx_facts1 (ptOf i)
  refine ⟨ptOf i, flush1_11 (ptOf i), ?_⟩
  rw [mem_blk11]
  intro a
  match a with
  | ⟨0, _⟩ =>
    show win1_11.index (ptOf i) (0 : Fin 2) * 256 ≤ (i 0).val ∧ (i 0).val < win1_11.index (ptOf i) (0 : Fin 2) * 256 + 256
    omega
  | ⟨1, _⟩ =>
    show win1_11.index (ptOf i) (1 : Fin 2) * 512 ≤ (i 1).val ∧ (i 1).val < win1_11.index (ptOf i) (1 : Fin 2) * 512 + 512
    omega

theorem cover12 (i : S2048x512.Idx) :
    ∃ t : Fin cfg1.N, (cfg1.win 12).flush t = true ∧ i ∈ ((cfg1.win 12).blk t).view.set := by
  have hi0 := idx2_lt0 i
  have hi1 := idx2_lt1 i
  have htv : (ptOf i).val = (i 0).val / 256 := rfl
  obtain ⟨-, -, -, -, -, -, -, -, -, -, -, -, ⟨e0, e1⟩, -⟩ := idx_facts1 (ptOf i)
  refine ⟨ptOf i, flush1_12 (ptOf i), ?_⟩
  rw [mem_blk12]
  intro a
  match a with
  | ⟨0, _⟩ =>
    show win1_12.index (ptOf i) (0 : Fin 2) * 256 ≤ (i 0).val ∧ (i 0).val < win1_12.index (ptOf i) (0 : Fin 2) * 256 + 256
    omega
  | ⟨1, _⟩ =>
    show win1_12.index (ptOf i) (1 : Fin 2) * 512 ≤ (i 1).val ∧ (i 1).val < win1_12.index (ptOf i) (1 : Fin 2) * 512 + 512
    omega

theorem final11 : (dat1 V c).arrAt 11 cfg1.N = G11 V c :=
  (dat1 V c).arrAt_eq_of_cover 11 (G11 V c) (fun t _ => flushed11_eq V c t) (cover11)

theorem final12 : (dat1 V c).arrAt 12 cfg1.N = G12 V c :=
  (dat1 V c).arrAt_eq_of_cover 12 (G12 V c) (fun t _ => flushed12_eq V c t) (cover12)

theorem arr11_lo (n : Fin 2048) (j : Fin 256) : ((Hand.dat1 V c).arrAt 11 cfg1.N : S2048x512.Idx → EReal) (ix2 n (Spec.lo j))
    = Spec.r1RealL (m2 (aLr0 V c)) (m2 (aLi0 V c)) (m2 (aLr1 V c)) (m2 (aLi1 V c))
        (loHalf (aZ0 V c)) (hiHalf (aZ0 V c)) (loHalf (aZ1 V c)) (hiHalf (aZ1 V c))
        (m2 (aQr V c)) (m2 (aQi V c)) (loHalf (aUU V c)) (loHalf (aVV V c)) (row0 (aBias V c)) n j :=
  (congrFun (final11 V c) (ix2 n (lo j))).trans (G11_lo V c n j)

theorem arr11_hi (n : Fin 2048) (j : Fin 256) : ((Hand.dat1 V c).arrAt 11 cfg1.N : S2048x512.Idx → EReal) (ix2 n (Spec.hi j))
    = Spec.r1RealR (loHalf (aZ1 V c)) (m2 (aQr V c)) (m2 (aQi V c)) (hiHalf (aUU V c)) (hiHalf (aVV V c)) (row0 (aBias V c)) n j :=
  (congrFun (final11 V c) (ix2 n (hi j))).trans (G11_hi V c n j)

theorem arr12_lo (n : Fin 2048) (j : Fin 256) : ((Hand.dat1 V c).arrAt 12 cfg1.N : S2048x512.Idx → EReal) (ix2 n (Spec.lo j))
    = Spec.r1ImagL (m2 (aLr0 V c)) (m2 (aLi0 V c)) (m2 (aLr1 V c)) (m2 (aLi1 V c))
        (loHalf (aZ0 V c)) (hiHalf (aZ0 V c)) (loHalf (aZ1 V c)) (hiHalf (aZ1 V c))
        (m2 (aQr V c)) (m2 (aQi V c)) (loHalf (aUU V c)) (loHalf (aVV V c)) (row0 (aBias V c)) n j :=
  (congrFun (final12 V c) (ix2 n (lo j))).trans (G12_lo V c n j)

theorem arr12_hi (n : Fin 2048) (j : Fin 256) : ((Hand.dat1 V c).arrAt 12 cfg1.N : S2048x512.Idx → EReal) (ix2 n (Spec.hi j))
    = Spec.r1ImagR (hiHalf (aZ1 V c)) (m2 (aQr V c)) (m2 (aQi V c)) (hiHalf (aUU V c)) (hiHalf (aVV V c)) (row0 (aBias V c)) n j :=
  (congrFun (final12 V c) (ix2 n (hi j))).trans (G12_hi V c n j)

end Cert.KernelIdeal.HandV.Second

end
-- ==== Proof.KValue.lean ====
import proofs.«159171_g70626442215508_cont_9to1_m_806_14_alg».proof.Proof.KRun
import proofs.«159171_g70626442215508_cont_9to1_m_806_14_alg».proof.Proof.KArr
import proofs.«159171_g70626442215508_cont_9to1_m_806_14_alg».proof.Proof.K0Value
import proofs.«159171_g70626442215508_cont_9to1_m_806_14_alg».proof.Proof.K0ValueZ
import proofs.«159171_g70626442215508_cont_9to1_m_806_14_alg».proof.Proof.K1Value
import proofs.«159171_g70626442215508_cont_9to1_m_806_14_alg».proof.Proof.Gen.KernelIdeal.Regions
import Idealize.ShloMosaic.Lib.Pipeline.Value
import Idealize.ShloMosaic.Lib.ValueLayout
import Idealize.ShloMosaic.Lib.StableHlo.Run

set_option maxRecDepth 16384

noncomputable section

namespace Cert.KernelIdeal.HandV

open Idealize.ShloMosaic Idealize.ShloMosaic.TcCoe Idealize.ShloMosaic.ValueIdx
open Idealize.SL.Sem
open Cert.KernelIdeal Cert.KernelIdeal.Gen Cert.KernelIdeal.Hand
open Cert Cert.Mats

variable (m : (ℓ : Loc nD τ sig) → Buf (Elt Ideal) ℓ) (ρ : Dev nD → PrngReg) (c : Dev nD)

abbrev M0 : (c : Dev nD) → (b : Ref sig .tc) → Buf (Elt Ideal) ((c : Thread nD τ).loc b) := fun c b => m ((c : Thread nD τ).loc b)

theorem V1_of (b : Ref sig .tc) (h : b ∉ (hostOps0_W : List (Ref sig .tc))) : V1 m ρ c b = M0 m c b :=
  Gen.V1_of m c b h

theorem V1_wl : (V1 m ρ c main_v0 : S512x256.Idx → EReal) = shapeCast S512x256 (aWl3 (M0 m) c) Facts₀.shapeCasts_S1x512x256_S512x256 := by
  show StableHlo.after hostOps0 _ (Proc.devRef .tc main_v0) = _
  after_results
  rfl
theorem V1_wres : (V1 m ρ c main_v1 : S512x512.Idx → EReal) = shapeCast S512x512 (aWres3 (M0 m) c) Facts₀.shapeCasts_S1x512x512_S512x512 := by
  show StableHlo.after hostOps0 _ (Proc.devRef .tc main_v1) = _
  after_results
  rfl
theorem V1_rcol : (V1 m ρ c main_v2 : S128x1.Idx → EReal) = shapeCast S128x1 (aR (M0 m) c) Facts₀.shapeCasts_S128_S128x1 := by
  show StableHlo.after hostOps0 _ (Proc.devRef .tc main_v2) = _
  after_results
  rfl

theorem wl_eq : m2 (aWl (V1 m ρ) c) = pl (aWl3 (M0 m) c) 0 := by
  funext i j
  show (V1 m ρ c main_v0 : S512x256.Idx → EReal) (ix2 i j) = _
  rw [V1_wl]
  exact shapeCast_1ab_ab_apply _ _ i j
theorem wres_eq : m2 (aWres (V1 m ρ) c) = pl (aWres3 (M0 m) c) 0 := by
  funext i j
  show (V1 m ρ c main_v1 : S512x512.Idx → EReal) (ix2 i j) = _
  rw [V1_wres]
  exact shapeCast_1ab_ab_apply _ _ i j
theorem rcol_eq : col0 (aRcol (V1 m ρ) c) = v1 (aR (M0 m) c) := by
  funext a
  show (V1 m ρ c main_v2 : S128x1.Idx → EReal) (ix2 a 0) = _
  rw [V1_rcol]
  exact shapeCast_apply _ _ (ix2 a 0) (ix1 a) (by
    rw [Shape.rowMajor_val_one, Shape.rowMajor_val_two]
    show a.val = a.val * 1 + 0
    omega)

theorem V2_of (b : Ref sig .tc) (hb : ∀ w, Pipeline.arrRef spec0 w ≠ b) : V2 m ρ c b = V1 m ρ c b :=
  W2_of_ne m ρ c b hb

theorem e1_Xr : aXr (V1 m ρ) c = aXr (M0 m) c := V1_of m ρ c main_arg0 (by decide)
theorem e1_Xi : aXi (V1 m ρ) c = aXi (M0 m) c := V1_of m ρ c main_arg1 (by decide)
theorem e1_Qr : aQr (V1 m ρ) c = aQr (M0 m) c := V1_of m ρ c main_arg7 (by decide)
theorem e1_Qi : aQi (V1 m ρ) c = aQi (M0 m) c := V1_of m ρ c main_arg8 (by decide)
theorem e1_W : aW (V1 m ρ) c = aW (M0 m) c := V1_of m ρ c main_arg9 (by decide)

theorem e2_Lr0 : aLr0 (V2 m ρ) c = aLr0 (M0 m) c := (V2_of m ρ c main_arg2 (by decide)).trans (V1_of m ρ c main_arg2 (by decide))
theorem e2_Lr1 : aLr1 (V2 m ρ) c = aLr1 (M0 m) c := (V2_of m ρ c main_arg3 (by decide)).trans (V1_of m ρ c main_arg3 (by decide))
theorem e2_Li0 : aLi0 (V2 m ρ) c = aLi0 (M0 m) c := (V2_of m ρ c main_arg4 (by decide)).trans (V1_of m ρ c main_arg4 (by decide))
theorem e2_Li1 : aLi1 (V2 m ρ) c = aLi1 (M0 m) c := (V2_of m ρ c main_arg5 (by decide)).trans (V1_of m ρ c main_arg5 (by decide))
theorem e2_Bias : aBias (V2 m ρ) c = aBias (M0 m) c := (V2_of m ρ c main_arg12 (by decide)).trans (V1_of m ρ c main_arg12 (by decide))
theorem e2_Qr : aQr (V2 m ρ) c = aQr (M0 m) c :=
  ((W2_arr m ρ c 2).trans (((dat0 (V1 m ρ) c).arrAt_in 2 rfl _).trans (A_eq0 (V1 m ρ) c 2))).trans (V1_of m ρ c main_arg7 (by decide))
theorem e2_Qi : aQi (V2 m ρ) c = aQi (M0 m) c :=
  ((W2_arr m ρ c 3).trans (((dat0 (V1 m ρ) c).arrAt_in 3 rfl _).trans (A_eq0 (V1 m ρ) c 3))).trans (V1_of m ρ c main_arg8 (by decide))
theorem e2_Z0 : aZ0 (V2 m ρ) c = ((dat0 (V1 m ρ) c).arrAt 8 cfg0.N : S2048x512.Idx → EReal) := W2_arr m ρ c 8
theorem e2_Z1 : aZ1 (V2 m ρ) c = ((dat0 (V1 m ρ) c).arrAt 9 cfg0.N : S2048x512.Idx → EReal) := W2_arr m ρ c 9
theorem e2_UU : aUU (V2 m ρ) c = ((dat0 (V1 m ρ) c).arrAt 10 cfg0.N : S128x512.Idx → EReal) := W2_arr m ρ c 10
theorem e2_VV : aVV (V2 m ρ) c = ((dat0 (V1 m ρ) c).arrAt 11 cfg0.N : S128x512.Idx → EReal) := W2_arr m ρ c 11

abbrev gpM : Fin 128 → Fin 512 → EReal := Spec.gp (m2 (aXr (M0 m) c)) (m2 (aXi (M0 m) c)) (m2 (aQr (M0 m) c)) (m2 (aQi (M0 m) c))
abbrev gmM : Fin 128 → Fin 512 → EReal := Spec.gm (m2 (aXr (M0 m) c)) (m2 (aXi (M0 m) c)) (m2 (aQr (M0 m) c)) (m2 (aQi (M0 m) c))

theorem Z0_lo : loHalf (aZ0 (V2 m ρ) c) = Spec.mm (m2 (aXr (M0 m) c)) (pl (aW (M0 m) c) 0) := by
  funext k j; show aZ0 (V2 m ρ) c (ix2 k (Spec.lo j)) = _
  rw [e2_Z0, arr8_lo (V1 m ρ) c k j, e1_Xr, e1_W]
theorem Z0_hi : hiHalf (aZ0 (V2 m ρ) c) = Spec.mm (m2 (aXi (M0 m) c)) (pl (aW (M0 m) c) 0) := by
  funext k j; show aZ0 (V2 m ρ) c (ix2 k (Spec.hi j)) = _
  rw [e2_Z0, arr8_hi (V1 m ρ) c k j, e1_Xi, e1_W]
theorem Z1_lo : loHalf (aZ1 (V2 m ρ) c) = Spec.mm (m2 (aXr (M0 m) c)) (pl (aW (M0 m) c) 1) := by
  funext k j; show aZ1 (V2 m ρ) c (ix2 k (Spec.lo j)) = _
  rw [e2_Z1, arr9_lo (V1 m ρ) c k j, e1_Xr, e1_W]
theorem Z1_hi : hiHalf (aZ1 (V2 m ρ) c) = Spec.mm (m2 (aXi (M0 m) c)) (pl (aW (M0 m) c) 1) := by
  funext k j; show aZ1 (V2 m ρ) c (ix2 k (Spec.hi j)) = _
  rw [e2_Z1, arr9_hi (V1 m ρ) c k j, e1_Xi, e1_W]
theorem UU_lo : loHalf (aUU (V2 m ρ) c) = Spec.coefL (v1 (aR (M0 m) c)) (pl (aWres3 (M0 m) c) 0) (gpM m c) := by
  funext a j; show aUU (V2 m ρ) c (ix2 a (Spec.lo j)) = _
  rw [e2_UU, arr10_lo (V1 m ρ) c a j, e1_Xr, e1_Xi, e1_Qr, e1_Qi, rcol_eq, wres_eq]
theorem UU_hi : hiHalf (aUU (V2 m ρ) c) = Spec.coefR (v1 (aR (M0 m) c)) (pl (aWl3 (M0 m) c) 0) (pl (aWres3 (M0 m) c) 0) (gpM m c) := by
  funext a j; show aUU (V2 m ρ) c (ix2 a (Spec.hi j)) = _
  rw [e2_UU, arr10_hi (V1 m ρ) c a j, e1_Xr, e1_Xi, e1_Qr, e1_Qi, rcol_eq, wres_eq, wl_eq]
theorem VV_lo : loHalf (aVV (V2 m ρ) c) = Spec.coefL (v1 (aR (M0 m) c)) (pl (aWres3 (M0 m) c) 0) (gmM m c) := by
  funext a j; show aVV (V2 m ρ) c (ix2 a (Spec.lo j)) = _
  rw [e2_VV, arr11_lo0 (V1 m ρ) c a j, e1_Xr, e1_Xi, e1_Qr, e1_Qi, rcol_eq, wres_eq]
theorem VV_hi : hiHalf (aVV (V2 m ρ) c) = Spec.coefR (v1 (aR (M0 m) c)) (pl (aWl3 (M0 m) c) 0) (pl (aWres3 (M0 m) c) 0) (gmM m c) := by
  funext a j; show aVV (V2 m ρ) c (ix2 a (Spec.hi j)) = _
  rw [e2_VV, arr11_hi0 (V1 m ρ) c a j, e1_Xr, e1_Xi, e1_Qr, e1_Qi, rcol_eq, wres_eq, wl_eq]

theorem outR_eq : aOutR (V4 m ρ) c = ((dat1 (V2 m ρ) c).arrAt 11 cfg1.N : S2048x512.Idx → EReal) := W4_arr m ρ c 11
theorem outI_eq : aOutI (V4 m ρ) c = ((dat1 (V2 m ρ) c).arrAt 12 cfg1.N : S2048x512.Idx → EReal) := W4_arr m ρ c 12

theorem outR_lo (n : Fin 2048) (j : Fin 256) : aOutR (V4 m ρ) c (ix2 n (Spec.lo j))
    = Spec.kerRealL (m2 (aXr (M0 m) c)) (m2 (aXi (M0 m) c)) (m2 (aQr (M0 m) c)) (m2 (aQi (M0 m) c)) (v1 (aR (M0 m) c)) (pl (aWres3 (M0 m) c) 0)
        (m2 (aLr0 (M0 m) c)) (m2 (aLr1 (M0 m) c)) (m2 (aLi0 (M0 m) c)) (m2 (aLi1 (M0 m) c)) (pl (aW (M0 m) c) 0) (pl (aW (M0 m) c) 1) (row0 (aBias (M0 m) c)) n j := by
  rw [outR_eq, Second.arr11_lo (V2 m ρ) c n j, Spec.kerRealL_eq_r1, Z0_lo, Z0_hi, Z1_lo, Z1_hi, UU_lo, VV_lo, e2_Lr0, e2_Lr1, e2_Li0, e2_Li1, e2_Qr, e2_Qi, e2_Bias]
theorem outR_hi (n : Fin 2048) (j : Fin 256) : aOutR (V4 m ρ) c (ix2 n (Spec.hi j))
    = Spec.kerRealR (m2 (aXr (M0 m) c)) (m2 (aXi (M0 m) c)) (m2 (aQr (M0 m) c)) (m2 (aQi (M0 m) c)) (v1 (aR (M0 m) c)) (pl (aWl3 (M0 m) c) 0) (pl (aWres3 (M0 m) c) 0)
        (pl (aW (M0 m) c) 1) (row0 (aBias (M0 m) c)) n j := by
  rw [outR_eq, Second.arr11_hi (V2 m ρ) c n j, Spec.kerRealR_eq_r1, Z1_lo, UU_hi, VV_hi, e2_Qr, e2_Qi, e2_Bias]
theorem outI_lo (n : Fin 2048) (j : Fin 256) : aOutI (V4 m ρ) c (ix2 n (Spec.lo j))
    = Spec.kerImagL (m2 (aXr (M0 m) c)) (m2 (aXi (M0 m) c)) (m2 (aQr (M0 m) c)) (m2 (aQi (M0 m) c)) (v1 (aR (M0 m) c)) (pl (aWres3 (M0 m) c) 0)
        (m2 (aLr0 (M0 m) c)) (m2 (aLr1 (M0 m) c)) (m2 (aLi0 (M0 m) c)) (m2 (aLi1 (M0 m) c)) (pl (aW (M0 m) c) 0) (pl (aW (M0 m) c) 1) (row0 (aBias (M0 m) c)) n j := by
  rw [outI_eq, Second.arr12_lo (V2 m ρ) c n j, Spec.kerImagL_eq_r1, Z0_lo, Z0_hi, Z1_lo, Z1_hi, UU_lo, VV_lo, e2_Lr0, e2_Lr1, e2_Li0, e2_Li1, e2_Qr, e2_Qi, e2_Bias]
theorem outI_hi (n : Fin 2048) (j : Fin 256) : aOutI (V4 m ρ) c (ix2 n (Spec.hi j))
    = Spec.kerImagR (m2 (aXr (M0 m) c)) (m2 (aXi (M0 m) c)) (m2 (aQr (M0 m) c)) (m2 (aQi (M0 m) c)) (v1 (aR (M0 m) c)) (pl (aWl3 (M0 m) c) 0) (pl (aWres3 (M0 m) c) 0)
        (pl (aW (M0 m) c) 1) (row0 (aBias (M0 m) c)) n j := by
  rw [outI_eq, Second.arr12_hi (V2 m ρ) c n j, Spec.kerImagR_eq_r1, Z1_hi, UU_hi, VV_hi, e2_Qr, e2_Qi, e2_Bias]

end Cert.KernelIdeal.HandV

end
-- ==== Proof.RefTerm.lean ====
import proofs.«159171_g70626442215508_cont_9to1_m_806_14_alg».proof.ReferenceIdeal

noncomputable section

namespace Cert.ReferenceIdeal.RefTerm

open Idealize.ShloMosaic Idealize.SL.Sem Cert.ReferenceIdeal
open Facts₀ Facts

variable {F : FTy → Type} [FloatOps F] [Facts]

def rowIdx : IVec S128x128 32 := iotaInDim S128x128 32 0

def colIdx : IVec S128x128 32 := iotaInDim S128x128 32 1

def diagMask : IVec S128x128 1 :=
  cmpi .eq (addi rowIdx (broadcastInDim S128x128 ![] bcast_S_S128x128 (constantI S_ 32 0#32))) colIdx

def diagCol (T : FVec F S128 .f32) : FVec F S128x1 .f32 :=
  broadcastInDim S128x1 ![0] bcast_S128_S128x1_0
    (pad S128 ![0] ![0] ![0] T (constant S_ .f32 0x00000000#32 : FVec F S_ .f32) pads_S128_S128_000 h_S_)

def diagOf (T : FVec F S128 .f32) : FVec F S128x128 .f32 :=
  select diagMask
    (broadcastInDim S128x128 ![0, 1] bcast_S128x1_S128x128_0_1 (diagCol T))
    (broadcastInDim S128x128 ![] bcast_S_S128x128 (constant S_ .f32 0x00000000#32 : FVec F S_ .f32))

def scaledQ (q : FVec F S2048x128 .f32) (d : FVec F S128x128 .f32) : FVec F S2048x128 .f32 :=
  Host.dotGeneral dot_S2048x128_S128x128_S2048x128_1_0_0_1_n_n none q d

def qT (q : FVec F S2048x128 .f32) : FVec F S128x2048 .f32 :=
  transpose S128x2048 [1, 0] q transposes_S2048x128_S128x2048_1_0

def outer (a b : FVec F S2048x128 .f32) : FVec F S2048x2048 .f32 :=
  Host.dotGeneral dot_S2048x128_S128x2048_S2048x2048_1_0_0_1_n_n none a (qT b)

def filtR (qr qi : FVec F S2048x128 .f32) (d : FVec F S128x128 .f32) : FVec F S2048x2048 .f32 :=
  addf (outer (scaledQ qr d) qr) (outer (scaledQ qi d) qi)

def filtI (qr qi : FVec F S2048x128 .f32) (d : FVec F S128x128 .f32) : FVec F S2048x2048 .f32 :=
  subf (outer (scaledQ qi d) qr) (outer (scaledQ qr d) qi)

def proj256 (x : FVec F S2048x512 .f32) (w : FVec F S512x256 .f32) : FVec F S2048x256 .f32 :=
  Host.dotGeneral dot_S2048x512_S512x256_S2048x256_1_0_0_1_n_n none x w

def apply256 (l : FVec F S2048x2048 .f32) (y : FVec F S2048x256 .f32) : FVec F S2048x256 .f32 :=
  Host.dotGeneral dot_S2048x2048_S2048x256_S2048x256_1_0_0_1_n_n none l y

def procR256 (xr xi : FVec F S2048x512 .f32) (lr li : FVec F S2048x2048 .f32) (w : FVec F S512x256 .f32) :
    FVec F S2048x256 .f32 :=
  subf (apply256 lr (proj256 xr w)) (apply256 li (proj256 xi w))

def procI256 (xr xi : FVec F S2048x512 .f32) (lr li : FVec F S2048x2048 .f32) (w : FVec F S512x256 .f32) :
    FVec F S2048x256 .f32 :=
  addf (apply256 li (proj256 xr w)) (apply256 lr (proj256 xi w))

def proj512 (x : FVec F S2048x512 .f32) (w : FVec F S512x512 .f32) : FVec F S2048x512 .f32 :=
  Host.dotGeneral dot_S2048x512_S512x512_S2048x512_1_0_0_1_n_n none x w

def apply512 (l : FVec F S2048x2048 .f32) (y : FVec F S2048x512 .f32) : FVec F S2048x512 .f32 :=
  Host.dotGeneral dot_S2048x2048_S2048x512_S2048x512_1_0_0_1_n_n none l y

def procR512 (xr xi : FVec F S2048x512 .f32) (lr li : FVec F S2048x2048 .f32) (w : FVec F S512x512 .f32) :
    FVec F S2048x512 .f32 :=
  subf (apply512 lr (proj512 xr w)) (apply512 li (proj512 xi w))

def procI512 (xr xi : FVec F S2048x512 .f32) (lr li : FVec F S2048x2048 .f32) (w : FVec F S512x512 .f32) :
    FVec F S2048x512 .f32 :=
  addf (apply512 li (proj512 xr w)) (apply512 lr (proj512 xi w))

def w0 (a9 : FVec F S2x512x256 .f32) : FVec F S512x256 .f32 :=
  shapeCast S512x256 (extractStridedSlice S1x512x256 ![0, 0, 0] a9 slices_S2x512x256_S1x512x256_0_0_0)
    shapeCasts_S1x512x256_S512x256

def w1 (a9 : FVec F S2x512x256 .f32) : FVec F S512x256 .f32 :=
  shapeCast S512x256 (extractStridedSlice S1x512x256 ![1, 0, 0] a9 slices_S2x512x256_S1x512x256_1_0_0)
    shapeCasts_S1x512x256_S512x256

def wLong (a10 : FVec F S1x512x256 .f32) : FVec F S512x256 .f32 :=
  shapeCast S512x256 a10 shapeCasts_S1x512x256_S512x256

def wRes (a11 : FVec F S1x512x512 .f32) : FVec F S512x512 .f32 :=
  shapeCast S512x512 a11 shapeCasts_S1x512x512_S512x512

def wCat (a9 : FVec F S2x512x256 .f32) : FVec F S512x512 .f32 :=
  concatenate S512x512 1 [⟨S512x256, w0 a9⟩, ⟨S512x256, w1 a9⟩] concatenates_S512x256_S512x256_S512x512_d1

def stack256 (re im : FVec F S2048x256 .f32) : FVec F S2x2048x256 .f32 :=
  concatenate S2x2048x256 0
    [⟨S1x2048x256, broadcastInDim S1x2048x256 ![1, 2] bcast_S2048x256_S1x2048x256_1_2 re⟩,
     ⟨S1x2048x256, broadcastInDim S1x2048x256 ![1, 2] bcast_S2048x256_S1x2048x256_1_2 im⟩]
    concatenates_S1x2048x256_S1x2048x256_S2x2048x256_d0

def stack512 (re im : FVec F S2048x512 .f32) : FVec F S2x2048x512 .f32 :=
  concatenate S2x2048x512 0
    [⟨S1x2048x512, broadcastInDim S1x2048x512 ![1, 2] bcast_S2048x512_S1x2048x512_1_2 re⟩,
     ⟨S1x2048x512, broadcastInDim S1x2048x512 ![1, 2] bcast_S2048x512_S1x2048x512_1_2 im⟩]
    concatenates_S1x2048x512_S1x2048x512_S2x2048x512_d0

def plane0 (x : FVec F S2x2048x512 .f32) : FVec F S2048x512 .f32 :=
  shapeCast S2048x512 (extractStridedSlice S1x2048x512 ![0, 0, 0] x slices_S2x2048x512_S1x2048x512_0_0_0)
    shapeCasts_S1x2048x512_S2048x512

def plane1 (x : FVec F S2x2048x512 .f32) : FVec F S2048x512 .f32 :=
  shapeCast S2048x512 (extractStridedSlice S1x2048x512 ![1, 0, 0] x slices_S2x2048x512_S1x2048x512_1_0_0)
    shapeCasts_S1x2048x512_S2048x512

def shortBranch (a0 a1 : FVec F S2048x512 .f32) (a2 a3 a4 a5 : FVec F S2048x2048 .f32) (a9 : FVec F S2x512x256 .f32) :
    FVec F S2x2048x256 .f32 :=
  addf (stack256 (procR256 a0 a1 a2 a4 (w0 a9)) (procI256 a0 a1 a2 a4 (w0 a9)))
    (stack256 (procR256 a0 a1 a3 a5 (w1 a9)) (procI256 a0 a1 a3 a5 (w1 a9)))

def longBranch (a0 a1 : FVec F S2048x512 .f32) (a6 : FVec F S128 .f32) (a7 a8 : FVec F S2048x128 .f32)
    (a10 : FVec F S1x512x256 .f32) : FVec F S2x2048x256 .f32 :=
  shapeCast S2x2048x256
    (broadcastInDim S1x2x2048x256 ![1, 2, 3] bcast_S2x2048x256_S1x2x2048x256_1_2_3
      (stack256
        (procR256 a0 a1 (filtR a7 a8 (diagOf (mulf a6 a6))) (filtI a7 a8 (diagOf (mulf a6 a6))) (wLong a10))
        (procI256 a0 a1 (filtR a7 a8 (diagOf (mulf a6 a6))) (filtI a7 a8 (diagOf (mulf a6 a6))) (wLong a10))))
    shapeCasts_S1x2x2048x256_S2x2048x256

def mixed (a0 a1 : FVec F S2048x512 .f32) (a2 a3 a4 a5 : FVec F S2048x2048 .f32) (a6 : FVec F S128 .f32)
    (a7 a8 : FVec F S2048x128 .f32) (a9 : FVec F S2x512x256 .f32) (a10 : FVec F S1x512x256 .f32) :
    FVec F S2x2048x512 .f32 :=
  concatenate S2x2048x512 2
    [⟨S2x2048x256, shortBranch a0 a1 a2 a3 a4 a5 a9⟩, ⟨S2x2048x256, longBranch a0 a1 a6 a7 a8 a10⟩]
    concatenates_S2x2048x256_S2x2048x256_S2x2048x512_d2

def resid (a0 a1 : FVec F S2048x512 .f32) (a6 : FVec F S128 .f32) (a7 a8 : FVec F S2048x128 .f32)
    (a11 : FVec F S1x512x512 .f32) : FVec F S2x2048x512 .f32 :=
  Host.divf
    (Host.reduceAdd
      (broadcastInDim S1x2x2048x512 ![1, 2, 3] bcast_S2x2048x512_S1x2x2048x512_1_2_3
        (stack512
          (procR512 a0 a1 (filtR a7 a8 (diagOf a6)) (filtI a7 a8 (diagOf a6)) (wRes a11))
          (procI512 a0 a1 (filtR a7 a8 (diagOf a6)) (filtI a7 a8 (diagOf a6)) (wRes a11))))
      (constant S_ .f32 0x00000000#32 : FVec F S_ .f32) reducesTo_S1x2x2048x512_S2x2048x512_d0 h_S_)
    (broadcastInDim S2x2048x512 ![] bcast_S_S2x2048x512 (constant S_ .f32 0x3F800000#32 : FVec F S_ .f32))

def biasRows (a12 : FVec F S1x512 .f32) : FVec F S2048x512 .f32 :=
  broadcastInDim S2048x512 ![0, 1] bcast_S1x512_S2048x512_0_1 a12

def outReal (a0 a1 : FVec F S2048x512 .f32) (a2 a3 a4 a5 : FVec F S2048x2048 .f32) (a6 : FVec F S128 .f32)
    (a7 a8 : FVec F S2048x128 .f32) (a9 : FVec F S2x512x256 .f32) (a10 : FVec F S1x512x256 .f32)
    (a11 : FVec F S1x512x512 .f32) (a12 : FVec F S1x512 .f32) : FVec F S2048x512 .f32 :=
  addf
    (addf (addf (plane0 (mixed a0 a1 a2 a3 a4 a5 a6 a7 a8 a9 a10)) (proj512 a0 (wCat a9)))
      (plane0 (resid a0 a1 a6 a7 a8 a11)))
    (biasRows a12)

def outImag (a0 a1 : FVec F S2048x512 .f32) (a2 a3 a4 a5 : FVec F S2048x2048 .f32) (a6 : FVec F S128 .f32)
    (a7 a8 : FVec F S2048x128 .f32) (a9 : FVec F S2x512x256 .f32) (a10 : FVec F S1x512x256 .f32)
    (a11 : FVec F S1x512x512 .f32) (a12 : FVec F S1x512 .f32) : FVec F S2048x512 .f32 :=
  addf
    (addf (addf (plane1 (mixed a0 a1 a2 a3 a4 a5 a6 a7 a8 a9 a10)) (proj512 a1 (wCat a9)))
      (plane1 (resid a0 a1 a6 a7 a8 a11)))
    (biasRows a12)

end Cert.ReferenceIdeal.RefTerm

end
-- ==== Proof.RefRun.lean ====
import proofs.«159171_g70626442215508_cont_9to1_m_806_14_alg».proof.Proof.RefTerm
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Facts₀ Facts

abbrev Arr (F : FTy → Type) (S : Shape) : Type := (⟨S, .f32⟩ : BufTy).Contents (Elt F)

variable {F : FTy → Type} [FloatOps F] [Facts]

abbrev mulR : List (HloOp τ sig (Elt F)) :=
  [ binary main_arg6 main_arg6 main_v0 (mulf : Arr F S128 → Arr F S128 → Arr F S128) ]

abbrev diagA : List (HloOp τ sig (Elt F)) :=
  [ TRef.nullary main_call0.cst (constant S_ .f32 0x00000000#32),
    TRef.binary (.of main_v0) main_call0.cst main_call0.v0 (fun x v => pad S128 ![0] ![0] ![0] x v pads_S128_S128_000 h_S_),
    TRef.nullary main_call0.v1 (iotaInDim S128x128 32 0),
    TRef.nullary main_call0.v2 (iotaInDim S128x128 32 1),
    TRef.nullary main_call0.c (constantI S_ 32 0#32),
    TRef.unary main_call0.c main_call0.v3 (broadcastInDim S128x128 ![] bcast_S_S128x128),
    TRef.binary main_call0.v1 main_call0.v3 main_call0.v4 addi,
    TRef.binary main_call0.v4 main_call0.v2 main_call0.v5 (cmpi .eq),
    TRef.unary main_call0.v0 main_call0.v6 (broadcastInDim S128x1 ![0] bcast_S128_S128x1_0),
    TRef.nullary main_call0.cst_0 (constant S_ .f32 0x00000000#32),
    TRef.unary main_call0.v6 main_call0.call0.v0 (broadcastInDim S128x128 ![0, 1] bcast_S128x1_S128x128_0_1),
    TRef.unary main_call0.cst_0 main_call0.call0.v1 (broadcastInDim S128x128 ![] bcast_S_S128x128),
    TRef.ternary main_call0.v5 main_call0.call0.v0 main_call0.call0.v1 main_call0.call0.v2 select ]

abbrev filtA : List (HloOp τ sig (Elt F)) :=
  [ binary main_arg7 main_v1 main_v2 ((fun l r => Host.dotGeneral dot_S2048x128_S128x128_S2048x128_1_0_0_1_n_n none l r) : Arr F S2048x128 → Arr F S128x128 → Arr F S2048x128),
    binary main_arg8 main_v1 main_v3 ((fun l r => Host.dotGeneral dot_S2048x128_S128x128_S2048x128_1_0_0_1_n_n none l r) : Arr F S2048x128 → Arr F S128x128 → Arr F S2048x128),
    unary main_arg7 main_v4 ((transpose S128x2048 [1, 0] · transposes_S2048x128_S128x2048_1_0) : Arr F S2048x128 → Arr F S128x2048),
    binary main_v2 main_v4 main_v5 ((fun l r => Host.dotGeneral dot_S2048x128_S128x2048_S2048x2048_1_0_0_1_n_n none l r) : Arr F S2048x128 → Arr F S128x2048 → Arr F S2048x2048),
    unary main_arg8 main_v6 ((transpose S128x2048 [1, 0] · transposes_S2048x128_S128x2048_1_0) : Arr F S2048x128 → Arr F S128x2048),
    binary main_v3 main_v6 main_v7 ((fun l r => Host.dotGeneral dot_S2048x128_S128x2048_S2048x2048_1_0_0_1_n_n none l r) : Arr F S2048x128 → Arr F S128x2048 → Arr F S2048x2048),
    binary main_v5 main_v7 main_v8 (addf : Arr F S2048x2048 → Arr F S2048x2048 → Arr F S2048x2048),
    unary main_arg7 main_v9 ((transpose S128x2048 [1, 0] · transposes_S2048x128_S128x2048_1_0) : Arr F S2048x128 → Arr F S128x2048),
    binary main_v3 main_v9 main_v10 ((fun l r => Host.dotGeneral dot_S2048x128_S128x2048_S2048x2048_1_0_0_1_n_n none l r) : Arr F S2048x128 → Arr F S128x2048 → Arr F S2048x2048),
    unary main_arg8 main_v11 ((transpose S128x2048 [1, 0] · transposes_S2048x128_S128x2048_1_0) : Arr F S2048x128 → Arr F S128x2048),
    binary main_v2 main_v11 main_v12 ((fun l r => Host.dotGeneral dot_S2048x128_S128x2048_S2048x2048_1_0_0_1_n_n none l r) : Arr F S2048x128 → Arr F S128x2048 → Arr F S2048x2048),
    binary main_v10 main_v12 main_v13 (subf : Arr F S2048x2048 → Arr F S2048x2048 → Arr F S2048x2048) ]

abbrev diagB : List (HloOp τ sig (Elt F)) :=
  [ TRef.nullary main_call1.cst (constant S_ .f32 0x00000000#32),
    TRef.binary (.of main_arg6) main_call1.cst main_call1.v0 (fun x v => pad S128 ![0] ![0] ![0] x v pads_S128_S128_000 h_S_),
    TRef.nullary main_call1.v1 (iotaInDim S128x128 32 0),
    TRef.nullary main_call1.v2 (iotaInDim S128x128 32 1),
    TRef.nullary main_call1.c (constantI S_ 32 0#32),
    TRef.unary main_call1.c main_call1.v3 (broadcastInDim S128x128 ![] bcast_S_S128x128),
    TRef.binary main_call1.v1 main_call1.v3 main_call1.v4 addi,
    TRef.binary main_call1.v4 main_call1.v2 main_call1.v5 (cmpi .eq),
    TRef.unary main_call1.v0 main_call1.v6 (broadcastInDim S128x1 ![0] bcast_S128_S128x1_0),
    TRef.nullary main_call1.cst_0 (constant S_ .f32 0x00000000#32),
    TRef.unary main_call1.v6 main_call1.call0.v0 (broadcastInDim S128x128 ![0, 1] bcast_S128x1_S128x128_0_1),
    TRef.unary main_call1.cst_0 main_call1.call0.v1 (broadcastInDim S128x128 ![] bcast_S_S128x128),
    TRef.ternary main_call1.v5 main_call1.call0.v0 main_call1.call0.v1 main_call1.call0.v2 select ]

abbrev filtB : List (HloOp τ sig (Elt F)) :=
  [ binary main_arg7 main_v14 main_v15 ((fun l r => Host.dotGeneral dot_S2048x128_S128x128_S2048x128_1_0_0_1_n_n none l r) : Arr F S2048x128 → Arr F S128x128 → Arr F S2048x128),
    binary main_arg8 main_v14 main_v16 ((fun l r => Host.dotGeneral dot_S2048x128_S128x128_S2048x128_1_0_0_1_n_n none l r) : Arr F S2048x128 → Arr F S128x128 → Arr F S2048x128),
    unary main_arg7 main_v17 ((transpose S128x2048 [1, 0] · transposes_S2048x128_S128x2048_1_0) : Arr F S2048x128 → Arr F S128x2048),
    binary main_v15 main_v17 main_v18 ((fun l r => Host.dotGeneral dot_S2048x128_S128x2048_S2048x2048_1_0_0_1_n_n none l r) : Arr F S2048x128 → Arr F S128x2048 → Arr F S2048x2048),
    unary main_arg8 main_v19 ((transpose S128x2048 [1, 0] · transposes_S2048x128_S128x2048_1_0) : Arr F S2048x128 → Arr F S128x2048),
    binary main_v16 main_v19 main_v20 ((fun l r => Host.dotGeneral dot_S2048x128_S128x2048_S2048x2048_1_0_0_1_n_n none l r) : Arr F S2048x128 → Arr F S128x2048 → Arr F S2048x2048),
    binary main_v18 main_v20 main_v21 (addf : Arr F S2048x2048 → Arr F S2048x2048 → Arr F S2048x2048),
    unary main_arg7 main_v22 ((transpose S128x2048 [1, 0] · transposes_S2048x128_S128x2048_1_0) : Arr F S2048x128 → Arr F S128x2048),
    binary main_v16 main_v22 main_v23 ((fun l r => Host.dotGeneral dot_S2048x128_S128x2048_S2048x2048_1_0_0_1_n_n none l r) : Arr F S2048x128 → Arr F S128x2048 → Arr F S2048x2048),
    unary main_arg8 main_v24 ((transpose S128x2048 [1, 0] · transposes_S2048x128_S128x2048_1_0) : Arr F S2048x128 → Arr F S128x2048),
    binary main_v15 main_v24 main_v25 ((fun l r => Host.dotGeneral dot_S2048x128_S128x2048_S2048x2048_1_0_0_1_n_n none l r) : Arr F S2048x128 → Arr F S128x2048 → Arr F S2048x2048),
    binary main_v23 main_v25 main_v26 (subf : Arr F S2048x2048 → Arr F S2048x2048 → Arr F S2048x2048) ]

abbrev shortA : List (HloOp τ sig (Elt F)) :=
  [ unary main_arg9 main_v27 ((extractStridedSlice S1x512x256 ![0, 0, 0] · slices_S2x512x256_S1x512x256_0_0_0) : Arr F S2x512x256 → Arr F S1x512x256),
    reshape main_v27 main_v28 rfl shapeCasts_S1x512x256_S512x256,
    binary main_arg0 main_v28 main_v29 ((fun l r => Host.dotGeneral dot_S2048x512_S512x256_S2048x256_1_0_0_1_n_n none l r) : Arr F S2048x512 → Arr F S512x256 → Arr F S2048x256),
    binary main_arg1 main_v28 main_v30 ((fun l r => Host.dotGeneral dot_S2048x512_S512x256_S2048x256_1_0_0_1_n_n none l r) : Arr F S2048x512 → Arr F S512x256 → Arr F S2048x256),
    binary main_arg2 main_v29 main_v31 ((fun l r => Host.dotGeneral dot_S2048x2048_S2048x256_S2048x256_1_0_0_1_n_n none l r) : Arr F S2048x2048 → Arr F S2048x256 → Arr F S2048x256),
    binary main_arg4 main_v30 main_v32 ((fun l r => Host.dotGeneral dot_S2048x2048_S2048x256_S2048x256_1_0_0_1_n_n none l r) : Arr F S2048x2048 → Arr F S2048x256 → Arr F S2048x256),
    binary main_arg4 main_v29 main_v33 ((fun l r => Host.dotGeneral dot_S2048x2048_S2048x256_S2048x256_1_0_0_1_n_n none l r) : Arr F S2048x2048 → Arr F S2048x256 → Arr F S2048x256),
    binary main_arg2 main_v30 main_v34 ((fun l r => Host.dotGeneral dot_S2048x2048_S2048x256_S2048x256_1_0_0_1_n_n none l r) : Arr F S2048x2048 → Arr F S2048x256 → Arr F S2048x256),
    binary main_v31 main_v32 main_v35 (subf : Arr F S2048x256 → Arr F S2048x256 → Arr F S2048x256),
    binary main_v33 main_v34 main_v36 (addf : Arr F S2048x256 → Arr F S2048x256 → Arr F S2048x256),
    unary main_v35 main_v37 (broadcastInDim S1x2048x256 ![1, 2] bcast_S2048x256_S1x2048x256_1_2 : Arr F S2048x256 → Arr F S1x2048x256),
    unary main_v36 main_v38 (broadcastInDim S1x2048x256 ![1, 2] bcast_S2048x256_S1x2048x256_1_2 : Arr F S2048x256 → Arr F S1x2048x256),
    binary main_v37 main_v38 main_v39 ((fun a b => concatenate S2x2048x256 0 [⟨S1x2048x256, a⟩, ⟨S1x2048x256, b⟩] concatenates_S1x2048x256_S1x2048x256_S2x2048x256_d0) : Arr F S1x2048x256 → Arr F S1x2048x256 → Arr F S2x2048x256) ]

abbrev shortB : List (HloOp τ sig (Elt F)) :=
  [ unary main_arg9 main_v40 ((extractStridedSlice S1x512x256 ![1, 0, 0] · slices_S2x512x256_S1x512x256_1_0_0) : Arr F S2x512x256 → Arr F S1x512x256),
    reshape main_v40 main_v41 rfl shapeCasts_S1x512x256_S512x256,
    binary main_arg0 main_v41 main_v42 ((fun l r => Host.dotGeneral dot_S2048x512_S512x256_S2048x256_1_0_0_1_n_n none l r) : Arr F S2048x512 → Arr F S512x256 → Arr F S2048x256),
    binary main_arg1 main_v41 main_v43 ((fun l r => Host.dotGeneral dot_S2048x512_S512x256_S2048x256_1_0_0_1_n_n none l r) : Arr F S2048x512 → Arr F S512x256 → Arr F S2048x256),
    binary main_arg3 main_v42 main_v44 ((fun l r => Host.dotGeneral dot_S2048x2048_S2048x256_S2048x256_1_0_0_1_n_n none l r) : Arr F S2048x2048 → Arr F S2048x256 → Arr F S2048x256),
    binary main_arg5 main_v43 main_v45 ((fun l r => Host.dotGeneral dot_S2048x2048_S2048x256_S2048x256_1_0_0_1_n_n none l r) : Arr F S2048x2048 → Arr F S2048x256 → Arr F S2048x256),
    binary main_arg5 main_v42 main_v46 ((fun l r => Host.dotGeneral dot_S2048x2048_S2048x256_S2048x256_1_0_0_1_n_n none l r) : Arr F S2048x2048 → Arr F S2048x256 → Arr F S2048x256),
    binary main_arg3 main_v43 main_v47 ((fun l r => Host.dotGeneral dot_S2048x2048_S2048x256_S2048x256_1_0_0_1_n_n none l r) : Arr F S2048x2048 → Arr F S2048x256 → Arr F S2048x256),
    binary main_v44 main_v45 main_v48 (subf : Arr F S2048x256 → Arr F S2048x256 → Arr F S2048x256),
    binary main_v46 main_v47 main_v49 (addf : Arr F S2048x256 → Arr F S2048x256 → Arr F S2048x256),
    unary main_v48 main_v50 (broadcastInDim S1x2048x256 ![1, 2] bcast_S2048x256_S1x2048x256_1_2 : Arr F S2048x256 → Arr F S1x2048x256),
    unary main_v49 main_v51 (broadcastInDim S1x2048x256 ![1, 2] bcast_S2048x256_S1x2048x256_1_2 : Arr F S2048x256 → Arr F S1x2048x256),
    binary main_v50 main_v51 main_v52 ((fun a b => concatenate S2x2048x256 0 [⟨S1x2048x256, a⟩, ⟨S1x2048x256, b⟩] concatenates_S1x2048x256_S1x2048x256_S2x2048x256_d0) : Arr F S1x2048x256 → Arr F S1x2048x256 → Arr F S2x2048x256) ]

abbrev shortSum : List (HloOp τ sig (Elt F)) :=
  [ binary main_v39 main_v52 main_v53 (addf : Arr F S2x2048x256 → Arr F S2x2048x256 → Arr F S2x2048x256) ]

abbrev longHead : List (HloOp τ sig (Elt F)) :=
  [ reshape main_arg10 main_v54 rfl shapeCasts_S1x512x256_S512x256,
    binary main_arg0 main_v54 main_v55 ((fun l r => Host.dotGeneral dot_S2048x512_S512x256_S2048x256_1_0_0_1_n_n none l r) : Arr F S2048x512 → Arr F S512x256 → Arr F S2048x256),
    binary main_arg1 main_v54 main_v56 ((fun l r => Host.dotGeneral dot_S2048x512_S512x256_S2048x256_1_0_0_1_n_n none l r) : Arr F S2048x512 → Arr F S512x256 → Arr F S2048x256),
    binary main_v8 main_v55 main_v57 ((fun l r => Host.dotGeneral dot_S2048x2048_S2048x256_S2048x256_1_0_0_1_n_n none l r) : Arr F S2048x2048 → Arr F S2048x256 → Arr F S2048x256),
    binary main_v13 main_v56 main_v58 ((fun l r => Host.dotGeneral dot_S2048x2048_S2048x256_S2048x256_1_0_0_1_n_n none l r) : Arr F S2048x2048 → Arr F S2048x256 → Arr F S2048x256),
    binary main_v13 main_v55 main_v59 ((fun l r => Host.dotGeneral dot_S2048x2048_S2048x256_S2048x256_1_0_0_1_n_n none l r) : Arr F S2048x2048 → Arr F S2048x256 → Arr F S2048x256) ]

abbrev longTail : List (HloOp τ sig (Elt F)) :=
  [ binary main_v8 main_v56 main_v60 ((fun l r => Host.dotGeneral dot_S2048x2048_S2048x256_S2048x256_1_0_0_1_n_n none l r) : Arr F S2048x2048 → Arr F S2048x256 → Arr F S2048x256),
    binary main_v57 main_v58 main_v61 (subf : Arr F S2048x256 → Arr F S2048x256 → Arr F S2048x256),
    binary main_v59 main_v60 main_v62 (addf : Arr F S2048x256 → Arr F S2048x256 → Arr F S2048x256),
    unary main_v61 main_v63 (broadcastInDim S1x2048x256 ![1, 2] bcast_S2048x256_S1x2048x256_1_2 : Arr F S2048x256 → Arr F S1x2048x256),
    unary main_v62 main_v64 (broadcastInDim S1x2048x256 ![1, 2] bcast_S2048x256_S1x2048x256_1_2 : Arr F S2048x256 → Arr F S1x2048x256),
    binary main_v63 main_v64 main_v65 ((fun a b => concatenate S2x2048x256 0 [⟨S1x2048x256, a⟩, ⟨S1x2048x256, b⟩] concatenates_S1x2048x256_S1x2048x256_S2x2048x256_d0) : Arr F S1x2048x256 → Arr F S1x2048x256 → Arr F S2x2048x256),
    unary main_v65 main_v66 (broadcastInDim S1x2x2048x256 ![1, 2, 3] bcast_S2x2048x256_S1x2x2048x256_1_2_3 : Arr F S2x2048x256 → Arr F S1x2x2048x256),
    reshape main_v66 main_v67 rfl shapeCasts_S1x2x2048x256_S2x2048x256 ]

abbrev mix : List (HloOp τ sig (Elt F)) :=
  [ binary main_v53 main_v67 main_v68 ((fun a b => concatenate S2x2048x512 2 [⟨S2x2048x256, a⟩, ⟨S2x2048x256, b⟩] concatenates_S2x2048x256_S2x2048x256_S2x2048x512_d2) : Arr F S2x2048x256 → Arr F S2x2048x256 → Arr F S2x2048x512) ]

abbrev res : List (HloOp τ sig (Elt F)) :=
  [ reshape main_arg11 main_v69 rfl shapeCasts_S1x512x512_S512x512,
    binary main_arg0 main_v69 main_v70 ((fun l r => Host.dotGeneral dot_S2048x512_S512x512_S2048x512_1_0_0_1_n_n none l r) : Arr F S2048x512 → Arr F S512x512 → Arr F S2048x512),
    binary main_arg1 main_v69 main_v71 ((fun l r => Host.dotGeneral dot_S2048x512_S512x512_S2048x512_1_0_0_1_n_n none l r) : Arr F S2048x512 → Arr F S512x512 → Arr F S2048x512),
    binary main_v21 main_v70 main_v72 ((fun l r => Host.dotGeneral dot_S2048x2048_S2048x512_S2048x512_1_0_0_1_n_n none l r) : Arr F S2048x2048 → Arr F S2048x512 → Arr F S2048x512),
    binary main_v26 main_v71 main_v73 ((fun l r => Host.dotGeneral dot_S2048x2048_S2048x512_S2048x512_1_0_0_1_n_n none l r) : Arr F S2048x2048 → Arr F S2048x512 → Arr F S2048x512),
    binary main_v26 main_v70 main_v74 ((fun l r => Host.dotGeneral dot_S2048x2048_S2048x512_S2048x512_1_0_0_1_n_n none l r) : Arr F S2048x2048 → Arr F S2048x512 → Arr F S2048x512),
    binary main_v21 main_v71 main_v75 ((fun l r => Host.dotGeneral dot_S2048x2048_S2048x512_S2048x512_1_0_0_1_n_n none l r) : Arr F S2048x2048 → Arr F S2048x512 → Arr F S2048x512),
    binary main_v72 main_v73 main_v76 (subf : Arr F S2048x512 → Arr F S2048x512 → Arr F S2048x512),
    binary main_v74 main_v75 main_v77 (addf : Arr F S2048x512 → Arr F S2048x512 → Arr F S2048x512),
    unary main_v76 main_v78 (broadcastInDim S1x2048x512 ![1, 2] bcast_S2048x512_S1x2048x512_1_2 : Arr F S2048x512 → Arr F S1x2048x512),
    unary main_v77 main_v79 (broadcastInDim S1x2048x512 ![1, 2] bcast_S2048x512_S1x2048x512_1_2 : Arr F S2048x512 → Arr F S1x2048x512),
    binary main_v78 main_v79 main_v80 ((fun a b => concatenate S2x2048x512 0 [⟨S1x2048x512, a⟩, ⟨S1x2048x512, b⟩] concatenates_S1x2048x512_S1x2048x512_S2x2048x512_d0) : Arr F S1x2048x512 → Arr F S1x2048x512 → Arr F S2x2048x512),
    unary main_v80 main_v81 (broadcastInDim S1x2x2048x512 ![1, 2, 3] bcast_S2x2048x512_S1x2x2048x512_1_2_3 : Arr F S2x2048x512 → Arr F S1x2x2048x512),
    nullary main_cst (constant S_ .f32 0x00000000#32),
    binary main_v81 main_cst main_v82 ((fun x v => Host.reduceAdd x v reducesTo_S1x2x2048x512_S2x2048x512_d0 h_S_) : Arr F S1x2x2048x512 → Arr F S_ → Arr F S2x2048x512),
    nullary main_cst_0 (constant S_ .f32 0x3F800000#32),
    unary main_cst_0 main_v83 (broadcastInDim S2x2048x512 ![] bcast_S_S2x2048x512 : Arr F S_ → Arr F S2x2048x512),
    binary main_v82 main_v83 main_v84 (Host.divf : Arr F S2x2048x512 → Arr F S2x2048x512 → Arr F S2x2048x512) ]

abbrev tail : List (HloOp τ sig (Elt F)) :=
  [ unary main_arg9 main_v85 ((extractStridedSlice S1x512x256 ![0, 0, 0] · slices_S2x512x256_S1x512x256_0_0_0) : Arr F S2x512x256 → Arr F S1x512x256),
    reshape main_v85 main_v86 rfl shapeCasts_S1x512x256_S512x256,
    unary main_arg9 main_v87 ((extractStridedSlice S1x512x256 ![1, 0, 0] · slices_S2x512x256_S1x512x256_1_0_0) : Arr F S2x512x256 → Arr F S1x512x256),
    reshape main_v87 main_v88 rfl shapeCasts_S1x512x256_S512x256,
    binary main_v86 main_v88 main_v89 ((fun a b => concatenate S512x512 1 [⟨S512x256, a⟩, ⟨S512x256, b⟩] concatenates_S512x256_S512x256_S512x512_d1) : Arr F S512x256 → Arr F S512x256 → Arr F S512x512),
    unary main_v68 main_v90 ((extractStridedSlice S1x2048x512 ![0, 0, 0] · slices_S2x2048x512_S1x2048x512_0_0_0) : Arr F S2x2048x512 → Arr F S1x2048x512),
    reshape main_v90 main_v91 rfl shapeCasts_S1x2048x512_S2048x512,
    binary main_arg0 main_v89 main_v92 ((fun l r => Host.dotGeneral dot_S2048x512_S512x512_S2048x512_1_0_0_1_n_n none l r) : Arr F S2048x512 → Arr F S512x512 → Arr F S2048x512),
    binary main_v91 main_v92 main_v93 (addf : Arr F S2048x512 → Arr F S2048x512 → Arr F S2048x512),
    unary main_v84 main_v94 ((extractStridedSlice S1x2048x512 ![0, 0, 0] · slices_S2x2048x512_S1x2048x512_0_0_0) : Arr F S2x2048x512 → Arr F S1x2048x512),
    reshape main_v94 main_v95 rfl shapeCasts_S1x2048x512_S2048x512,
    binary main_v93 main_v95 main_v96 (addf : Arr F S2048x512 → Arr F S2048x512 → Arr F S2048x512),
    unary main_v68 main_v97 ((extractStridedSlice S1x2048x512 ![1, 0, 0] · slices_S2x2048x512_S1x2048x512_1_0_0) : Arr F S2x2048x512 → Arr F S1x2048x512),
    reshape main_v97 main_v98 rfl shapeCasts_S1x2048x512_S2048x512,
    binary main_arg1 main_v89 main_v99 ((fun l r => Host.dotGeneral dot_S2048x512_S512x512_S2048x512_1_0_0_1_n_n none l r) : Arr F S2048x512 → Arr F S512x512 → Arr F S2048x512),
    binary main_v98 main_v99 main_v100 (addf : Arr F S2048x512 → Arr F S2048x512 → Arr F S2048x512),
    unary main_v84 main_v101 ((extractStridedSlice S1x2048x512 ![1, 0, 0] · slices_S2x2048x512_S1x2048x512_1_0_0) : Arr F S2x2048x512 → Arr F S1x2048x512),
    reshape main_v101 main_v102 rfl shapeCasts_S1x2048x512_S2048x512,
    binary main_v100 main_v102 main_v103 (addf : Arr F S2048x512 → Arr F S2048x512 → Arr F S2048x512),
    unary main_arg12 main_v104 (broadcastInDim S2048x512 ![0, 1] bcast_S1x512_S2048x512_0_1 : Arr F S1x512 → Arr F S2048x512),
    binary main_v96 main_v104 main_v105 (addf : Arr F S2048x512 → Arr F S2048x512 → Arr F S2048x512),
    unary main_arg12 main_v106 (broadcastInDim S2048x512 ![0, 1] bcast_S1x512_S2048x512_0_1 : Arr F S1x512 → Arr F S2048x512),
    binary main_v103 main_v106 main_v107 (addf : Arr F S2048x512 → Arr F S2048x512 → Arr F S2048x512) ]

abbrev ops0 : List (HloOp τ sig (Elt F)) := mulR ++ (diagA ++ (filtA ++ (diagB ++ (filtB ++ (shortA ++ (shortB ++ (shortSum ++ longHead)))))))

abbrev ops1 : List (HloOp τ sig (Elt F)) := longTail ++ (mix ++ (res ++ tail))

abbrev ops : List (HloOp τ sig (Elt F)) := ops0 ++ ops1

set_option maxRecDepth 4096 in
set_option maxHeartbeats 4000000 in

theorem part0_eq (c : Dev nD) : main_part0 (F := F) c = seq ops0 := by
  simp only [main_part0, fn_diag.body, fn_where.body, bind_assoc, pure_bind]
  rfl

set_option maxRecDepth 4096 in
set_option maxHeartbeats 4000000 in

theorem part1_eq (c : Dev nD) : main_part1 (F := F) c = seq ops1 := by
  rfl

theorem main_eq (c : Dev nD) : main (F := F) c = seq ops := by
  show (main_part0 (F := F) c >>= fun _ => main_part1 (F := F) c) = seq (ops0 ++ ops1)
  rw [seq_append, part0_eq, part1_eq]

theorem scopedRefs_eq : (Finset.univ.filter fun b : Ref sig .tc => b.isScoped) = ∅ := by decide

theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., binary_bufs_sub .., nullary_bufs_sub .., nullary_bufs_sub ..,
    nullary_bufs_sub .., unary_bufs_sub .., binary_bufs_sub .., binary_bufs_sub .., unary_bufs_sub ..,
    nullary_bufs_sub .., unary_bufs_sub .., unary_bufs_sub .., ternary_bufs_sub .., binary_bufs_sub ..,
    binary_bufs_sub .., unary_bufs_sub .., binary_bufs_sub .., unary_bufs_sub .., binary_bufs_sub ..,
    binary_bufs_sub .., unary_bufs_sub .., binary_bufs_sub .., unary_bufs_sub .., binary_bufs_sub ..,
    binary_bufs_sub .., nullary_bufs_sub .., binary_bufs_sub .., nullary_bufs_sub .., nullary_bufs_sub ..,
    nullary_bufs_sub .., unary_bufs_sub .., binary_bufs_sub .., binary_bufs_sub .., unary_bufs_sub ..,
    nullary_bufs_sub .., unary_bufs_sub .., unary_bufs_sub .., ternary_bufs_sub .., binary_bufs_sub ..,
    binary_bufs_sub .., unary_bufs_sub .., binary_bufs_sub .., unary_bufs_sub .., binary_bufs_sub ..,
    binary_bufs_sub .., unary_bufs_sub .., binary_bufs_sub .., unary_bufs_sub .., binary_bufs_sub ..,
    binary_bufs_sub .., unary_bufs_sub .., reshape_bufs_sub .., binary_bufs_sub .., binary_bufs_sub ..,
    binary_bufs_sub .., binary_bufs_sub .., binary_bufs_sub .., binary_bufs_sub .., binary_bufs_sub ..,
    binary_bufs_sub .., unary_bufs_sub .., unary_bufs_sub .., binary_bufs_sub .., unary_bufs_sub ..,
    reshape_bufs_sub .., binary_bufs_sub .., binary_bufs_sub .., binary_bufs_sub .., binary_bufs_sub ..,
    binary_bufs_sub .., binary_bufs_sub .., binary_bufs_sub .., binary_bufs_sub .., unary_bufs_sub ..,
    unary_bufs_sub .., binary_bufs_sub .., binary_bufs_sub .., reshape_bufs_sub .., binary_bufs_sub ..,
    binary_bufs_sub .., binary_bufs_sub .., binary_bufs_sub .., binary_bufs_sub .., binary_bufs_sub ..,
    binary_bufs_sub .., binary_bufs_sub .., unary_bufs_sub .., unary_bufs_sub .., binary_bufs_sub ..,
    unary_bufs_sub .., reshape_bufs_sub .., binary_bufs_sub .., reshape_bufs_sub .., binary_bufs_sub ..,
    binary_bufs_sub .., binary_bufs_sub .., binary_bufs_sub .., binary_bufs_sub .., binary_bufs_sub ..,
    binary_bufs_sub .., binary_bufs_sub .., unary_bufs_sub .., unary_bufs_sub .., binary_bufs_sub ..,
    unary_bufs_sub .., nullary_bufs_sub .., binary_bufs_sub .., nullary_bufs_sub .., unary_bufs_sub ..,
    binary_bufs_sub .., unary_bufs_sub .., reshape_bufs_sub .., unary_bufs_sub .., reshape_bufs_sub ..,
    binary_bufs_sub .., unary_bufs_sub .., reshape_bufs_sub .., binary_bufs_sub .., binary_bufs_sub ..,
    unary_bufs_sub .., reshape_bufs_sub .., binary_bufs_sub .., unary_bufs_sub .., reshape_bufs_sub ..,
    binary_bufs_sub .., binary_bufs_sub .., unary_bufs_sub .., reshape_bufs_sub .., binary_bufs_sub ..,
    unary_bufs_sub .., binary_bufs_sub .., unary_bufs_sub .., binary_bufs_sub ..⟩

theorem ops_fresh_all : (ops : List (HloOp τ sig (Elt F))).Forall fun op => op.fresh = ∅ := by
  repeat' apply And.intro
  all_goals rfl

theorem ops_fresh : ∀ op ∈ (ops : List (HloOp τ sig (Elt F))), op.fresh = ∅ :=
  List.forall_iff_forall_mem.1 ops_fresh_all

theorem after_append' (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

theorem writes_sub_of_mem {op : HloOp τ sig (Elt F)} {y : Ref sig .tc} {Wl : List (Ref sig .tc)}
    (h : op.writes = {Proc.devRef .tc y}) (hy : y ∈ Wl) :
    op.writes ⊆ (Wl.map (Proc.devRef (τ := τ) .tc)).toFinset := by
  rw [h]; exact Finset.singleton_subset_iff.mpr (List.mem_toFinset.mpr (List.mem_map.mpr ⟨y, hy, rfl⟩))

theorem mulR_frame (W : Valuation τ sig (Elt F)) {r : Ref sig .tc}
    (hr : r ∉ ([main_v0] : List (Ref sig .tc))) :
    after mulR W (no_index (Proc.devRef .tc r)) = W (Proc.devRef .tc r) :=
  after_of_writes_sub mulR W (by
    repeat' apply And.intro
    all_goals exact writes_sub_of_mem rfl (by decide)) hr

theorem diagA_frame (W : Valuation τ sig (Elt F)) {r : Ref sig .tc}
    (hr : r ∉ ([main_call0_cst, main_call0_v0, main_call0_v1, main_call0_v2, main_call0_c, main_call0_v3, main_call0_v4, main_call0_v5, main_call0_v6, main_call0_cst_0, main_call0_call0_v0, main_call0_call0_v1, main_v1] : List (Ref sig .tc))) :
    after diagA W (no_index (Proc.devRef .tc r)) = W (Proc.devRef .tc r) :=
  after_of_writes_sub diagA W (by
    repeat' apply And.intro
    all_goals exact writes_sub_of_mem rfl (by decide)) hr

theorem filtA_frame (W : Valuation τ sig (Elt F)) {r : Ref sig .tc}
    (hr : r ∉ ([main_v2, main_v3, main_v4, main_v5, main_v6, main_v7, main_v8, main_v9, main_v10, main_v11, main_v12, main_v13] : List (Ref sig .tc))) :
    after filtA W (no_index (Proc.devRef .tc r)) = W (Proc.devRef .tc r) :=
  after_of_writes_sub filtA W (by
    repeat' apply And.intro
    all_goals exact writes_sub_of_mem rfl (by decide)) hr

theorem diagB_frame (W : Valuation τ sig (Elt F)) {r : Ref sig .tc}
    (hr : r ∉ ([main_call1_cst, main_call1_v0, main_call1_v1, main_call1_v2, main_call1_c, main_call1_v3, main_call1_v4, main_call1_v5, main_call1_v6, main_call1_cst_0, main_call1_call0_v0, main_call1_call0_v1, main_v14] : List (Ref sig .tc))) :
    after diagB W (no_index (Proc.devRef .tc r)) = W (Proc.devRef .tc r) :=
  after_of_writes_sub diagB W (by
    repeat' apply And.intro
    all_goals exact writes_sub_of_mem rfl (by decide)) hr

theorem filtB_frame (W : Valuation τ sig (Elt F)) {r : Ref sig .tc}
    (hr : r ∉ ([main_v15, main_v16, main_v17, main_v18, main_v19, main_v20, main_v21, main_v22, main_v23, main_v24, main_v25, main_v26] : List (Ref sig .tc))) :
    after filtB W (no_index (Proc.devRef .tc r)) = W (Proc.devRef .tc r) :=
  after_of_writes_sub filtB W (by
    repeat' apply And.intro
    all_goals exact writes_sub_of_mem rfl (by decide)) hr

theorem shortA_frame (W : Valuation τ sig (Elt F)) {r : Ref sig .tc}
    (hr : r ∉ ([main_v27, main_v28, main_v29, main_v30, main_v31, main_v32, main_v33, main_v34, main_v35, main_v36, main_v37, main_v38, main_v39] : List (Ref sig .tc))) :
    after shortA W (no_index (Proc.devRef .tc r)) = W (Proc.devRef .tc r) :=
  after_of_writes_sub shortA W (by
    repeat' apply And.intro
    all_goals exact writes_sub_of_mem rfl (by decide)) hr

theorem shortB_frame (W : Valuation τ sig (Elt F)) {r : Ref sig .tc}
    (hr : r ∉ ([main_v40, main_v41, main_v42, main_v43, main_v44, main_v45, main_v46, main_v47, main_v48, main_v49, main_v50, main_v51, main_v52] : List (Ref sig .tc))) :
    after shortB W (no_index (Proc.devRef .tc r)) = W (Proc.devRef .tc r) :=
  after_of_writes_sub shortB W (by
    repeat' apply And.intro
    all_goals exact writes_sub_of_mem rfl (by decide)) hr

theorem shortSum_frame (W : Valuation τ sig (Elt F)) {r : Ref sig .tc}
    (hr : r ∉ ([main_v53] : List (Ref sig .tc))) :
    after shortSum W (no_index (Proc.devRef .tc r)) = W (Proc.devRef .tc r) :=
  after_of_writes_sub shortSum W (by
    repeat' apply And.intro
    all_goals exact writes_sub_of_mem rfl (by decide)) hr

theorem longHead_frame (W : Valuation τ sig (Elt F)) {r : Ref sig .tc}
    (hr : r ∉ ([main_v54, main_v55, main_v56, main_v57, main_v58, main_v59] : List (Ref sig .tc))) :
    after longHead W (no_index (Proc.devRef .tc r)) = W (Proc.devRef .tc r) :=
  after_of_writes_sub longHead W (by
    repeat' apply And.intro
    all_goals exact writes_sub_of_mem rfl (by decide)) hr

theorem longTail_frame (W : Valuation τ sig (Elt F)) {r : Ref sig .tc}
    (hr : r ∉ ([main_v60, main_v61, main_v62, main_v63, main_v64, main_v65, main_v66, main_v67] : List (Ref sig .tc))) :
    after longTail W (no_index (Proc.devRef .tc r)) = W (Proc.devRef .tc r) :=
  after_of_writes_sub longTail W (by
    repeat' apply And.intro
    all_goals exact writes_sub_of_mem rfl (by decide)) hr

theorem mix_frame (W : Valuation τ sig (Elt F)) {r : Ref sig .tc}
    (hr : r ∉ ([main_v68] : List (Ref sig .tc))) :
    after mix W (no_index (Proc.devRef .tc r)) = W (Proc.devRef .tc r) :=
  after_of_writes_sub mix W (by
    repeat' apply And.intro
    all_goals exact writes_sub_of_mem rfl (by decide)) hr

theorem res_frame (W : Valuation τ sig (Elt F)) {r : Ref sig .tc}
    (hr : r ∉ ([main_v69, main_v70, main_v71, main_v72, main_v73, main_v74, main_v75, main_v76, main_v77, main_v78, main_v79, main_v80, main_v81, main_cst, main_v82, main_cst_0, main_v83, main_v84] : List (Ref sig .tc))) :
    after res W (no_index (Proc.devRef .tc r)) = W (Proc.devRef .tc r) :=
  after_of_writes_sub res W (by
    repeat' apply And.intro
    all_goals exact writes_sub_of_mem rfl (by decide)) hr

theorem tail_frame (W : Valuation τ sig (Elt F)) {r : Ref sig .tc}
    (hr : r ∉ ([main_v85, main_v86, main_v87, main_v88, main_v89, main_v90, main_v91, main_v92, main_v93, main_v94, main_v95, main_v96, main_v97, main_v98, main_v99, main_v100, main_v101, main_v102, main_v103, main_v104, main_v105, main_v106, main_v107] : List (Ref sig .tc))) :
    after tail W (no_index (Proc.devRef .tc r)) = W (Proc.devRef .tc r) :=
  after_of_writes_sub tail W (by
    repeat' apply And.intro
    all_goals exact writes_sub_of_mem rfl (by decide)) hr

def throughUnit256 (x : FVec F S2x2048x256 .f32) : FVec F S2x2048x256 .f32 :=
  shapeCast S2x2048x256 (broadcastInDim S1x2x2048x256 ![1, 2, 3] bcast_S2x2048x256_S1x2x2048x256_1_2_3 x)
    shapeCasts_S1x2x2048x256_S2x2048x256

def sideBySide (x y : FVec F S2x2048x256 .f32) : FVec F S2x2048x512 .f32 :=
  concatenate S2x2048x512 2 [⟨S2x2048x256, x⟩, ⟨S2x2048x256, y⟩] concatenates_S2x2048x256_S2x2048x256_S2x2048x512_d2

def sumUnitOverOne (x : FVec F S2x2048x512 .f32) : FVec F S2x2048x512 .f32 :=
  Host.divf
    (Host.reduceAdd (broadcastInDim S1x2x2048x512 ![1, 2, 3] bcast_S2x2048x512_S1x2x2048x512_1_2_3 x)
      (constant S_ .f32 0x00000000#32 : FVec F S_ .f32) reducesTo_S1x2x2048x512_S2x2048x512_d0 h_S_)
    (broadcastInDim S2x2048x512 ![] bcast_S_S2x2048x512 (constant S_ .f32 0x3F800000#32 : FVec F S_ .f32))

theorem mulR_v0 (W : Valuation τ sig (Elt F)) :
    after mulR W (no_index (Proc.devRef .tc main_v0)) = mulf (W (Proc.devRef .tc main_arg6)) (W (Proc.devRef .tc main_arg6)) := by
  after_results_simp <;> rfl

theorem diagA_v1 (W : Valuation τ sig (Elt F)) :
    after diagA W (no_index (Proc.devRef .tc main_v1)) = RefTerm.diagOf (W (Proc.devRef .tc main_v0)) := by
  after_results_simp <;> rfl

theorem filtA_v8 (W : Valuation τ sig (Elt F)) :
    after filtA W (no_index (Proc.devRef .tc main_v8)) = RefTerm.filtR (W (Proc.devRef .tc main_arg7)) (W (Proc.devRef .tc main_arg8)) (W (Proc.devRef .tc main_v1)) := by
  after_results_simp <;> rfl

theorem filtA_v13 (W : Valuation τ sig (Elt F)) :
    after filtA W (no_index (Proc.devRef .tc main_v13)) = RefTerm.filtI (W (Proc.devRef .tc main_arg7)) (W (Proc.devRef .tc main_arg8)) (W (Proc.devRef .tc main_v1)) := by
  after_results_simp <;> rfl

theorem diagB_v14 (W : Valuation τ sig (Elt F)) :
    after diagB W (no_index (Proc.devRef .tc main_v14)) = RefTerm.diagOf (W (Proc.devRef .tc main_arg6)) := by
  after_results_simp <;> rfl

theorem filtB_v21 (W : Valuation τ sig (Elt F)) :
    after filtB W (no_index (Proc.devRef .tc main_v21)) = RefTerm.filtR (W (Proc.devRef .tc main_arg7)) (W (Proc.devRef .tc main_arg8)) (W (Proc.devRef .tc main_v14)) := by
  after_results_simp <;> rfl

theorem filtB_v26 (W : Valuation τ sig (Elt F)) :
    after filtB W (no_index (Proc.devRef .tc main_v26)) = RefTerm.filtI (W (Proc.devRef .tc main_arg7)) (W (Proc.devRef .tc main_arg8)) (W (Proc.devRef .tc main_v14)) := by
  after_results_simp <;> rfl

theorem shortA_v39 (W : Valuation τ sig (Elt F)) :
    after shortA W (no_index (Proc.devRef .tc main_v39)) = RefTerm.stack256 (RefTerm.procR256 (W (Proc.devRef .tc main_arg0)) (W (Proc.devRef .tc main_arg1)) (W (Proc.devRef .tc main_arg2)) (W (Proc.devRef .tc main_arg4)) (RefTerm.w0 (W (Proc.devRef .tc main_arg9))))
      (RefTerm.procI256 (W (Proc.devRef .tc main_arg0)) (W (Proc.devRef .tc main_arg1)) (W (Proc.devRef .tc main_arg2)) (W (Proc.devRef .tc main_arg4)) (RefTerm.w0 (W (Proc.devRef .tc main_arg9)))) := by
  after_results_simp <;> rfl

theorem shortB_v52 (W : Valuation τ sig (Elt F)) :
    after shortB W (no_index (Proc.devRef .tc main_v52)) = RefTerm.stack256 (RefTerm.procR256 (W (Proc.devRef .tc main_arg0)) (W (Proc.devRef .tc main_arg1)) (W (Proc.devRef .tc main_arg3)) (W (Proc.devRef .tc main_arg5)) (RefTerm.w1 (W (Proc.devRef .tc main_arg9))))
      (RefTerm.procI256 (W (Proc.devRef .tc main_arg0)) (W (Proc.devRef .tc main_arg1)) (W (Proc.devRef .tc main_arg3)) (W (Proc.devRef .tc main_arg5)) (RefTerm.w1 (W (Proc.devRef .tc main_arg9)))) := by
  after_results_simp <;> rfl

theorem shortSum_v53 (W : Valuation τ sig (Elt F)) :
    after shortSum W (no_index (Proc.devRef .tc main_v53)) = addf (W (Proc.devRef .tc main_v39)) (W (Proc.devRef .tc main_v52)) := by
  after_results_simp <;> rfl

theorem long_v67 (W : Valuation τ sig (Elt F)) :
    after longTail (after longHead W) (no_index (Proc.devRef .tc main_v67)) = throughUnit256 (RefTerm.stack256 (RefTerm.procR256 (W (Proc.devRef .tc main_arg0)) (W (Proc.devRef .tc main_arg1)) (W (Proc.devRef .tc main_v8)) (W (Proc.devRef .tc main_v13)) (RefTerm.wLong (W (Proc.devRef .tc main_arg10))))
      (RefTerm.procI256 (W (Proc.devRef .tc main_arg0)) (W (Proc.devRef .tc main_arg1)) (W (Proc.devRef .tc main_v8)) (W (Proc.devRef .tc main_v13)) (RefTerm.wLong (W (Proc.devRef .tc main_arg10))))) := by
  after_results_simp <;> rfl

theorem mix_v68 (W : Valuation τ sig (Elt F)) :
    after mix W (no_index (Proc.devRef .tc main_v68)) = sideBySide (W (Proc.devRef .tc main_v53)) (W (Proc.devRef .tc main_v67)) := by
  after_results_simp <;> rfl

theorem res_v84 (W : Valuation τ sig (Elt F)) :
    after res W (no_index (Proc.devRef .tc main_v84)) = sumUnitOverOne (RefTerm.stack512 (RefTerm.procR512 (W (Proc.devRef .tc main_arg0)) (W (Proc.devRef .tc main_arg1)) (W (Proc.devRef .tc main_v21)) (W (Proc.devRef .tc main_v26)) (RefTerm.wRes (W (Proc.devRef .tc main_arg11))))
      (RefTerm.procI512 (W (Proc.devRef .tc main_arg0)) (W (Proc.devRef .tc main_arg1)) (W (Proc.devRef .tc main_v21)) (W (Proc.devRef .tc main_v26)) (RefTerm.wRes (W (Proc.devRef .tc main_arg11))))) := by
  after_results_simp <;> rfl

theorem tail_v105 (W : Valuation τ sig (Elt F)) :
    after tail W (no_index (Proc.devRef .tc main_v105)) = addf (addf (addf (RefTerm.plane0 (W (Proc.devRef .tc main_v68))) (RefTerm.proj512 (W (Proc.devRef .tc main_arg0)) (RefTerm.wCat (W (Proc.devRef .tc main_arg9)))))
        (RefTerm.plane0 (W (Proc.devRef .tc main_v84)))) (RefTerm.biasRows (W (Proc.devRef .tc main_arg12))) := by
  after_results_simp <;> rfl

theorem tail_v107 (W : Valuation τ sig (Elt F)) :
    after tail W (no_index (Proc.devRef .tc main_v107)) = addf (addf (addf (RefTerm.plane1 (W (Proc.devRef .tc main_v68))) (RefTerm.proj512 (W (Proc.devRef .tc main_arg1)) (RefTerm.wCat (W (Proc.devRef .tc main_arg9)))))
        (RefTerm.plane1 (W (Proc.devRef .tc main_v84)))) (RefTerm.biasRows (W (Proc.devRef .tc main_arg12))) := by
  after_results_simp <;> rfl

set_option maxHeartbeats 1000000 in

theorem after_v105 (V : Valuation τ sig (Elt F)) :
    after ops V (Proc.devRef .tc main_v105) = RefTerm.outReal (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  simp only [after_append']
  simp (disch := decide) only [tail_v105, tail_v107, res_v84, mix_v68, long_v67, shortSum_v53, shortB_v52, shortA_v39, filtB_v21, filtB_v26, diagB_v14, filtA_v8, filtA_v13, diagA_v1, mulR_v0, mulR_frame, diagA_frame, filtA_frame, diagB_frame, filtB_frame, shortA_frame, shortB_frame, shortSum_frame, longHead_frame, longTail_frame, mix_frame, res_frame, tail_frame]
  rfl

set_option maxHeartbeats 1000000 in

theorem after_v107 (V : Valuation τ sig (Elt F)) :
    after ops V (Proc.devRef .tc main_v107) = RefTerm.outImag (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  simp only [after_append']
  simp (disch := decide) only [tail_v105, tail_v107, res_v84, mix_v68, long_v67, shortSum_v53, shortB_v52, shortA_v39, filtB_v21, filtB_v26, diagB_v14, filtA_v8, filtA_v13, diagA_v1, mulR_v0, mulR_frame, diagA_frame, filtA_frame, diagB_frame, filtB_frame, shortA_frame, shortB_frame, shortSum_frame, longHead_frame, longTail_frame, mix_frame, res_frame, tail_frame]
  rfl

/-- No operation of the reference writes an argument. -/
theorem after_arg (V : Valuation τ sig (Elt F)) : ∀ r ∈ ([main_arg0, main_arg1, main_arg2, main_arg3, main_arg4, main_arg5, main_arg6, main_arg7, main_arg8, main_arg9, main_arg10, main_arg11, main_arg12] : List (Ref sig .tc)),
    after ops V (Proc.devRef .tc r) = V (Proc.devRef .tc r) := by
  intro r hr
  simp only [List.mem_cons, List.not_mem_nil, or_false] at hr
  rcases hr with rfl | rfl | rfl | rfl | rfl | rfl | rfl | rfl | rfl | rfl | rfl | rfl | rfl
  all_goals
    simp only [after_append']
    simp (disch := decide) only [mulR_frame, diagA_frame, filtA_frame, diagB_frame, filtB_frame, shortA_frame, shortB_frame, shortSum_frame, longHead_frame, longTail_frame, mix_frame, res_frame, tail_frame]

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      (r.2.mem ((c.tc : Thread nD τ).loc main_v105) = RefTerm.outReal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
        ∧ r.2.mem ((c.tc : Thread nD τ).loc main_v107) = RefTerm.outImag (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12))) :=
  (θ_run defs _ _).mono (fun _ h c => ⟨⟨(h c main_v105).trans (after_v105 _), (h c main_v107).trans (after_v107 _)⟩,
      (h c main_arg0).trans (after_arg _ _ (by decide)),
      (h c main_arg1).trans (after_arg _ _ (by decide)),
      (h c main_arg2).trans (after_arg _ _ (by decide)),
      (h c main_arg3).trans (after_arg _ _ (by decide)),
      (h c main_arg4).trans (after_arg _ _ (by decide)),
      (h c main_arg5).trans (after_arg _ _ (by decide)),
      (h c main_arg6).trans (after_arg _ _ (by decide)),
      (h c main_arg7).trans (after_arg _ _ (by decide)),
      (h c main_arg8).trans (after_arg _ _ (by decide)),
      (h c main_arg9).trans (after_arg _ _ (by decide)),
      (h c main_arg10).trans (after_arg _ _ (by decide)),
      (h c main_arg11).trans (after_arg _ _ (by decide)),
      (h c main_arg12).trans (after_arg _ _ (by decide))⟩)
    (run_seq scopedRefs_eq scopedSems_eq defs main (fun _ => ops) main_eq (fun _ => ops_sub) m ρ (fun _ => ops_fresh))

end Cert.ReferenceIdeal.RefRun

end
-- ==== Proof.RefRead.lean ====
import proofs.«159171_g70626442215508_cont_9to1_m_806_14_alg».proof.Proof.RefTerm
import proofs.«159171_g70626442215508_cont_9to1_m_806_14_alg».proof.Proof.Mats
import proofs.«159171_g70626442215508_cont_9to1_m_806_14_alg».proof.Proof.LibRowDims
import Idealize.ShloMosaic.Lib.ValueLayout
import Idealize.ShloMosaic.PureOps.Ideal.Laws
import Idealize.ShloMosaic.Lib.StableHlo.Predicate

noncomputable section

open scoped BigOperators

namespace Cert.ReferenceIdeal.RefRead

open Idealize.ShloMosaic Idealize.ShloMosaic.ValueIdx Idealize.SL.Sem Cert.ReferenceIdeal Cert.ReferenceIdeal.RefTerm
open Cert Cert.Mats
open Facts₀ Facts

variable [Facts]

theorem scaledQ_apply (q : FVec Ideal S2048x128 .f32) (d : FVec Ideal S128x128 .f32) (p : Fin 2048) (a : Fin 128) :
    scaledQ (F := Ideal) q d (ix2 p a) = ∑ k : Fin 128, q (ix2 p k) * d (ix2 k a) :=
  RowDims.dotGeneral_plain_apply none .single q d p a

theorem qT_apply (q : FVec Ideal S2048x128 .f32) (a : Fin 128) (k : Fin 2048) :
    qT (F := Ideal) q (ix2 a k) = q (ix2 k a) :=
  transpose_ix2_apply q _ a k

theorem outer_apply (a b : FVec Ideal S2048x128 .f32) (p k : Fin 2048) :
    outer (F := Ideal) a b (ix2 p k) = ∑ c : Fin 128, a (ix2 p c) * b (ix2 k c) := by
  refine (RowDims.dotGeneral_plain_apply none .single a (qT b) p k).trans ?_
  refine Finset.sum_congr rfl fun c _ => ?_
  rw [qT_apply]

theorem pad0_apply (T : FVec Ideal S128 .f32) (v : FVec Ideal S_ .f32) (b : Fin 128) :
    pad S128 ![0] ![0] ![0] T v pads_S128_S128_000 h_S_ (ix1 b) = T (ix1 b) := by
  unfold pad
  split
  · next hin =>
    congr 1
    funext a
    match a with
    | ⟨0, _⟩ => exact Fin.ext (by show (b.val - 0) / (0 + 1) = b.val; simp)
  · next hn =>
    refine absurd (fun a => ?_) hn
    match a with
    | ⟨0, _⟩ =>
      refine ⟨Nat.zero_le _, ?_, ?_⟩
      · exact Nat.mod_one _
      · show (b.val - 0) / (0 + 1) < 128
        simp

theorem diagCol_apply (T : FVec Ideal S128 .f32) (b : Fin 128) (u : Fin 1) :
    diagCol (F := Ideal) T (ix2 b u) = T (ix1 b) := by
  unfold diagCol
  refine (broadcastInDim_apply _ _ _ (ix2 b u) (ix1 b) fun c => ?_).trans (pad0_apply T _ b)
  match c with
  | ⟨0, _⟩ =>
    show b.val = if (128 : Nat) = 1 then 0 else b.val
    rw [if_neg (by decide)]

theorem bcast_col_apply (x : FVec Ideal S128x1 .f32) (b a : Fin 128) :
    broadcastInDim S128x128 ![0, 1] bcast_S128x1_S128x128_0_1 x (ix2 b a) = x (ix2 b (0 : Fin 1)) :=
  broadcastInDim_apply _ _ x _ _ fun c => by
    match c with
    | ⟨0, _⟩ =>
      show b.val = if (128 : Nat) = 1 then 0 else b.val
      rw [if_neg (by decide)]
    | ⟨1, _⟩ =>
      show (0 : Nat) = if (1 : Nat) = 1 then 0 else a.val
      rw [if_pos rfl]

theorem iota_eq_iff (b a : Fin 128) :
    IntOp.cmpi .eq (IntOp.addi (BitVec.ofNat 32 b.val) 0#32) (BitVec.ofNat 32 a.val) = 1#1 ↔ b = a := by
  rw [StableHlo.Predicate.cmpi_eq_iff]
  show BitVec.ofNat 32 b.val + 0#32 = BitVec.ofNat 32 a.val ↔ b = a
  rw [BitVec.add_zero]
  constructor
  · intro h
    have h2 := congrArg BitVec.toNat h
    simp only [BitVec.toNat_ofNat] at h2
    exact Fin.ext (by have := b.isLt; have := a.isLt; omega)
  · rintro rfl; rfl

theorem diagOf_apply (T : FVec Ideal S128 .f32) (b a : Fin 128) :
    diagOf (F := Ideal) T (ix2 b a) = if b = a then T (ix1 b) else 0 := by
  unfold diagOf
  rw [select_apply, bcast_col_apply, diagCol_apply]
  show Scalar.select (IntOp.cmpi .eq (IntOp.addi (BitVec.ofNat 32 b.val) 0#32) (BitVec.ofNat 32 a.val)) (T (ix1 b))
    (Ideal.ofBits .f32 0x00000000#32) = _
  unfold Scalar.select
  rw [Ideal.ofBits_zero_f32]
  by_cases h : b = a
  · rw [if_pos h]; exact if_pos ((iota_eq_iff b a).2 h)
  · rw [if_neg h]; exact if_neg (fun h' => h ((iota_eq_iff b a).1 h'))

theorem w0_apply (a9 : FVec Ideal S2x512x256 .f32) (i : Fin 512) (j : Fin 256) :
    w0 (F := Ideal) a9 (ix2 i j) = a9 (ix3 (0 : Fin 2) i j) := by
  unfold w0
  refine (shapeCast_1ab_ab_apply _ _ i j).trans ?_
  exact extractStridedSlice_apply _ a9 _ _ _ fun ax => by
    match ax with
    | ⟨0, _⟩ => rfl
    | ⟨1, _⟩ => exact (Nat.zero_add _).symm
    | ⟨2, _⟩ => exact (Nat.zero_add _).symm

theorem w1_apply (a9 : FVec Ideal S2x512x256 .f32) (i : Fin 512) (j : Fin 256) :
    w1 (F := Ideal) a9 (ix2 i j) = a9 (ix3 (1 : Fin 2) i j) := by
  unfold w1
  refine (shapeCast_1ab_ab_apply _ _ i j).trans ?_
  exact extractStridedSlice_apply _ a9 _ _ _ fun ax => by
    match ax with
    | ⟨0, _⟩ => rfl
    | ⟨1, _⟩ => exact (Nat.zero_add _).symm
    | ⟨2, _⟩ => exact (Nat.zero_add _).symm

theorem wLong_apply (a10 : FVec Ideal S1x512x256 .f32) (i : Fin 512) (j : Fin 256) :
    wLong (F := Ideal) a10 (ix2 i j) = a10 (ix3 (0 : Fin 1) i j) :=
  shapeCast_1ab_ab_apply _ _ i j

theorem wRes_apply (a11 : FVec Ideal S1x512x512 .f32) (i : Fin 512) (j : Fin 512) :
    wRes (F := Ideal) a11 (ix2 i j) = a11 (ix3 (0 : Fin 1) i j) :=
  shapeCast_1ab_ab_apply _ _ i j

theorem wCat_lo (a9 : FVec Ideal S2x512x256 .f32) (i : Fin 512) (j : Fin 256) :
    wCat (F := Ideal) a9 (ix2 i (Spec.lo j)) = a9 (ix3 (0 : Fin 2) i j) := by
  unfold wCat
  refine (concatenate_pair_apply_left (t := S512x512) (s₁ := S512x256) (s₂ := S512x256) 1 (w0 a9) (w1 a9)
    concatenates_S512x256_S512x256_S512x512_d1 (ix2 i (Spec.lo j)) rfl (ix2 i j) fun b => ?_).trans (w0_apply a9 i j)
  match b with
  | ⟨0, _⟩ => rfl
  | ⟨1, _⟩ => rfl

theorem wCat_hi (a9 : FVec Ideal S2x512x256 .f32) (i : Fin 512) (j : Fin 256) :
    wCat (F := Ideal) a9 (ix2 i (Spec.hi j)) = a9 (ix3 (1 : Fin 2) i j) := by
  unfold wCat
  refine (concatenate_pair_apply_right (t := S512x512) (s₁ := S512x256) (s₂ := S512x256) 1 (w0 a9) (w1 a9)
    concatenates_S512x256_S512x256_S512x512_d1 (ix2 i (Spec.hi j)) rfl rfl (ix2 i j) (fun b hb => ?_) rfl).trans (w1_apply a9 i j)
  match b with
  | ⟨0, _⟩ => rfl
  | ⟨1, _⟩ => exact absurd rfl hb

theorem lead256_apply (x : FVec Ideal S2048x256 .f32) (u : Fin 1) (n : Fin 2048) (j : Fin 256) :
    broadcastInDim S1x2048x256 ![1, 2] bcast_S2048x256_S1x2048x256_1_2 x (ix3 u n j) = x (ix2 n j) :=
  broadcastInDim_apply _ _ x _ _ fun c => by
    match c with
    | ⟨0, _⟩ =>
      show n.val = if (2048 : Nat) = 1 then 0 else n.val
      rw [if_neg (by decide)]
    | ⟨1, _⟩ =>
      show j.val = if (256 : Nat) = 1 then 0 else j.val
      rw [if_neg (by decide)]

theorem lead512_apply (x : FVec Ideal S2048x512 .f32) (u : Fin 1) (n : Fin 2048) (j : Fin 512) :
    broadcastInDim S1x2048x512 ![1, 2] bcast_S2048x512_S1x2048x512_1_2 x (ix3 u n j) = x (ix2 n j) :=
  broadcastInDim_apply _ _ x _ _ fun c => by
    match c with
    | ⟨0, _⟩ =>
      show n.val = if (2048 : Nat) = 1 then 0 else n.val
      rw [if_neg (by decide)]
    | ⟨1, _⟩ =>
      show j.val = if (512 : Nat) = 1 then 0 else j.val
      rw [if_neg (by decide)]

theorem stack256_zero (re im : FVec Ideal S2048x256 .f32) (n : Fin 2048) (j : Fin 256) :
    stack256 (F := Ideal) re im (ix3 (0 : Fin 2) n j) = re (ix2 n j) := by
  unfold stack256
  refine (concatenate_pair_apply_left (t := S2x2048x256) (s₁ := S1x2048x256) (s₂ := S1x2048x256) 0 _ _
    concatenates_S1x2048x256_S1x2048x256_S2x2048x256_d0 (ix3 (0 : Fin 2) n j) rfl (ix3 (0 : Fin 1) n j) fun b => ?_).trans
    (lead256_apply re 0 n j)
  match b with
  | ⟨0, _⟩ => rfl
  | ⟨1, _⟩ => rfl
  | ⟨2, _⟩ => rfl

theorem stack256_one (re im : FVec Ideal S2048x256 .f32) (n : Fin 2048) (j : Fin 256) :
    stack256 (F := Ideal) re im (ix3 (1 : Fin 2) n j) = im (ix2 n j) := by
  unfold stack256
  refine (concatenate_pair_apply_right (t := S2x2048x256) (s₁ := S1x2048x256) (s₂ := S1x2048x256) 0 _ _
    concatenates_S1x2048x256_S1x2048x256_S2x2048x256_d0 (ix3 (1 : Fin 2) n j) rfl rfl (ix3 (0 : Fin 1) n j)
    (fun b hb => ?_) rfl).trans (lead256_apply im 0 n j)
  match b with
  | ⟨0, _⟩ => exact absurd rfl hb
  | ⟨1, _⟩ => rfl
  | ⟨2, _⟩ => rfl

theorem stack512_zero (re im : FVec Ideal S2048x512 .f32) (n : Fin 2048) (j : Fin 512) :
    stack512 (F := Ideal) re im (ix3 (0 : Fin 2) n j) = re (ix2 n j) := by
  unfold stack512
  refine (concatenate_pair_apply_left (t := S2x2048x512) (s₁ := S1x2048x512) (s₂ := S1x2048x512) 0 _ _
    concatenates_S1x2048x512_S1x2048x512_S2x2048x512_d0 (ix3 (0 : Fin 2) n j) rfl (ix3 (0 : Fin 1) n j) fun b => ?_).trans
    (lead512_apply re 0 n j)
  match b with
  | ⟨0, _⟩ => rfl
  | ⟨1, _⟩ => rfl
  | ⟨2, _⟩ => rfl

theorem stack512_one (re im : FVec Ideal S2048x512 .f32) (n : Fin 2048) (j : Fin 512) :
    stack512 (F := Ideal) re im (ix3 (1 : Fin 2) n j) = im (ix2 n j) := by
  unfold stack512
  refine (concatenate_pair_apply_right (t := S2x2048x512) (s₁ := S1x2048x512) (s₂ := S1x2048x512) 0 _ _
    concatenates_S1x2048x512_S1x2048x512_S2x2048x512_d0 (ix3 (1 : Fin 2) n j) rfl rfl (ix3 (0 : Fin 1) n j)
    (fun b hb => ?_) rfl).trans (lead512_apply im 0 n j)
  match b with
  | ⟨0, _⟩ => exact absurd rfl hb
  | ⟨1, _⟩ => rfl
  | ⟨2, _⟩ => rfl

theorem plane0_apply (x : FVec Ideal S2x2048x512 .f32) (n : Fin 2048) (c : Fin 512) :
    plane0 (F := Ideal) x (ix2 n c) = x (ix3 (0 : Fin 2) n c) := by
  unfold plane0
  refine (shapeCast_1ab_ab_apply _ _ n c).trans ?_
  exact extractStridedSlice_apply _ x _ _ _ fun ax => by
    match ax with
    | ⟨0, _⟩ => rfl
    | ⟨1, _⟩ => exact (Nat.zero_add _).symm
    | ⟨2, _⟩ => exact (Nat.zero_add _).symm

theorem plane1_apply (x : FVec Ideal S2x2048x512 .f32) (n : Fin 2048) (c : Fin 512) :
    plane1 (F := Ideal) x (ix2 n c) = x (ix3 (1 : Fin 2) n c) := by
  unfold plane1
  refine (shapeCast_1ab_ab_apply _ _ n c).trans ?_
  exact extractStridedSlice_apply _ x _ _ _ fun ax => by
    match ax with
    | ⟨0, _⟩ => rfl
    | ⟨1, _⟩ => exact (Nat.zero_add _).symm
    | ⟨2, _⟩ => exact (Nat.zero_add _).symm

theorem lead4_256_apply (x : FVec Ideal S2x2048x256 .f32) (k : Fin 2) (n : Fin 2048) (j : Fin 256) :
    shapeCast S2x2048x256 (broadcastInDim S1x2x2048x256 ![1, 2, 3] bcast_S2x2048x256_S1x2x2048x256_1_2_3 x)
      shapeCasts_S1x2x2048x256_S2x2048x256 (ix3 k n j) = x (ix3 k n j) := by
  refine (shapeCast_1abc_abc_apply _ _ k n j).trans ?_
  exact broadcastInDim_apply _ _ x _ _ fun c => by
    match c with
    | ⟨0, _⟩ =>
      show k.val = if (2 : Nat) = 1 then 0 else k.val
      rw [if_neg (by decide)]
    | ⟨1, _⟩ =>
      show n.val = if (2048 : Nat) = 1 then 0 else n.val
      rw [if_neg (by decide)]
    | ⟨2, _⟩ =>
      show j.val = if (256 : Nat) = 1 then 0 else j.val
      rw [if_neg (by decide)]

theorem mixed_lo (a0 a1 : FVec Ideal S2048x512 .f32) (a2 a3 a4 a5 : FVec Ideal S2048x2048 .f32) (a6 : FVec Ideal S128 .f32)
    (a7 a8 : FVec Ideal S2048x128 .f32) (a9 : FVec Ideal S2x512x256 .f32) (a10 : FVec Ideal S1x512x256 .f32)
    (k : Fin 2) (n : Fin 2048) (j : Fin 256) :
    mixed (F := Ideal) a0 a1 a2 a3 a4 a5 a6 a7 a8 a9 a10 (ix3 k n (Spec.lo j))
      = shortBranch (F := Ideal) a0 a1 a2 a3 a4 a5 a9 (ix3 k n j) := by
  unfold mixed
  refine concatenate_pair_apply_left (t := S2x2048x512) (s₁ := S2x2048x256) (s₂ := S2x2048x256) 2 _ _
    concatenates_S2x2048x256_S2x2048x256_S2x2048x512_d2 (ix3 k n (Spec.lo j)) rfl (ix3 k n j) fun b => ?_
  match b with
  | ⟨0, _⟩ => rfl
  | ⟨1, _⟩ => rfl
  | ⟨2, _⟩ => rfl

theorem mixed_hi (a0 a1 : FVec Ideal S2048x512 .f32) (a2 a3 a4 a5 : FVec Ideal S2048x2048 .f32) (a6 : FVec Ideal S128 .f32)
    (a7 a8 : FVec Ideal S2048x128 .f32) (a9 : FVec Ideal S2x512x256 .f32) (a10 : FVec Ideal S1x512x256 .f32)
    (k : Fin 2) (n : Fin 2048) (j : Fin 256) :
    mixed (F := Ideal) a0 a1 a2 a3 a4 a5 a6 a7 a8 a9 a10 (ix3 k n (Spec.hi j))
      = longBranch (F := Ideal) a0 a1 a6 a7 a8 a10 (ix3 k n j) := by
  unfold mixed
  refine concatenate_pair_apply_right (t := S2x2048x512) (s₁ := S2x2048x256) (s₂ := S2x2048x256) 2 _ _
    concatenates_S2x2048x256_S2x2048x256_S2x2048x512_d2 (ix3 k n (Spec.hi j)) rfl rfl (ix3 k n j) (fun b hb => ?_) rfl
  match b with
  | ⟨0, _⟩ => rfl
  | ⟨1, _⟩ => rfl
  | ⟨2, _⟩ => exact absurd rfl hb

theorem ofBits_one : Ideal.ofBits .f32 0x3F800000#32 = 1 := by
  simp [Ideal.ofBits, Ideal.ieee, -EReal.coe_mul]; norm_num

theorem div_one' (x : EReal) : Ideal.div x 1 = x := by
  have h := Ideal.div_coe (y := 1) one_ne_zero x
  rw [EReal.coe_one] at h
  rw [h, one_div, inv_one, EReal.coe_one, mul_one]

theorem unitSum_apply (x : FVec Ideal S2x2048x512 .f32) (k : Fin 2) (n : Fin 2048) (c : Fin 512) :
    Host.divf (F := Ideal)
      (Host.reduceAdd (F := Ideal)
        (broadcastInDim S1x2x2048x512 ![1, 2, 3] bcast_S2x2048x512_S1x2x2048x512_1_2_3 x)
        (constant S_ .f32 0x00000000#32 : FVec Ideal S_ .f32) reducesTo_S1x2x2048x512_S2x2048x512_d0 h_S_)
      (broadcastInDim S2x2048x512 ![] bcast_S_S2x2048x512 (constant S_ .f32 0x3F800000#32 : FVec Ideal S_ .f32))
      (ix3 k n c) = x (ix3 k n c) := by
  have hR : S1x2x2048x512.Reduces [0] S2x2048x512 := by decide
  show Ideal.div (Ideal.hostReduceAdd reducesTo_S1x2x2048x512_S2x2048x512_d0
      (broadcastInDim S1x2x2048x512 ![1, 2, 3] bcast_S2x2048x512_S1x2x2048x512_1_2_3 x) (Ideal.ofBits .f32 0x00000000#32) (ix3 k n c))
    (Ideal.ofBits .f32 0x3F800000#32) = _
  rw [ofBits_one, div_one', Ideal.hostReduceAdd_single _ hR, Ideal.ofBits_zero_f32, zero_add]
  show ∑ u : Fin 1, broadcastInDim S1x2x2048x512 ![1, 2, 3] bcast_S2x2048x512_S1x2x2048x512_1_2_3 x (hR.lift (ix3 k n c) u) = _
  rw [Fin.sum_univ_one]
  exact broadcastInDim_apply _ _ x _ _ fun a => by
    match a with
    | ⟨0, _⟩ =>
      show k.val = if (2 : Nat) = 1 then 0 else k.val
      rw [if_neg (by decide)]
    | ⟨1, _⟩ =>
      show n.val = if (2048 : Nat) = 1 then 0 else n.val
      rw [if_neg (by decide)]
    | ⟨2, _⟩ =>
      show c.val = if (512 : Nat) = 1 then 0 else c.val
      rw [if_neg (by decide)]

theorem biasRows_apply (a12 : FVec Ideal S1x512 .f32) (n : Fin 2048) (c : Fin 512) :
    biasRows (F := Ideal) a12 (ix2 n c) = a12 (ix2 (0 : Fin 1) c) :=
  broadcastInDim_apply _ _ a12 _ _ fun a => by
    match a with
    | ⟨0, _⟩ =>
      show (0 : Nat) = if (1 : Nat) = 1 then 0 else n.val
      rw [if_pos rfl]
    | ⟨1, _⟩ =>
      show c.val = if (512 : Nat) = 1 then 0 else c.val
      rw [if_neg (by decide)]

theorem m2_diagOf (T : FVec Ideal S128 .f32) : m2 (diagOf (F := Ideal) T) = Spec.diag (v1 T) := by
  funext b a
  exact diagOf_apply T b a

theorem m2_scaledQ (q : FVec Ideal S2048x128 .f32) (d : FVec Ideal S128x128 .f32) :
    m2 (scaledQ (F := Ideal) q d) = Spec.mm (m2 q) (m2 d) := by
  funext p a
  exact scaledQ_apply q d p a

theorem m2_filtR (qr qi : FVec Ideal S2048x128 .f32) (T : FVec Ideal S128 .f32) :
    m2 (filtR (F := Ideal) qr qi (diagOf T)) = Spec.filtR (m2 qr) (m2 qi) (v1 T) := by
  funext n k
  show outer (F := Ideal) (scaledQ qr (diagOf T)) qr (ix2 n k) + outer (F := Ideal) (scaledQ qi (diagOf T)) qi (ix2 n k) = _
  rw [outer_apply, outer_apply]
  unfold Spec.filtR
  rw [← m2_diagOf, ← m2_scaledQ, ← m2_scaledQ]
  rfl

theorem m2_filtI (qr qi : FVec Ideal S2048x128 .f32) (T : FVec Ideal S128 .f32) :
    m2 (filtI (F := Ideal) qr qi (diagOf T)) = Spec.filtI (m2 qr) (m2 qi) (v1 T) := by
  funext n k
  show outer (F := Ideal) (scaledQ qi (diagOf T)) qr (ix2 n k) - outer (F := Ideal) (scaledQ qr (diagOf T)) qi (ix2 n k) = _
  rw [outer_apply, outer_apply]
  unfold Spec.filtI
  rw [← m2_diagOf, ← m2_scaledQ, ← m2_scaledQ]
  rfl

theorem proj256_apply (x : FVec Ideal S2048x512 .f32) (w : FVec Ideal S512x256 .f32) (p : Fin 2048) (q : Fin 256) :
    proj256 (F := Ideal) x w (ix2 p q) = Spec.mm (m2 x) (m2 w) p q :=
  RowDims.dotGeneral_plain_apply none .single x w p q

theorem apply256_apply (l : FVec Ideal S2048x2048 .f32) (y : FVec Ideal S2048x256 .f32) (p : Fin 2048) (q : Fin 256) :
    apply256 (F := Ideal) l y (ix2 p q) = ∑ k : Fin 2048, l (ix2 p k) * y (ix2 k q) :=
  RowDims.dotGeneral_plain_apply none .single l y p q

theorem proj512_apply (x : FVec Ideal S2048x512 .f32) (w : FVec Ideal S512x512 .f32) (p : Fin 2048) (q : Fin 512) :
    proj512 (F := Ideal) x w (ix2 p q) = Spec.mm (m2 x) (m2 w) p q :=
  RowDims.dotGeneral_plain_apply none .single x w p q

theorem apply512_apply (l : FVec Ideal S2048x2048 .f32) (y : FVec Ideal S2048x512 .f32) (p : Fin 2048) (q : Fin 512) :
    apply512 (F := Ideal) l y (ix2 p q) = ∑ k : Fin 2048, l (ix2 p k) * y (ix2 k q) :=
  RowDims.dotGeneral_plain_apply none .single l y p q

theorem procR256_eq (xr xi : FVec Ideal S2048x512 .f32) (lr li : FVec Ideal S2048x2048 .f32) (w : FVec Ideal S512x256 .f32)
    (n : Fin 2048) (j : Fin 256) :
    procR256 (F := Ideal) xr xi lr li w (ix2 n j) = Spec.procR (m2 xr) (m2 xi) (m2 lr) (m2 li) (m2 w) n j := by
  show apply256 (F := Ideal) lr (proj256 xr w) (ix2 n j) - apply256 (F := Ideal) li (proj256 xi w) (ix2 n j) = _
  rw [apply256_apply, apply256_apply]
  simp only [proj256_apply]
  rfl

theorem procI256_eq (xr xi : FVec Ideal S2048x512 .f32) (lr li : FVec Ideal S2048x2048 .f32) (w : FVec Ideal S512x256 .f32)
    (n : Fin 2048) (j : Fin 256) :
    procI256 (F := Ideal) xr xi lr li w (ix2 n j) = Spec.procI (m2 xr) (m2 xi) (m2 lr) (m2 li) (m2 w) n j := by
  show apply256 (F := Ideal) li (proj256 xr w) (ix2 n j) + apply256 (F := Ideal) lr (proj256 xi w) (ix2 n j) = _
  rw [apply256_apply, apply256_apply]
  simp only [proj256_apply]
  rfl

theorem procR512_eq (xr xi : FVec Ideal S2048x512 .f32) (lr li : FVec Ideal S2048x2048 .f32) (w : FVec Ideal S512x512 .f32)
    (n : Fin 2048) (c : Fin 512) :
    procR512 (F := Ideal) xr xi lr li w (ix2 n c) = Spec.procR (m2 xr) (m2 xi) (m2 lr) (m2 li) (m2 w) n c := by
  show apply512 (F := Ideal) lr (proj512 xr w) (ix2 n c) - apply512 (F := Ideal) li (proj512 xi w) (ix2 n c) = _
  rw [apply512_apply, apply512_apply]
  simp only [proj512_apply]
  rfl

theorem procI512_eq (xr xi : FVec Ideal S2048x512 .f32) (lr li : FVec Ideal S2048x2048 .f32) (w : FVec Ideal S512x512 .f32)
    (n : Fin 2048) (c : Fin 512) :
    procI512 (F := Ideal) xr xi lr li w (ix2 n c) = Spec.procI (m2 xr) (m2 xi) (m2 lr) (m2 li) (m2 w) n c := by
  show apply512 (F := Ideal) li (proj512 xr w) (ix2 n c) + apply512 (F := Ideal) lr (proj512 xi w) (ix2 n c) = _
  rw [apply512_apply, apply512_apply]
  simp only [proj512_apply]
  rfl

theorem m2_w0 (a9 : FVec Ideal S2x512x256 .f32) : m2 (w0 (F := Ideal) a9) = pl a9 0 := by
  funext i j; exact w0_apply a9 i j

theorem m2_w1 (a9 : FVec Ideal S2x512x256 .f32) : m2 (w1 (F := Ideal) a9) = pl a9 1 := by
  funext i j; exact w1_apply a9 i j

theorem m2_wLong (a10 : FVec Ideal S1x512x256 .f32) : m2 (wLong (F := Ideal) a10) = pl a10 0 := by
  funext i j; exact wLong_apply a10 i j

theorem m2_wRes (a11 : FVec Ideal S1x512x512 .f32) : m2 (wRes (F := Ideal) a11) = pl a11 0 := by
  funext i j; exact wRes_apply a11 i j

theorem proj512_wCat_lo (x : FVec Ideal S2048x512 .f32) (a9 : FVec Ideal S2x512x256 .f32) (n : Fin 2048) (j : Fin 256) :
    proj512 (F := Ideal) x (wCat a9) (ix2 n (Spec.lo j)) = Spec.mm (m2 x) (pl a9 0) n j := by
  refine (RowDims.dotGeneral_plain_apply none .single x (wCat a9) n (Spec.lo j)).trans ?_
  simp only [wCat_lo]
  rfl

theorem proj512_wCat_hi (x : FVec Ideal S2048x512 .f32) (a9 : FVec Ideal S2x512x256 .f32) (n : Fin 2048) (j : Fin 256) :
    proj512 (F := Ideal) x (wCat a9) (ix2 n (Spec.hi j)) = Spec.mm (m2 x) (pl a9 1) n j := by
  refine (RowDims.dotGeneral_plain_apply none .single x (wCat a9) n (Spec.hi j)).trans ?_
  simp only [wCat_hi]
  rfl

theorem shortBranch_zero (a0 a1 : FVec Ideal S2048x512 .f32) (a2 a3 a4 a5 : FVec Ideal S2048x2048 .f32)
    (a9 : FVec Ideal S2x512x256 .f32) (n : Fin 2048) (j : Fin 256) :
    shortBranch (F := Ideal) a0 a1 a2 a3 a4 a5 a9 (ix3 (0 : Fin 2) n j)
      = Spec.procR (m2 a0) (m2 a1) (m2 a2) (m2 a4) (pl a9 0) n j + Spec.procR (m2 a0) (m2 a1) (m2 a3) (m2 a5) (pl a9 1) n j := by
  unfold shortBranch
  rw [addf_apply, stack256_zero, stack256_zero, procR256_eq, procR256_eq, m2_w0, m2_w1]

theorem shortBranch_one (a0 a1 : FVec Ideal S2048x512 .f32) (a2 a3 a4 a5 : FVec Ideal S2048x2048 .f32)
    (a9 : FVec Ideal S2x512x256 .f32) (n : Fin 2048) (j : Fin 256) :
    shortBranch (F := Ideal) a0 a1 a2 a3 a4 a5 a9 (ix3 (1 : Fin 2) n j)
      = Spec.procI (m2 a0) (m2 a1) (m2 a2) (m2 a4) (pl a9 0) n j + Spec.procI (m2 a0) (m2 a1) (m2 a3) (m2 a5) (pl a9 1) n j := by
  unfold shortBranch
  rw [addf_apply, stack256_one, stack256_one, procI256_eq, procI256_eq, m2_w0, m2_w1]

theorem v1_sq (a6 : FVec Ideal S128 .f32) : v1 (mulf a6 a6) = fun a => v1 a6 a * v1 a6 a := rfl

theorem longBranch_zero (a0 a1 : FVec Ideal S2048x512 .f32) (a6 : FVec Ideal S128 .f32) (a7 a8 : FVec Ideal S2048x128 .f32)
    (a10 : FVec Ideal S1x512x256 .f32) (n : Fin 2048) (j : Fin 256) :
    longBranch (F := Ideal) a0 a1 a6 a7 a8 a10 (ix3 (0 : Fin 2) n j)
      = Spec.procR (m2 a0) (m2 a1) (Spec.filtR (m2 a7) (m2 a8) fun a => v1 a6 a * v1 a6 a)
          (Spec.filtI (m2 a7) (m2 a8) fun a => v1 a6 a * v1 a6 a) (pl a10 0) n j := by
  unfold longBranch
  rw [lead4_256_apply, stack256_zero, procR256_eq, m2_filtR, m2_filtI, m2_wLong, v1_sq]

theorem longBranch_one (a0 a1 : FVec Ideal S2048x512 .f32) (a6 : FVec Ideal S128 .f32) (a7 a8 : FVec Ideal S2048x128 .f32)
    (a10 : FVec Ideal S1x512x256 .f32) (n : Fin 2048) (j : Fin 256) :
    longBranch (F := Ideal) a0 a1 a6 a7 a8 a10 (ix3 (1 : Fin 2) n j)
      = Spec.procI (m2 a0) (m2 a1) (Spec.filtR (m2 a7) (m2 a8) fun a => v1 a6 a * v1 a6 a)
          (Spec.filtI (m2 a7) (m2 a8) fun a => v1 a6 a * v1 a6 a) (pl a10 0) n j := by
  unfold longBranch
  rw [lead4_256_apply, stack256_one, procI256_eq, m2_filtR, m2_filtI, m2_wLong, v1_sq]

theorem resid_zero (a0 a1 : FVec Ideal S2048x512 .f32) (a6 : FVec Ideal S128 .f32) (a7 a8 : FVec Ideal S2048x128 .f32)
    (a11 : FVec Ideal S1x512x512 .f32) (n : Fin 2048) (c : Fin 512) :
    resid (F := Ideal) a0 a1 a6 a7 a8 a11 (ix3 (0 : Fin 2) n c)
      = Spec.procR (m2 a0) (m2 a1) (Spec.filtR (m2 a7) (m2 a8) (v1 a6)) (Spec.filtI (m2 a7) (m2 a8) (v1 a6)) (pl a11 0) n c := by
  unfold resid
  rw [unitSum_apply, stack512_zero, procR512_eq, m2_filtR, m2_filtI, m2_wRes]

theorem resid_one (a0 a1 : FVec Ideal S2048x512 .f32) (a6 : FVec Ideal S128 .f32) (a7 a8 : FVec Ideal S2048x128 .f32)
    (a11 : FVec Ideal S1x512x512 .f32) (n : Fin 2048) (c : Fin 512) :
    resid (F := Ideal) a0 a1 a6 a7 a8 a11 (ix3 (1 : Fin 2) n c)
      = Spec.procI (m2 a0) (m2 a1) (Spec.filtR (m2 a7) (m2 a8) (v1 a6)) (Spec.filtI (m2 a7) (m2 a8) (v1 a6)) (pl a11 0) n c := by
  unfold resid
  rw [unitSum_apply, stack512_one, procI512_eq, m2_filtR, m2_filtI, m2_wRes]

theorem procR_col (Xr Xi : Fin 2048 → Fin 512 → EReal) (Lr Li : Fin 2048 → Fin 2048 → EReal) (w : Fin 512 → Fin 512 → EReal)
    (f : Fin 256 → Fin 512) (n : Fin 2048) (j : Fin 256) :
    Spec.procR Xr Xi Lr Li w n (f j) = Spec.procR Xr Xi Lr Li (fun i j => w i (f j)) n j := rfl

theorem procI_col (Xr Xi : Fin 2048 → Fin 512 → EReal) (Lr Li : Fin 2048 → Fin 2048 → EReal) (w : Fin 512 → Fin 512 → EReal)
    (f : Fin 256 → Fin 512) (n : Fin 2048) (j : Fin 256) :
    Spec.procI Xr Xi Lr Li w n (f j) = Spec.procI Xr Xi Lr Li (fun i j => w i (f j)) n j := rfl

section Results

variable (a0 a1 : FVec Ideal S2048x512 .f32) (a2 a3 a4 a5 : FVec Ideal S2048x2048 .f32) (a6 : FVec Ideal S128 .f32)
  (a7 a8 : FVec Ideal S2048x128 .f32) (a9 : FVec Ideal S2x512x256 .f32) (a10 : FVec Ideal S1x512x256 .f32)
  (a11 : FVec Ideal S1x512x512 .f32) (a12 : FVec Ideal S1x512 .f32) (n : Fin 2048) (j : Fin 256)

theorem outReal_lo :
    RefTerm.outReal (F := Ideal) a0 a1 a2 a3 a4 a5 a6 a7 a8 a9 a10 a11 a12 (ValueIdx.ix2 n (Spec.lo j))
      = Spec.refRealL (Mats.m2 a0) (Mats.m2 a1) (Mats.m2 a7) (Mats.m2 a8) (Mats.m2 a2) (Mats.m2 a3) (Mats.m2 a4) (Mats.m2 a5)
          (Mats.v1 a6) (Mats.pl a9 0) (Mats.pl a9 1) (Mats.pl a11 0) (Mats.row0 a12) n j := by
  unfold RefTerm.outReal
  rw [addf_apply, addf_apply, addf_apply, plane0_apply, plane0_apply, mixed_lo, shortBranch_zero, resid_zero,
    proj512_wCat_lo, biasRows_apply, procR_col]
  rfl

theorem outReal_hi :
    RefTerm.outReal (F := Ideal) a0 a1 a2 a3 a4 a5 a6 a7 a8 a9 a10 a11 a12 (ValueIdx.ix2 n (Spec.hi j))
      = Spec.refRealR (Mats.m2 a0) (Mats.m2 a1) (Mats.m2 a7) (Mats.m2 a8) (Mats.v1 a6) (Mats.pl a9 1) (Mats.pl a10 0)
          (Mats.pl a11 0) (Mats.row0 a12) n j := by
  unfold RefTerm.outReal
  rw [addf_apply, addf_apply, addf_apply, plane0_apply, plane0_apply, mixed_hi, longBranch_zero, resid_zero,
    proj512_wCat_hi, biasRows_apply, procR_col]
  rfl

theorem outImag_lo :
    RefTerm.outImag (F := Ideal) a0 a1 a2 a3 a4 a5 a6 a7 a8 a9 a10 a11 a12 (ValueIdx.ix2 n (Spec.lo j))
      = Spec.refImagL (Mats.m2 a0) (Mats.m2 a1) (Mats.m2 a7) (Mats.m2 a8) (Mats.m2 a2) (Mats.m2 a3) (Mats.m2 a4) (Mats.m2 a5)
          (Mats.v1 a6) (Mats.pl a9 0) (Mats.pl a9 1) (Mats.pl a11 0) (Mats.row0 a12) n j := by
  unfold RefTerm.outImag
  rw [addf_apply, addf_apply, addf_apply, plane1_apply, plane1_apply, mixed_lo, shortBranch_one, resid_one,
    proj512_wCat_lo, biasRows_apply, procI_col]
  rfl

theorem outImag_hi :
    RefTerm.outImag (F := Ideal) a0 a1 a2 a3 a4 a5 a6 a7 a8 a9 a10 a11 a12 (ValueIdx.ix2 n (Spec.hi j))
      = Spec.refImagR (Mats.m2 a0) (Mats.m2 a1) (Mats.m2 a7) (Mats.m2 a8) (Mats.v1 a6) (Mats.pl a9 1) (Mats.pl a10 0)
          (Mats.pl a11 0) (Mats.row0 a12) n j := by
  unfold RefTerm.outImag
  rw [addf_apply, addf_apply, addf_apply, plane1_apply, plane1_apply, mixed_hi, longBranch_one, resid_one,
    proj512_wCat_hi, biasRows_apply, procI_col]
  rfl

end Results

end Cert.ReferenceIdeal.RefRead
end
-- ==== Proof.SpecAlgReal.lean ====
import Mathlib.Algebra.BigOperators.Group.Finset.Basic
import Mathlib.Algebra.BigOperators.Fin
import Mathlib.Algebra.BigOperators.Ring.Finset
import Mathlib.Algebra.BigOperators.GroupWithZero.Finset
import Mathlib.Data.Fintype.BigOperators
import Mathlib.Logic.Equiv.Fin.Basic
import Mathlib.Data.Real.Basic
import Mathlib.Tactic.Ring
import proofs.«159171_g70626442215508_cont_9to1_m_806_14_alg».proof.Proof.Spec

open scoped BigOperators

namespace Cert.Spec

theorem sum_blk (f : Fin 2048 → ℝ) :
    ∑ k : Fin 2048, f k
      = ((∑ r : Fin 512, f (blk 0 r) + ∑ r : Fin 512, f (blk 1 r)) + ∑ r : Fin 512, f (blk 2 r))
          + ∑ r : Fin 512, f (blk 3 r) := by
  have h1 : ∑ k : Fin 2048, f k = ∑ p : Fin 4 × Fin 512, f (blk p.1 p.2) := by
    refine (Fintype.sum_equiv (finProdFinEquiv (m := 4) (n := 512)) (fun p => f (blk p.1 p.2)) f ?_).symm
    intro p
    congr 1
    apply Fin.ext
    show 512 * p.1.val + p.2.val = p.2.val + 512 * p.1.val
    omega
  rw [h1, Fintype.sum_prod_type, Fin.sum_univ_four]

section Real

variable (Xr Xi : Fin 2048 → Fin 512 → ℝ) (Qr Qi : Fin 2048 → Fin 128 → ℝ)

def Gp (a : Fin 128) (i : Fin 512) : ℝ := ∑ k : Fin 2048, (Qr k a * Xr k i + Qi k a * Xi k i)

def Gm (a : Fin 128) (i : Fin 512) : ℝ := ∑ k : Fin 2048, (Qi k a * Xr k i - Qr k a * Xi k i)

theorem gp_eq : gp Xr Xi Qr Qi = Gp Xr Xi Qr Qi := by
  funext a i
  rw [Gp, sum_blk]
  simp only [gp, gpBlk, Finset.sum_add_distrib]

theorem gm_eq : gm Xr Xi Qr Qi = Gm Xr Xi Qr Qi := by
  funext a i
  rw [Gm, sum_blk]
  simp only [gm, gmBlk, Finset.sum_sub_distrib]

theorem mm_diag (Q : Fin 2048 → Fin 128 → ℝ) (T : Fin 128 → ℝ) (n : Fin 2048) (a : Fin 128) :
    mm Q (diag T) n a = Q n a * T a := by
  simp only [mm, diag, mul_ite, mul_zero, Finset.sum_ite_eq', Finset.mem_univ, if_true]

theorem filtR_eq (T : Fin 128 → ℝ) (n k : Fin 2048) :
    filtR Qr Qi T n k = ∑ a : Fin 128, (Qr n a * T a * Qr k a + Qi n a * T a * Qi k a) := by
  simp only [filtR, mm_diag, Finset.sum_add_distrib]

theorem filtI_eq (T : Fin 128 → ℝ) (n k : Fin 2048) :
    filtI Qr Qi T n k = ∑ a : Fin 128, (Qi n a * T a * Qr k a - Qr n a * T a * Qi k a) := by
  simp only [filtI, mm_diag, Finset.sum_sub_distrib]

theorem mm_Gp {H : ℕ} (w : Fin 512 → Fin H → ℝ) (a : Fin 128) (j : Fin H) :
    mm (Gp Xr Xi Qr Qi) w a j = ∑ k : Fin 2048, (Qr k a * mm Xr w k j + Qi k a * mm Xi w k j) := by
  simp only [mm, Gp, Finset.sum_mul, Finset.mul_sum, ← Finset.sum_add_distrib]
  rw [Finset.sum_comm]
  refine Finset.sum_congr rfl fun k _ => Finset.sum_congr rfl fun i _ => ?_
  ring

theorem mm_Gm {H : ℕ} (w : Fin 512 → Fin H → ℝ) (a : Fin 128) (j : Fin H) :
    mm (Gm Xr Xi Qr Qi) w a j = ∑ k : Fin 2048, (Qi k a * mm Xr w k j - Qr k a * mm Xi w k j) := by
  simp only [mm, Gm, Finset.sum_mul, Finset.mul_sum, ← Finset.sum_sub_distrib]
  rw [Finset.sum_comm]
  refine Finset.sum_congr rfl fun k _ => Finset.sum_congr rfl fun i _ => ?_
  ring

theorem procR_filt {H : ℕ} (T : Fin 128 → ℝ) (w : Fin 512 → Fin H → ℝ) (n : Fin 2048) (j : Fin H) :
    procR Xr Xi (filtR Qr Qi T) (filtI Qr Qi T) w n j
      = (∑ a : Fin 128, Qr n a * (T a * mm (Gp Xr Xi Qr Qi) w a j))
        + (∑ a : Fin 128, Qi n a * (T a * mm (Gm Xr Xi Qr Qi) w a j)) := by
  simp only [procR, filtR_eq, filtI_eq, mm_Gp, mm_Gm]
  simp only [Finset.sum_mul, Finset.mul_sum, ← Finset.sum_add_distrib, ← Finset.sum_sub_distrib]
  rw [Finset.sum_comm]
  refine Finset.sum_congr rfl fun a _ => Finset.sum_congr rfl fun k _ => ?_
  ring

theorem procI_filt {H : ℕ} (T : Fin 128 → ℝ) (w : Fin 512 → Fin H → ℝ) (n : Fin 2048) (j : Fin H) :
    procI Xr Xi (filtR Qr Qi T) (filtI Qr Qi T) w n j
      = (∑ a : Fin 128, Qi n a * (T a * mm (Gp Xr Xi Qr Qi) w a j))
        - (∑ a : Fin 128, Qr n a * (T a * mm (Gm Xr Xi Qr Qi) w a j)) := by
  simp only [procI, filtR_eq, filtI_eq, mm_Gp, mm_Gm]
  simp only [Finset.sum_mul, Finset.mul_sum, ← Finset.sum_add_distrib, ← Finset.sum_sub_distrib]
  rw [Finset.sum_comm]
  refine Finset.sum_congr rfl fun a _ => Finset.sum_congr rfl fun k _ => ?_
  ring

theorem mm_def {M K N : ℕ} (A : Fin M → Fin K → ℝ) (B : Fin K → Fin N → ℝ) (p : Fin M) (q : Fin N) :
    mm A B p q = ∑ k : Fin K, A p k * B k q := rfl

variable (Lr0 Lr1 Li0 Li1 : Fin 2048 → Fin 2048 → ℝ) (R : Fin 128 → ℝ)
  (w0 w1 wl : Fin 512 → Fin 256 → ℝ) (wres : Fin 512 → Fin 512 → ℝ) (bias : Fin 512 → ℝ)

theorem real_kerRealL (n : Fin 2048) (j : Fin 256) :
    kerRealL Xr Xi Qr Qi R wres Lr0 Lr1 Li0 Li1 w0 w1 bias n j
      = refRealL Xr Xi Qr Qi Lr0 Lr1 Li0 Li1 R w0 w1 wres bias n j := by
  unfold kerRealL refRealL
  rw [procR_filt, gp_eq, gm_eq]
  simp only [procR, coefL, mm_def Lr0, mm_def Lr1, mm_def Li0, mm_def Li1, mm_def Qr, mm_def Qi]
  ring

theorem real_kerImagL (n : Fin 2048) (j : Fin 256) :
    kerImagL Xr Xi Qr Qi R wres Lr0 Lr1 Li0 Li1 w0 w1 bias n j
      = refImagL Xr Xi Qr Qi Lr0 Lr1 Li0 Li1 R w0 w1 wres bias n j := by
  unfold kerImagL refImagL
  rw [procI_filt, gp_eq, gm_eq]
  simp only [procI, coefL, mm_def Lr0, mm_def Lr1, mm_def Li0, mm_def Li1, mm_def Qr, mm_def Qi]
  ring

theorem real_kerRealR (n : Fin 2048) (j : Fin 256) :
    kerRealR Xr Xi Qr Qi R wl wres w1 bias n j = refRealR Xr Xi Qr Qi R w1 wl wres bias n j := by
  unfold kerRealR refRealR
  rw [procR_filt, procR_filt, gp_eq, gm_eq]
  simp only [coefR, mm_def Qr, mm_def Qi, mul_add, Finset.sum_add_distrib]
  ring

theorem real_kerImagR (n : Fin 2048) (j : Fin 256) :
    kerImagR Xr Xi Qr Qi R wl wres w1 bias n j = refImagR Xr Xi Qr Qi R w1 wl wres bias n j := by
  unfold kerImagR refImagR
  rw [procI_filt, procI_filt, gp_eq, gm_eq]
  simp only [coefR, mm_def Qr, mm_def Qi, mul_add, Finset.sum_add_distrib]
  ring

end Real

end Cert.Spec
-- ==== Proof.SpecAlgCoe.lean ====
import Mathlib.Data.EReal.Basic
import Mathlib.Data.EReal.Operations
import Mathlib.Algebra.BigOperators.Group.Finset.Basic
import proofs.«159171_g70626442215508_cont_9to1_m_806_14_alg».proof.Proof.Spec

open scoped BigOperators

namespace Cert.Spec

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

def c1 {n : ℕ} (v : Fin n → ℝ) : Fin n → EReal := fun i => (v i : EReal)

def c2 {m n : ℕ} (A : Fin m → Fin n → ℝ) : Fin m → Fin n → EReal := fun i j => (A i j : EReal)

theorem c2_lo (W : Fin 512 → Fin 512 → ℝ) :
    (fun (i : Fin 512) (j : Fin 256) => c2 W i (lo j)) = c2 (fun i j => W i (lo j)) := rfl
theorem c2_hi (W : Fin 512 → Fin 512 → ℝ) :
    (fun (i : Fin 512) (j : Fin 256) => c2 W i (hi j)) = c2 (fun i j => W i (hi j)) := rfl
theorem c1_sq (R : Fin 128 → ℝ) : (fun a => c1 R a * c1 R a) = c1 (fun a => R a * R a) := by
  funext a; simp only [c1, EReal.coe_mul]

theorem mm_coe {M K N : ℕ} (A : Fin M → Fin K → ℝ) (B : Fin K → Fin N → ℝ) :
    mm (c2 A) (c2 B) = c2 (mm A B) := by
  funext p q
  simp only [mm, c2, coe_sum, EReal.coe_mul]

theorem diag_coe (T : Fin 128 → ℝ) : diag (c1 T) = c2 (diag T) := by
  funext b a
  simp only [diag, c1, c2, apply_ite (fun x : ℝ => (x : EReal)), EReal.coe_zero]

theorem filtR_coe (Qr Qi : Fin 2048 → Fin 128 → ℝ) (T : Fin 128 → ℝ) :
    filtR (c2 Qr) (c2 Qi) (c1 T) = c2 (filtR Qr Qi T) := by
  funext n k
  simp only [filtR, diag_coe, mm_coe]
  simp only [filtR, c2, coe_sum, EReal.coe_mul, EReal.coe_add]

theorem filtI_coe (Qr Qi : Fin 2048 → Fin 128 → ℝ) (T : Fin 128 → ℝ) :
    filtI (c2 Qr) (c2 Qi) (c1 T) = c2 (filtI Qr Qi T) := by
  funext n k
  simp only [filtI, diag_coe, mm_coe]
  simp only [filtI, c2, coe_sum, EReal.coe_mul, EReal.coe_sub]

theorem procR_coe {H : ℕ} (Xr Xi : Fin 2048 → Fin 512 → ℝ) (Lr Li : Fin 2048 → Fin 2048 → ℝ)
    (w : Fin 512 → Fin H → ℝ) :
    procR (c2 Xr) (c2 Xi) (c2 Lr) (c2 Li) (c2 w) = c2 (procR Xr Xi Lr Li w) := by
  funext n j
  simp only [procR, mm_coe]
  simp only [procR, c2, coe_sum, EReal.coe_mul, EReal.coe_sub]

theorem procI_coe {H : ℕ} (Xr Xi : Fin 2048 → Fin 512 → ℝ) (Lr Li : Fin 2048 → Fin 2048 → ℝ)
    (w : Fin 512 → Fin H → ℝ) :
    procI (c2 Xr) (c2 Xi) (c2 Lr) (c2 Li) (c2 w) = c2 (procI Xr Xi Lr Li w) := by
  funext n j
  simp only [procI, mm_coe]
  simp only [procI, c2, coe_sum, EReal.coe_mul, EReal.coe_add]

section Ker

variable (Xr Xi : Fin 2048 → Fin 512 → ℝ) (Qr Qi : Fin 2048 → Fin 128 → ℝ)

theorem gp_coe : gp (c2 Xr) (c2 Xi) (c2 Qr) (c2 Qi) = c2 (gp Xr Xi Qr Qi) := by
  funext a i
  simp only [gp, gpBlk, c2, coe_sum, EReal.coe_mul, EReal.coe_add]

theorem gm_coe : gm (c2 Xr) (c2 Xi) (c2 Qr) (c2 Qi) = c2 (gm Xr Xi Qr Qi) := by
  funext a i
  simp only [gm, gmBlk, c2, coe_sum, EReal.coe_mul, EReal.coe_add, EReal.coe_sub]

theorem coefL_coe (R : Fin 128 → ℝ) (wres : Fin 512 → Fin 512 → ℝ) (G : Fin 128 → Fin 512 → ℝ) :
    coefL (c1 R) (c2 wres) (c2 G) = c2 (coefL R wres G) := by
  funext a j
  simp only [coefL, c2_lo, mm_coe]
  simp only [coefL, c1, c2, EReal.coe_mul]

theorem coefR_coe (R : Fin 128 → ℝ) (wl : Fin 512 → Fin 256 → ℝ) (wres : Fin 512 → Fin 512 → ℝ)
    (G : Fin 128 → Fin 512 → ℝ) :
    coefR (c1 R) (c2 wl) (c2 wres) (c2 G) = c2 (coefR R wl wres G) := by
  funext a j
  simp only [coefR, c2_hi, mm_coe]
  simp only [coefR, c1, c2, EReal.coe_mul, EReal.coe_add]

end Ker

section Top

variable (Xr Xi : Fin 2048 → Fin 512 → ℝ) (Qr Qi : Fin 2048 → Fin 128 → ℝ)
  (Lr0 Lr1 Li0 Li1 : Fin 2048 → Fin 2048 → ℝ) (R : Fin 128 → ℝ)
  (w0 w1 wl : Fin 512 → Fin 256 → ℝ) (wres : Fin 512 → Fin 512 → ℝ) (bias : Fin 512 → ℝ)

theorem refRealL_coe (n : Fin 2048) (j : Fin 256) :
    refRealL (c2 Xr) (c2 Xi) (c2 Qr) (c2 Qi) (c2 Lr0) (c2 Lr1) (c2 Li0) (c2 Li1) (c1 R) (c2 w0) (c2 w1)
        (c2 wres) (c1 bias) n j
      = ((refRealL Xr Xi Qr Qi Lr0 Lr1 Li0 Li1 R w0 w1 wres bias n j : ℝ) : EReal) := by
  simp only [refRealL, c2_lo, filtR_coe, filtI_coe, procR_coe, mm_coe]
  simp only [c1, c2, EReal.coe_add]

theorem refImagL_coe (n : Fin 2048) (j : Fin 256) :
    refImagL (c2 Xr) (c2 Xi) (c2 Qr) (c2 Qi) (c2 Lr0) (c2 Lr1) (c2 Li0) (c2 Li1) (c1 R) (c2 w0) (c2 w1)
        (c2 wres) (c1 bias) n j
      = ((refImagL Xr Xi Qr Qi Lr0 Lr1 Li0 Li1 R w0 w1 wres bias n j : ℝ) : EReal) := by
  simp only [refImagL, c2_lo, filtR_coe, filtI_coe, procI_coe, mm_coe]
  simp only [c1, c2, EReal.coe_add]

theorem refRealR_coe (n : Fin 2048) (j : Fin 256) :
    refRealR (c2 Xr) (c2 Xi) (c2 Qr) (c2 Qi) (c1 R) (c2 w1) (c2 wl) (c2 wres) (c1 bias) n j
      = ((refRealR Xr Xi Qr Qi R w1 wl wres bias n j : ℝ) : EReal) := by
  simp only [refRealR, c2_hi, c1_sq, filtR_coe, filtI_coe, procR_coe, mm_coe]
  simp only [c1, c2, EReal.coe_add]

theorem refImagR_coe (n : Fin 2048) (j : Fin 256) :
    refImagR (c2 Xr) (c2 Xi) (c2 Qr) (c2 Qi) (c1 R) (c2 w1) (c2 wl) (c2 wres) (c1 bias) n j
      = ((refImagR Xr Xi Qr Qi R w1 wl wres bias n j : ℝ) : EReal) := by
  simp only [refImagR, c2_hi, c1_sq, filtR_coe, filtI_coe, procI_coe, mm_coe]
  simp only [c1, c2, EReal.coe_add]

theorem kerRealL_coe (n : Fin 2048) (j : Fin 256) :
    kerRealL (c2 Xr) (c2 Xi) (c2 Qr) (c2 Qi) (c1 R) (c2 wres) (c2 Lr0) (c2 Lr1) (c2 Li0) (c2 Li1) (c2 w0)
        (c2 w1) (c1 bias) n j
      = ((kerRealL Xr Xi Qr Qi R wres Lr0 Lr1 Li0 Li1 w0 w1 bias n j : ℝ) : EReal) := by
  simp only [kerRealL, gp_coe, gm_coe, coefL_coe, mm_coe]
  simp only [c1, c2, EReal.coe_add, EReal.coe_sub]

theorem kerImagL_coe (n : Fin 2048) (j : Fin 256) :
    kerImagL (c2 Xr) (c2 Xi) (c2 Qr) (c2 Qi) (c1 R) (c2 wres) (c2 Lr0) (c2 Lr1) (c2 Li0) (c2 Li1) (c2 w0)
        (c2 w1) (c1 bias) n j
      = ((kerImagL Xr Xi Qr Qi R wres Lr0 Lr1 Li0 Li1 w0 w1 bias n j : ℝ) : EReal) := by
  simp only [kerImagL, gp_coe, gm_coe, coefL_coe, mm_coe]
  simp only [c1, c2, EReal.coe_add, EReal.coe_sub]

theorem kerRealR_coe (n : Fin 2048) (j : Fin 256) :
    kerRealR (c2 Xr) (c2 Xi) (c2 Qr) (c2 Qi) (c1 R) (c2 wl) (c2 wres) (c2 w1) (c1 bias) n j
      = ((kerRealR Xr Xi Qr Qi R wl wres w1 bias n j : ℝ) : EReal) := by
  simp only [kerRealR, gp_coe, gm_coe, coefR_coe, mm_coe]
  simp only [c1, c2, EReal.coe_add, EReal.coe_sub]

theorem kerImagR_coe (n : Fin 2048) (j : Fin 256) :
    kerImagR (c2 Xr) (c2 Xi) (c2 Qr) (c2 Qi) (c1 R) (c2 wl) (c2 wres) (c2 w1) (c1 bias) n j
      = ((kerImagR Xr Xi Qr Qi R wl wres w1 bias n j : ℝ) : EReal) := by
  simp only [kerImagR, gp_coe, gm_coe, coefR_coe, mm_coe]
  simp only [c1, c2, EReal.coe_add, EReal.coe_sub]

end Top

end Cert.Spec
-- ==== Proof.SpecAlg.lean ====
import Mathlib.Data.EReal.Basic
import proofs.«159171_g70626442215508_cont_9to1_m_806_14_alg».proof.Proof.Spec
import proofs.«159171_g70626442215508_cont_9to1_m_806_14_alg».proof.Proof.SpecAlgReal
import proofs.«159171_g70626442215508_cont_9to1_m_806_14_alg».proof.Proof.SpecAlgCoe

namespace Cert.Spec

theorem exists_c2 {m n : ℕ} (A : Fin m → Fin n → EReal) (h : ∀ i j, ∃ x : ℝ, A i j = (x : EReal)) :
    ∃ A' : Fin m → Fin n → ℝ, A = c2 A' := by
  choose A' hA' using h
  exact ⟨A', funext fun i => funext fun j => hA' i j⟩

theorem exists_c1 {n : ℕ} (v : Fin n → EReal) (h : ∀ i, ∃ x : ℝ, v i = (x : EReal)) :
    ∃ v' : Fin n → ℝ, v = c1 v' := by
  choose v' hv' using h
  exact ⟨v', funext fun i => hv' i⟩

/-- With every entry real, each of the four result panels in factored form equals its dense form: name the real values and the claim is a finite-sum identity over ℝ. -/
theorem ker_eq_ref (Xr Xi : Fin 2048 → Fin 512 → EReal) (Qr Qi : Fin 2048 → Fin 128 → EReal)
    (Lr0 Lr1 Li0 Li1 : Fin 2048 → Fin 2048 → EReal) (R : Fin 128 → EReal)
    (w0 w1 wl : Fin 512 → Fin 256 → EReal) (wres : Fin 512 → Fin 512 → EReal) (bias : Fin 512 → EReal)
    (hXr : ∀ i j, ∃ x : ℝ, Xr i j = (x : EReal)) (hXi : ∀ i j, ∃ x : ℝ, Xi i j = (x : EReal))
    (hQr : ∀ i j, ∃ x : ℝ, Qr i j = (x : EReal)) (hQi : ∀ i j, ∃ x : ℝ, Qi i j = (x : EReal))
    (hLr0 : ∀ i j, ∃ x : ℝ, Lr0 i j = (x : EReal)) (hLr1 : ∀ i j, ∃ x : ℝ, Lr1 i j = (x : EReal))
    (hLi0 : ∀ i j, ∃ x : ℝ, Li0 i j = (x : EReal)) (hLi1 : ∀ i j, ∃ x : ℝ, Li1 i j = (x : EReal))
    (hR : ∀ a, ∃ x : ℝ, R a = (x : EReal))
    (hw0 : ∀ i j, ∃ x : ℝ, w0 i j = (x : EReal)) (hw1 : ∀ i j, ∃ x : ℝ, w1 i j = (x : EReal))
    (hwl : ∀ i j, ∃ x : ℝ, wl i j = (x : EReal)) (hwres : ∀ i j, ∃ x : ℝ, wres i j = (x : EReal))
    (hbias : ∀ j, ∃ x : ℝ, bias j = (x : EReal)) :
    (∀ n j, kerRealL Xr Xi Qr Qi R wres Lr0 Lr1 Li0 Li1 w0 w1 bias n j = refRealL Xr Xi Qr Qi Lr0 Lr1 Li0 Li1 R w0 w1 wres bias n j)
    ∧ (∀ n j, kerRealR Xr Xi Qr Qi R wl wres w1 bias n j = refRealR Xr Xi Qr Qi R w1 wl wres bias n j)
    ∧ (∀ n j, kerImagL Xr Xi Qr Qi R wres Lr0 Lr1 Li0 Li1 w0 w1 bias n j = refImagL Xr Xi Qr Qi Lr0 Lr1 Li0 Li1 R w0 w1 wres bias n j)
    ∧ (∀ n j, kerImagR Xr Xi Qr Qi R wl wres w1 bias n j = refImagR Xr Xi Qr Qi R w1 wl wres bias n j) := by
  obtain ⟨Xr, rfl⟩ := exists_c2 Xr hXr
  obtain ⟨Xi, rfl⟩ := exists_c2 Xi hXi
  obtain ⟨Qr, rfl⟩ := exists_c2 Qr hQr
  obtain ⟨Qi, rfl⟩ := exists_c2 Qi hQi
  obtain ⟨Lr0, rfl⟩ := exists_c2 Lr0 hLr0
  obtain ⟨Lr1, rfl⟩ := exists_c2 Lr1 hLr1
  obtain ⟨Li0, rfl⟩ := exists_c2 Li0 hLi0
  obtain ⟨Li1, rfl⟩ := exists_c2 Li1 hLi1
  obtain ⟨R, rfl⟩ := exists_c1 R hR
  obtain ⟨w0, rfl⟩ := exists_c2 w0 hw0
  obtain ⟨w1, rfl⟩ := exists_c2 w1 hw1
  obtain ⟨wl, rfl⟩ := exists_c2 wl hwl
  obtain ⟨wres, rfl⟩ := exists_c2 wres hwres
  obtain ⟨bias, rfl⟩ := exists_c1 bias hbias
  exact ⟨fun n j => by rw [kerRealL_coe, refRealL_coe, real_kerRealL], fun n j => by rw [kerRealR_coe, refRealR_coe, real_kerRealR],
    fun n j => by rw [kerImagL_coe, refImagL_coe, real_kerImagL], fun n j => by rw [kerImagR_coe, refImagR_coe, real_kerImagR]⟩

end Cert.Spec
-- ==== Proof.Finite.lean ====
import proofs.«159171_g70626442215508_cont_9to1_m_806_14_alg».proof.Pre_finite_inputs
import Idealize.ShloMosaic.PureOps.Ideal
import Idealize.ShloMosaic.Lib.ReduceAll
import Idealize.ShloMosaic.Lib.ValueIdx

namespace Cert.Finite

open Idealize.ShloMosaic
open Cert.Pre_finite_inputs

instance : Subsingleton S_.Idx := ⟨fun a b => funext fun d => d.elim0⟩

theorem inf_eq_top : Ideal.ofBits .f32 0x7F800000#32 = (⊤ : EReal) := by
  simp [Ideal.ofBits, Ideal.ieee]

theorem real_of_abs_lt_top (x : EReal) (h : max x (-x) < (⊤ : EReal)) : ∃ r : ℝ, x = (r : EReal) := by
  induction x using EReal.rec with
  | bot => simp at h
  | coe r => exact ⟨r, rfl⟩
  | top => simp at h

theorem lt_of_cmp_olt (x y : EReal) (h : Ideal.cmp .olt x y = 1#1) : x < y := by
  by_contra hn
  simp [Ideal.cmp, hn] at h

theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ValueIdx.ix0 = 1#1) :
    ∀ i, ∃ r : ℝ, a i = (r : EReal) := by
  intro i
  have hi := Host.reduce_andi_all _ _ hr hu ValueIdx.ix0 e i
  have h2 : Ideal.cmp .olt (max (a i) (-(a i))) (Ideal.ofBits .f32 0x7F800000#32) = 1#1 := hi
  rw [inf_eq_top] at h2
  exact real_of_abs_lt_top _ (lt_of_cmp_olt _ _ h2)

theorem entries_real [Cert.Pre_finite_inputs.Facts]
    (a0 a1 : FVec Ideal S2048x512 .f32) (a2 a3 a4 a5 : FVec Ideal S2048x2048 .f32) (a6 : FVec Ideal S128 .f32)
    (a7 a8 : FVec Ideal S2048x128 .f32) (a9 : FVec Ideal S2x512x256 .f32) (a10 : FVec Ideal S1x512x256 .f32)
    (a11 : FVec Ideal S1x512x512 .f32) (a12 : FVec Ideal S1x512 .f32)
    (h : Cert.Pre_finite_inputs.fn (F := Ideal) a0 a1 a2 a3 a4 a5 a6 a7 a8 a9 a10 a11 a12 = fun _ => 1#1) :
    (∀ i, ∃ x : ℝ, a0 i = (x : EReal)) ∧ (∀ i, ∃ x : ℝ, a1 i = x) ∧ (∀ i, ∃ x : ℝ, a2 i = x) ∧
    (∀ i, ∃ x : ℝ, a3 i = x) ∧ (∀ i, ∃ x : ℝ, a4 i = x) ∧ (∀ i, ∃ x : ℝ, a5 i = x) ∧
    (∀ i, ∃ x : ℝ, a6 i = x) ∧ (∀ i, ∃ x : ℝ, a7 i = x) ∧ (∀ i, ∃ x : ℝ, a8 i = x) ∧
    (∀ i, ∃ x : ℝ, a9 i = x) ∧ (∀ i, ∃ x : ℝ, a10 i = x) ∧ (∀ i, ∃ x : ℝ, a11 i = x) ∧
    (∀ i, ∃ x : ℝ, a12 i = x) := by
  have e := congrFun h ValueIdx.ix0
  dsimp only [fn, fn_part1, fn_part2, fn_part3, andi] at e
  simp only [IntOp.andi_eq_one] at e
  obtain ⟨⟨⟨⟨⟨⟨⟨⟨⟨⟨⟨⟨e0, e1⟩, e2⟩, e3⟩, e4⟩, e5⟩, e6⟩, e7⟩, e8⟩, e9⟩, e10⟩, e11⟩, e12⟩ := e
  exact ⟨real_of_all a0 _ _ _ e0, real_of_all a1 _ _ _ e1, real_of_all a2 _ _ _ e2, real_of_all a3 _ _ _ e3,
    real_of_all a4 _ _ _ e4, real_of_all a5 _ _ _ e5, real_of_all a6 _ _ _ e6, real_of_all a7 _ _ _ e7,
    real_of_all a8 _ _ _ e8, real_of_all a9 _ _ _ e9, real_of_all a10 _ _ _ e10, real_of_all a11 _ _ _ e11,
    real_of_all a12 _ _ _ e12⟩

end Cert.Finite
-- ==== Proof.lean ====
import proofs.«159171_g70626442215508_cont_9to1_m_806_14_alg».proof.Defs
import proofs.«159171_g70626442215508_cont_9to1_m_806_14_alg».proof.Proof.Gen.Kernel
import proofs.«159171_g70626442215508_cont_9to1_m_806_14_alg».proof.Proof.Gen.KernelIdeal
import proofs.«159171_g70626442215508_cont_9to1_m_806_14_alg».proof.Proof.Gen.ReferenceIdeal
import proofs.«159171_g70626442215508_cont_9to1_m_806_14_alg».proof.Proof.Gen.Pre_finite_inputs
import proofs.«159171_g70626442215508_cont_9to1_m_806_14_alg».proof.Proof.KRun
import proofs.«159171_g70626442215508_cont_9to1_m_806_14_alg».proof.Proof.KValue
import proofs.«159171_g70626442215508_cont_9to1_m_806_14_alg».proof.Proof.RefRun
import proofs.«159171_g70626442215508_cont_9to1_m_806_14_alg».proof.Proof.RefRead
import proofs.«159171_g70626442215508_cont_9to1_m_806_14_alg».proof.Proof.SpecAlg
import proofs.«159171_g70626442215508_cont_9to1_m_806_14_alg».proof.Proof.Finite
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem
open Cert.Mats

set_option smartUnfolding false in
set_option maxHeartbeats 400000 in
/-- Both kernel programs are one text under two names, so the frame proved once for every reading of the floats serves both. -/
theorem frame_k : Cert.frame_Kernel := fun m ρ _ => Cert.KernelIdeal.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.RefRun.run (F := Ideal) m ρ)

open Cert.KernelIdeal Cert.KernelIdeal.Gen Cert.KernelIdeal.Hand Cert.KernelIdeal.HandV in
/-- A column index below 512 lies in the left or in the right half. -/
theorem lo_or_hi (J : Fin 512) : (∃ j : Fin 256, J = Spec.lo j) ∨ (∃ j : Fin 256, J = Spec.hi j) := by
  by_cases h : J.val < 256
  · exact Or.inl ⟨⟨J.val, h⟩, Fin.ext rfl⟩
  · exact Or.inr ⟨⟨J.val - 256, by omega⟩, Fin.ext (by show J.val = J.val - 256 + 256; omega)⟩

open Cert.KernelIdeal Cert.KernelIdeal.Gen Cert.KernelIdeal.Hand Cert.KernelIdeal.HandV in
/-- On real inputs the reference's two results, read entry by entry, are the kernel program's two result arrays. -/
theorem results_eq (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) (c : Dev Cert.KernelIdeal.nD) :
    Cert.ReferenceIdeal.RefTerm.outReal (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) = aOutR (V4 m ρ) c
    ∧ Cert.ReferenceIdeal.RefTerm.outImag (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) = aOutI (V4 m ρ) c := by
  obtain ⟨h0, h1, h2, h3, h4, h5, h6, h7, h8, h9, h10, h11, h12⟩ := Cert.Finite.entries_real _ _ _ _ _ _ _ _ _ _ _ _ _ (hpre c)
  obtain ⟨kRL, kRR, kIL, kIR⟩ := Spec.ker_eq_ref (m2 (aXr (M0 m) c)) (m2 (aXi (M0 m) c)) (m2 (aQr (M0 m) c)) (m2 (aQi (M0 m) c))
      (m2 (aLr0 (M0 m) c)) (m2 (aLr1 (M0 m) c)) (m2 (aLi0 (M0 m) c)) (m2 (aLi1 (M0 m) c)) (v1 (aR (M0 m) c))
      (pl (aW (M0 m) c) 0) (pl (aW (M0 m) c) 1) (pl (aWl3 (M0 m) c) 0) (pl (aWres3 (M0 m) c) 0) (row0 (aBias (M0 m) c))
      (fun i j => h0 (ix2 i j)) (fun i j => h1 (ix2 i j)) (fun i j => h7 (ix2 i j)) (fun i j => h8 (ix2 i j))
      (fun i j => h2 (ix2 i j)) (fun i j => h3 (ix2 i j)) (fun i j => h4 (ix2 i j)) (fun i j => h5 (ix2 i j)) (fun a => h6 (ix1 a))
      (fun i j => h9 (ix3 0 i j)) (fun i j => h9 (ix3 1 i j)) (fun i j => h10 (ix3 0 i j)) (fun i j => h11 (ix3 0 i j)) (fun j => h12 (ix2 0 j))
  constructor
  · funext i
    obtain ⟨n, J, rfl⟩ : ∃ (n : Fin 2048) (J : Fin 512), i = ix2 n J := ⟨i 0, i 1, eq_ix2 i⟩
    rcases lo_or_hi J with ⟨j, rfl⟩ | ⟨j, rfl⟩
    · exact (Cert.ReferenceIdeal.RefRead.outReal_lo _ _ _ _ _ _ _ _ _ _ _ _ _ n j).trans ((kRL n j).symm.trans (outR_lo m ρ c n j).symm)
    · exact (Cert.ReferenceIdeal.RefRead.outReal_hi _ _ _ _ _ _ _ _ _ _ _ _ _ n j).trans ((kRR n j).symm.trans (outR_hi m ρ c n j).symm)
  · funext i
    obtain ⟨n, J, rfl⟩ : ∃ (n : Fin 2048) (J : Fin 512), i = ix2 n J := ⟨i 0, i 1, eq_ix2 i⟩
    rcases lo_or_hi J with ⟨j, rfl⟩ | ⟨j, rfl⟩
    · exact (Cert.ReferenceIdeal.RefRead.outImag_lo _ _ _ _ _ _ _ _ _ _ _ _ _ n j).trans ((kIL n j).symm.trans (outI_lo m ρ c n j).symm)
    · exact (Cert.ReferenceIdeal.RefRead.outImag_hi _ _ _ _ _ _ _ _ _ _ _ _ _ n j).trans ((kIR n j).symm.trans (outI_hi m ρ c n j).symm)

open Cert.KernelIdeal Cert.KernelIdeal.Gen Cert.KernelIdeal.Hand Cert.KernelIdeal.HandV in
theorem algebraic : Cert.algebraic_KernelIdeal_ReferenceIdeal := by
  intro m ρ m' ρ' hpre hagree
  refine ⟨fun c => V4 m ρ c main_v4_0, fun c => V4 m ρ c main_v4_1, ?_, ?_⟩
  · refine (θ_run Cert.KernelIdeal.defs _ _).mono (fun r h c => ?_) (Cert.KernelIdeal.Hand.run_all (F := Ideal) m ρ)
    exact ⟨h c _ (mem_uc main_v4_0 (by decide)), h c _ (mem_uc main_v4_1 (by decide)),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c),
      (h c _ (mem_uc main_arg11 (by decide))).trans (W4_main_arg11 m ρ c),
      (h c _ (mem_uc main_arg12 (by decide))).trans (W4_main_arg12 m ρ c)⟩
  · refine (θ_run Cert.ReferenceIdeal.defs _ _).mono (fun r h c => ⟨(h c).1.1.trans ?_, (h c).1.2.trans ?_, (h c).2⟩)
      (Cert.ReferenceIdeal.RefRun.run (F := Ideal) m' ρ')
    · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
      exact (results_eq m ρ hpre c).1
    · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
      exact (results_eq m ρ hpre c).2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
